-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v50) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x32 : Shape := ⟨2, ![32, 32]⟩
abbrev S64x32 : Shape := ⟨2, ![64, 32]⟩
abbrev S32x1 : Shape := ⟨2, ![32, 1]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_

variable [Facts]

def fn_part3 {F : FTy → Type} [FloatOps F] (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  main_v53

def fn_part2 {F : FTy → Type} [FloatOps F] (main_arg7 : FVec F S32x32 .f32) (main_arg8 : FVec F S32x32 .f32) (main_arg9 : FVec F S64x32 .f32) (main_arg10 : FVec F S32x1 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_v48 main_v49 main_v50

def fn_part1 {F : FTy → Type} [FloatOps F] (main_arg4 : FVec F S8192x8192 .f32) (main_arg5 : FVec F S32x32 .f32) (main_arg6 : FVec F S32x32 .f32) (main_arg7 : FVec F S32x32 .f32) (main_arg8 : FVec F S32x32 .f32) (main_arg9 : FVec F S64x32 .f32) (main_arg10 : FVec F S32x1 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x32 .f32) (main_arg1 : FVec F S8192x32 .f32) (main_arg2 : FVec F S8192x8192 .f32) (main_arg3 : FVec F S8192x8192 .f32) (main_arg4 : FVec F S8192x8192 .f32) (main_arg5 : FVec F S32x32 .f32) (main_arg6 : FVec F S32x32 .f32) (main_arg7 : FVec F S32x32 .f32) (main_arg8 : FVec F S32x32 .f32) (main_arg9 : FVec F S64x32 .f32) (main_arg10 : FVec F S32x1 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_v13 main_v16
-- ==== Kernel.lean ====
abbrev S8192x32 : Shape := ⟨2, ![8192, 32]⟩
abbrev S8192x8192 : Shape := ⟨2, ![8192, 8192]⟩
abbrev S32x32 : Shape := ⟨2, ![32, 32]⟩
abbrev S64x32 : Shape := ⟨2, ![64, 32]⟩
abbrev S32x1 : Shape := ⟨2, ![32, 1]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S1024x32 : Shape := ⟨2, ![1024, 32]⟩
abbrev S1x8192 : Shape := ⟨2, ![1, 8192]⟩
abbrev S1x1024 : Shape := ⟨2, ![1, 1024]⟩
abbrev S8192x64 : Shape := ⟨2, ![8192, 64]⟩
abbrev S8192x2 : Shape := ⟨2, ![8192, 2]⟩
abbrev S8192 : Shape := ⟨1, ![8192]⟩

abbrev nBuf : Space → Nat
  | .hbm => 73
  | .vmem => 41
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S64x32, .f32⟩
  | .hbm, ⟨10, _⟩ => ⟨S32x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x1, .f32⟩
  | .hbm, ⟨30, _⟩ => ⟨S1x8192, .f32⟩
  | .hbm, ⟨31, _⟩ => ⟨S8192x1, .f32⟩
  | .hbm, ⟨32, _⟩ => ⟨S1x8192, .f32⟩
  | .hbm, ⟨33, _⟩ => ⟨S8192x1, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x64, .f32⟩
  | .hbm, ⟨40, _⟩ => ⟨S8192x32, .f32⟩
  | .hbm, ⟨41, _⟩ => ⟨S_, .f32⟩
  | .hbm, ⟨42, _⟩ => ⟨S8192x32, .f32⟩
  | .hbm, ⟨43, _⟩ => ⟨S8192x32, .f32⟩
  | .hbm, ⟨44, _⟩ => ⟨S8192x1, .f32⟩
  | .hbm, ⟨45, _⟩ => ⟨S8192x64, .f32⟩
  | .hbm, ⟨46, _⟩ => ⟨S8192x32, .f32⟩
  | .hbm, ⟨47, _⟩ => ⟨S_, .f32⟩
  | .hbm, ⟨48, _⟩ => ⟨S8192x32, .f32⟩
  | .hbm, ⟨49, _⟩ => ⟨S8192x32, .f32⟩
  | .hbm, ⟨50, _⟩ => ⟨S8192x1, .f32⟩
  | .hbm, ⟨51, _⟩ => ⟨S8192x2, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1, .f32⟩
  | .hbm, ⟨58, _⟩ => ⟨S8192x2, .f32⟩
  | .hbm, ⟨59, _⟩ => ⟨S8192x2, .f32⟩
  | .hbm, ⟨60, _⟩ => ⟨S8192x2, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2, .f32⟩
  | .hbm, ⟨65, _⟩ => ⟨S8192x2, .f32⟩
  | .hbm, ⟨66, _⟩ => ⟨S8192x1, .f32⟩
  | .hbm, ⟨67, _⟩ => ⟨S8192x32, .f32⟩
  | .hbm, ⟨68, _⟩ => ⟨S8192x32, .f32⟩
  | .hbm, ⟨69, _⟩ => ⟨S8192x1, .f32⟩
  | .hbm, ⟨70, _⟩ => ⟨S8192x32, .f32⟩
  | .hbm, ⟨71, _⟩ => ⟨S8192x32, .f32⟩
  | .hbm, ⟨72, _⟩ => ⟨S8192x32, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1024, .f32⟩
  | .local _ .vmem, ⟨5, _⟩ => ⟨S1024x1024, .f32⟩
  | .local _ .vmem, ⟨6, _⟩ => ⟨S1024x32, .f32⟩
  | .local _ .vmem, ⟨7, _⟩ => ⟨S1024x32, .f32⟩
  | .local _ .vmem, ⟨8, _⟩ => ⟨S1024x1, .f32⟩
  | .local _ .vmem, ⟨9, _⟩ => ⟨S1024x1, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x1024, .f32⟩
  | .local _ .vmem, ⟨14, _⟩ => ⟨S1024x1024, .f32⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | .local _ .vmem, ⟨18, _⟩ => ⟨S1024x1024, .f32⟩
  | .local _ .vmem, ⟨19, _⟩ => ⟨S1024x32, .f32⟩
  | .local _ .vmem, ⟨20, _⟩ => ⟨S1024x32, .f32⟩
  | .local _ .vmem, ⟨21, _⟩ => ⟨S1024x1, .f32⟩
  | .local _ .vmem, ⟨22, _⟩ => ⟨S1024x1, .f32⟩
  | .local _ .vmem, ⟨23, _⟩ => ⟨S1024x32, .f32⟩
  | .local _ .vmem, ⟨24, _⟩ => ⟨S1024x32, .f32⟩
  | .local _ .vmem, ⟨25, _⟩ => ⟨S1024x32, .f32⟩
  | .local _ .vmem, ⟨26, _⟩ => ⟨S1024x1024, .f32⟩
  | .local _ .vmem, ⟨27, _⟩ => ⟨S1024x1024, .f32⟩
  | .local _ .vmem, ⟨28, _⟩ => ⟨S1024x1, .f32⟩
  | .local _ .vmem, ⟨29, _⟩ => ⟨S1024x1, .f32⟩
  | .local _ .vmem, ⟨30, _⟩ => ⟨S1x8192, .f32⟩
  | .local _ .vmem, ⟨31, _⟩ => ⟨S1x8192, .f32⟩
  | .local _ .vmem, ⟨32, _⟩ => ⟨S1024x1024, .f32⟩
  | .local _ .vmem, ⟨33, _⟩ => ⟨S1024x1024, .f32⟩
  | .local _ .vmem, ⟨34, _⟩ => ⟨S1024x32, .f32⟩
  | .local _ .vmem, ⟨35, _⟩ => ⟨S1024x32, .f32⟩
  | .local _ .vmem, ⟨36, _⟩ => ⟨S1024x1, .f32⟩
  | .local _ .vmem, ⟨37, _⟩ => ⟨S1024x1, .f32⟩
  | .local _ .vmem, ⟨38, _⟩ => ⟨S1024x32, .f32⟩
  | .local _ .vmem, ⟨39, _⟩ => ⟨S1024x32, .f32⟩
  | .local _ .vmem, ⟨40, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_cst : Ref sig .tc := ⟨.hbm, 47, rfl⟩
abbrev main_call1_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc5_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc5_sem3_0 : DmaSem sig := 35
abbrev cc5_sem3_1 : DmaSem sig := 36

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 8], ![false, false]⟩

def k4_mult1 (i : grid4.Coords) : BitVec 32 :=
  let arg1 : BitVec 32 := BitVec.ofNat 32 (i 1).val
  let c1024_i32 : BitVec 32 := 1024#32
  let v17 : BitVec 32 := Scalar.muli arg1 c1024_i32
  v17
def k4_off1 (i : grid4.Coords) : Fin 2 → Nat :=
  let c0_10 : Index := 0#32
  let arg1 : BitVec 32 := BitVec.ofNat 32 (i 1).val
  let c1024_i32 : BitVec 32 := 1024#32
  let v17 : BitVec 32 := Scalar.muli arg1 c1024_i32
  let v18 : BitVec 32 := v17
  let v19 : Index := Scalar.indexCast v18
  ![0, v19.toNat]
def k4_cond3 (i : grid4.Coords) : BitVec 1 :=
  let arg0 : BitVec 32 := BitVec.ofNat 32 (i 0).val
  let c7_i32 : BitVec 32 := 7#32
  let v26 : BitVec 1 := Scalar.cmpi .eq arg0 c7_i32
  let arg1 : BitVec 32 := BitVec.ofNat 32 (i 1).val
  let c7_i32_12 : BitVec 32 := 7#32
  let v27 : BitVec 1 := Scalar.cmpi .eq arg1 c7_i32_12
  let v28 : BitVec 1 := Scalar.andi v26 v27
  let v29 : BitVec 32 := Scalar.extui v28
  let c0_i32_13 : BitVec 32 := 0#32
  let v30 : BitVec 1 := Scalar.cmpi .ne v29 c0_i32_13
  v30

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S1x8192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  broadcasts_S1024x1_S1024x32 : S1024x1.Broadcasts S1024x32
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  shapeCasts_S1x8192_S8192x1 : S1x8192.ShapeCasts S8192x1
  concatenates_S8192x32_S8192x32_S8192x64_d1 : Shape.Concatenates [S8192x32, S8192x32] S8192x64 1
  bcast_S_S8192x32 : S_.BroadcastsInDim S8192x32 (![] : Fin 0 → Fin S8192x32.rank)
  concatenates_S8192x1_S8192x1_S8192x2_d1 : Shape.Concatenates [S8192x1, S8192x1] S8192x2 1
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  dot_S8192x32_S32x32_S8192x32_1_0_0_1_n_n_wf : DotDims.WF S8192x32 S32x32 S8192x32 [1] [0] [0] [1] [] []
  dot_S1024x1024_S1024x32_S1024x32_1_0_0_1_n_n_wf : DotDims.WF S1024x1024 S1024x32 S1024x32 [1] [0] [0] [1] [] []
  dot_S8192x64_S64x32_S8192x32_1_0_0_1_n_n_wf : DotDims.WF S8192x64 S64x32 S8192x32 [1] [0] [0] [1] [] []
  dot_S8192x32_S32x1_S8192x1_1_0_0_1_n_n_wf : DotDims.WF S8192x32 S32x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S8192x32.size a
  hwx1_1 : ∀ i : grid1.Coords, EltTy.bits .f32 = 32 ∨ (Rect.block (s := S8192x32) S1024x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S8192x32.size a
  hwx1_3 : ∀ i : grid1.Coords, EltTy.bits .f32 = 32 ∨ (Rect.block (s := S8192x32) S1024x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .f32 = 32 ∨ (Rect.block (s := S8192x1) S1024x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S8192x32.size a
  hwx3_1 : ∀ i : grid3.Coords, EltTy.bits .f32 = 32 ∨ (Rect.block (s := S8192x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x32.size a ≤ S8192x32.size a
  hwx3_3 : ∀ i : grid3.Coords, EltTy.bits .f32 = 32 ∨ (Rect.block (s := S8192x32) S1024x32.size (cc3_transform_3 i) (hinb3_3 i)).WholeWords (EltTy.packing .f32)
  hrank4 : 0 < grid4.rank
  k4_mult1_dvd : ∀ i : grid4.Coords, 1024 ∣ (k4_mult1 i).toNat
  k4_off1_inb : ∀ i : grid4.Coords, ∀ a, (k4_off1 i) a + S1x1024.size a ≤ S1x8192.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .f32 = 32 ∨ (Rect.block (s := S8192x8192) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S8192x1.size a
  hwx4_1 : ∀ i : grid4.Coords, EltTy.bits .f32 = 32 ∨ (Rect.block (s := S8192x1) S1024x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8192.size a ≤ S1x8192.size a
  hwx4_2 : ∀ i : grid4.Coords, EltTy.bits .f32 = 32 ∨ (Rect.block (s := S1x8192) S1x8192.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x8192.size a
  hwx5_0 : ∀ i : grid5.Coords, EltTy.bits .f32 = 32 ∨ (Rect.block (s := S8192x8192) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x32.size a ≤ S8192x32.size a
  hwx5_1 : ∀ i : grid5.Coords, EltTy.bits .f32 = 32 ∨ (Rect.block (s := S8192x32) S1024x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1.size a ≤ S8192x1.size a
  hwx5_2 : ∀ i : grid5.Coords, EltTy.bits .f32 = 32 ∨ (Rect.block (s := S8192x1) S1024x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x32.size a ≤ S8192x32.size a
  hwx5_3 : ∀ i : grid5.Coords, EltTy.bits .f32 = 32 ∨ (Rect.block (s := S8192x32) S1024x32.size (cc5_transform_3 i) (hinb5_3 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg4) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg4) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1024x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg3) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16_0) S1024x1.size cc4_transform_1 reads4_1 true false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16_1) S1x8192.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond3 i == 1#1) | ⟨_ + 3, h⟩ => absurd h (Nat.not_lt.2 (Nat.le_add_left _ _))

abbrev win5_0 : Pipeline.Window sig grid5 :=
  Pipeline.Window.ofSpec (Memref.whole main_arg3) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S1024x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S1024x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v24) S1024x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x32 : Shape := ⟨2, ![32, 32]⟩
abbrev S64x32 : Shape := ⟨2, ![64, 32]⟩
abbrev S32x1 : Shape := ⟨2, ![32, 1]⟩
abbrev S_ : Shape := ⟨0, ![]⟩
abbrev S8192 : Shape := ⟨1, ![8192]⟩
abbrev S8192x1 : Shape := ⟨2, ![8192, 1]⟩
abbrev S8192x64 : Shape := ⟨2, ![8192, 64]⟩
abbrev S8192x2 : Shape := ⟨2, ![8192, 2]⟩

abbrev nBuf : Space → Nat
  | .hbm => 88
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S64x32, .f32⟩
  | .hbm, ⟨10, _⟩ => ⟨S32x1, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192x32, .f32⟩
  | .hbm, ⟨18, _⟩ => ⟨S8192x1, .f32⟩
  | .hbm, ⟨19, _⟩ => ⟨S8192x1, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x32, .f32⟩
  | .hbm, ⟨32, _⟩ => ⟨S8192x1, .f32⟩
  | .hbm, ⟨33, _⟩ => ⟨S8192x1, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x32, .f32⟩
  | .hbm, ⟨46, _⟩ => ⟨S8192x32, .f32⟩
  | .hbm, ⟨47, _⟩ => ⟨S8192x1, .f32⟩
  | .hbm, ⟨48, _⟩ => ⟨S8192x1, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x64, .f32⟩
  | .hbm, ⟨55, _⟩ => ⟨S8192x32, .f32⟩
  | .hbm, ⟨56, _⟩ => ⟨S_, .f32⟩
  | .hbm, ⟨57, _⟩ => ⟨S8192x32, .f32⟩
  | .hbm, ⟨58, _⟩ => ⟨S8192x32, .f32⟩
  | .hbm, ⟨59, _⟩ => ⟨S8192x1, .f32⟩
  | .hbm, ⟨60, _⟩ => ⟨S8192x64, .f32⟩
  | .hbm, ⟨61, _⟩ => ⟨S8192x32, .f32⟩
  | .hbm, ⟨62, _⟩ => ⟨S_, .f32⟩
  | .hbm, ⟨63, _⟩ => ⟨S8192x32, .f32⟩
  | .hbm, ⟨64, _⟩ => ⟨S8192x32, .f32⟩
  | .hbm, ⟨65, _⟩ => ⟨S8192x1, .f32⟩
  | .hbm, ⟨66, _⟩ => ⟨S8192x2, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1, .f32⟩
  | .hbm, ⟨73, _⟩ => ⟨S8192x2, .f32⟩
  | .hbm, ⟨74, _⟩ => ⟨S8192x2, .f32⟩
  | .hbm, ⟨75, _⟩ => ⟨S8192x2, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x2, .f32⟩
  | .hbm, ⟨80, _⟩ => ⟨S8192x2, .f32⟩
  | .hbm, ⟨81, _⟩ => ⟨S8192x1, .f32⟩
  | .hbm, ⟨82, _⟩ => ⟨S8192x32, .f32⟩
  | .hbm, ⟨83, _⟩ => ⟨S8192x32, .f32⟩
  | .hbm, ⟨84, _⟩ => ⟨S8192x1, .f32⟩
  | .hbm, ⟨85, _⟩ => ⟨S8192x32, .f32⟩
  | .hbm, ⟨86, _⟩ => ⟨S8192x32, .f32⟩
  | .hbm, ⟨87, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_cst : Ref sig .tc := ⟨.hbm, 56, rfl⟩
abbrev main_call0_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  reducesTo_S8192x8192_S8192_d0 : S8192x8192.ReducesTo [0] S8192
  concatenates_S8192x32_S8192x32_S8192x64_d1 : Shape.Concatenates [S8192x32, S8192x32] S8192x64 1
  bcast_S_S8192x32 : S_.BroadcastsInDim S8192x32 (![] : Fin 0 → Fin S8192x32.rank)
  concatenates_S8192x1_S8192x1_S8192x2_d1 : Shape.Concatenates [S8192x1, S8192x1] S8192x2 1
  reducesTo_S8192x2_S8192_d1 : S8192x2.ReducesTo [1] S8192
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []
  dot_S8192x64_S64x32_S8192x32_1_0_0_1_n_n_wf : DotDims.WF S8192x64 S64x32 S8192x32 [1] [0] [0] [1] [] []
  dot_S8192x32_S32x1_S8192x1_1_0_0_1_n_n_wf : DotDims.WF S8192x32 S32x1 S8192x1 [1] [0] [0] [1] [] []

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.K.R0.lean ====
import proofs.«164122_j44229573214371_1_alg».proof.Proof.Gen.Kernel.Launch
import proofs.«164122_j44229573214371_1_alg».proof.Proof.Gen.Kernel.Skeleton
import proofs.«164122_j44229573214371_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_first (i : grid0.Coords) : Prop :=
  (Scalar.cmpi .ne (Scalar.extui (Scalar.cmpi .eq (BitVec.ofNat 32 (i 1).val) 0#32)) 0#32) = 1#1

theorem hcond0_first : ∀ t : Fin cfg0.N, cond0_first (grid0.coords t) ↔ t.val % 8 = 0 :=
  (by decide +kernel : ∀ t : Fin grid0.N, cond0_first (grid0.coords t) ↔ t.val % 8 = 0)

abbrev view0_col : View sig .tc .vmem S1024x1 .f32 := (Memref.whole cc0_stg1_0 : Memref sig .tc .vmem S1024x1 .f32).view

abbrev mem0_mat (t : Fin cfg0.N) : Memref sig .tc .vmem S1024x1024 .f32 := win0_0.stage (cfg0.slots t 0)
abbrev whole0_mat (t : Fin cfg0.N) : (mem0_mat t).IsWhole := hstage0_0 ((cfg0.slots t 0).cast nbuf0_0)
abbrev mem0_col (t : Fin cfg0.N) : Memref sig .tc .vmem S1024x1 .f32 := win0_1.stage (cfg0.slots t 1)
abbrev whole0_col (t : Fin cfg0.N) : (mem0_col t).IsWhole := hstage0_1 ((cfg0.slots t 1).cast nbuf0_1)

set_option maxHeartbeats 1000000 in

noncomputable def run0_first (c : Dev nD) (i : grid0.Coords)
    (a : Memref sig .tc .vmem S1024x1024 .f32) (ha : a.IsWhole) (o : Memref sig .tc .vmem S1024x1 .f32) (ho : o.IsWhole)
    (hc : cond0_first i) (x : Vec F S1024x1024 .f32) :
    { L : List (View.Piece (Elt F) S1024x1 .f32) //
      ∀ (E : Set ℕ) (K : PUnit → sProp 𝕄),
        iprop(owns (c : Thread nD τ) a fullShare x ∗ (∃ d, owns (c : Thread nD τ) o fullShare d)
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__rowsum_kernel i a ha o ho) K } := by
  refine ⟨?_, fun E K => ?run⟩
  case run =>
    simp only [cc0__rowsum_kernel_eq_skeleton]; unfold cc0__rowsum_kernel_skel
    unfold owns
    iintro ⟨⟨%fa, %hfa, Ha⟩, ⟨%d, %fo, -, Ho⟩, Hk⟩
    obtain rfl := ha.eq_unread hfa
    sl_exec (disch := first | exact hc)
    sl_step
    iapply Hk
    isplitl [Ha]
    · iexists _; isplitr; · ipureintro; exact ha.read_unread _
      iexact Ha
    iexists _; iexact Ho

set_option maxHeartbeats 1000000 in

noncomputable def run0_later (c : Dev nD) (i : grid0.Coords)
    (a : Memref sig .tc .vmem S1024x1024 .f32) (ha : a.IsWhole) (o : Memref sig .tc .vmem S1024x1 .f32) (ho : o.IsWhole)
    (hc : ¬cond0_first i) (x : Vec F S1024x1024 .f32) (r : Vec F S1024x1 .f32) :
    { L : List (View.Piece (Elt F) S1024x1 .f32) //
      ∀ (E : Set ℕ) (K : PUnit → sProp 𝕄),
        iprop(owns (c : Thread nD τ) a fullShare x ∗ owns (c : Thread nD τ) o fullShare r
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__rowsum_kernel i a ha o ho) K } := by
  refine ⟨?_, fun E K => ?run⟩
  case run =>
    simp only [cc0__rowsum_kernel_eq_skeleton]; unfold cc0__rowsum_kernel_skel
    unfold owns
    iintro ⟨⟨%fa, %hfa, Ha⟩, ⟨%fo, %hfo, Ho⟩, Hk⟩
    obtain rfl := ha.eq_unread hfa; obtain rfl := ho.eq_unread hfo
    sl_exec (disch := first | exact hc)
    sl_step
    iapply Hk
    isplitl [Ha]
    · iexists _; isplitr; · ipureintro; exact ha.read_unread _
      iexact Ha
    iexists _; iexact Ho

theorem cover0_first (c : Dev nD) (i : grid0.Coords)
    (a : Memref sig .tc .vmem S1024x1024 .f32) (ha : a.IsWhole) (o : Memref sig .tc .vmem S1024x1 .f32) (ho : o.IsWhole)
    (hc : cond0_first i) (x : Vec F S1024x1024 .f32) (y : S1024x1.Idx) :
    ∃ pc ∈ (run0_first c i a ha o ho hc x).1, y ∈ pc.1.set :=
  View.cover_of_tiledL (run0_first c i a ha o ho hc x).1 S1024x1.size (by sl_kernel_rfl) y

theorem cover0_later (c : Dev nD) (i : grid0.Coords)
    (a : Memref sig .tc .vmem S1024x1024 .f32) (ha : a.IsWhole) (o : Memref sig .tc .vmem S1024x1 .f32) (ho : o.IsWhole)
    (hc : ¬cond0_first i) (x : Vec F S1024x1024 .f32) (r : Vec F S1024x1 .f32) (y : S1024x1.Idx) :
    ∃ pc ∈ (run0_later c i a ha o ho hc x r).1, y ∈ pc.1.set :=
  View.cover_of_tiledL (run0_later c i a ha o ho hc x r).1 S1024x1.size (by sl_kernel_rfl) y

theorem hz0 : (![0, 0] : Fin 2 → Nat) = fun _ => 0 := funext fun a => by fin_cases a <;> rfl

theorem left0_first (c : Dev nD) (i : grid0.Coords)
    (a : Memref sig .tc .vmem S1024x1024 .f32) (ha : a.IsWhole) (o : Memref sig .tc .vmem S1024x1 .f32) (ho : o.IsWhole)
    (hc : cond0_first i) (x : Vec F S1024x1024 .f32) :
    view0_col.read (Elt F) (view0_col.writes (Elt F) view0_col.junk (run0_first c i a ha o ho hc x).1)
      = k0_pay2 (k0_pay1 (F := F)) x := by
  rw [View.read_writes_eq_canon _ _ _ (cover0_first c i a ha o ho hc x)]
  unfold run0_first
  dsimp only
  sl_unfold_words
  rw [View.canon_cons_unit_zero (S := S1024x1) hz0, View.readCov_unit_zero (S := S1024x1) _ hz0]
  simp only [View.readAt_eq_ld, ha.read_unread, View.ld_unit_zero (S := S1024x1024) hz0]

theorem left0_later (c : Dev nD) (i : grid0.Coords)
    (a : Memref sig .tc .vmem S1024x1024 .f32) (ha : a.IsWhole) (o : Memref sig .tc .vmem S1024x1 .f32) (ho : o.IsWhole)
    (hc : ¬cond0_first i) (x : Vec F S1024x1024 .f32) (r : Vec F S1024x1 .f32) :
    view0_col.read (Elt F) (view0_col.writes (Elt F) view0_col.junk (run0_later c i a ha o ho hc x r).1)
      = k0_pay2 r x := by
  rw [View.read_writes_eq_canon _ _ _ (cover0_later c i a ha o ho hc x r)]
  unfold run0_later
  dsimp only
  sl_unfold_words
  rw [View.canon_unit_zero hz0]
  simp only [View.readAt_eq_ld, ha.read_unread, ho.read_unread, View.ld_unit_zero (S := S1024x1024) hz0,
    View.ld_unit_zero (S := S1024x1) hz0]

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The running row sums after point n = 8·i + k: column tiles 0 … k of row tile i, restarted at k = 0.
def rs0 (c : Dev nD) : (n : ℕ) → n < cfg0.N → Vec F S1024x1 .f32
  | 0, h => k0_pay2 (k0_pay1 (F := F)) (blk0 V c 0 ⟨0, h⟩)
  | n + 1, h => k0_pay2 (if (n + 1) % 8 = 0 then (k0_pay1 (F := F)) else rs0 c n (Nat.lt_of_succ_lt h)) (blk0 V c 0 ⟨n + 1, h⟩)

theorem rs0_first (c : Dev nD) (t : Fin cfg0.N) (h : t.val % 8 = 0) :
    rs0 V c t.val t.isLt = k0_pay2 (k0_pay1 (F := F)) (blk0 V c 0 t) := by
  obtain ⟨n, hn⟩ := t
  cases n with
  | zero => rfl
  | succ n => exact congrArg (fun z => k0_pay2 z (blk0 V c 0 ⟨n + 1, hn⟩)) (if_pos h)

theorem rs0_later (c : Dev nD) (t : Fin cfg0.N) (h : ¬t.val % 8 = 0) :
    rs0 V c t.val t.isLt
      = k0_pay2 (rs0 V c (t.val - 1) (Nat.lt_of_le_of_lt (Nat.sub_le _ _) t.isLt)) (blk0 V c 0 t) := by
  obtain ⟨n, hn⟩ := t
  cases n with
  | zero => exact absurd (Nat.zero_mod _) h
  | succ n => exact congrArg (fun z => k0_pay2 z (blk0 V c 0 ⟨n + 1, hn⟩)) (if_neg h)

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => rs0 V c t.val t.isLt
  Φ _ := Pipeline.ΦA spec0 c
  q _ := fullShare
  owed _ := 0

theorem arr0_eq (c : Dev nD) (w : Fin cfg0.W) : (dat0 V c).A w = V c (Pipeline.arrRef spec0 w) := by
  dsimp only [dat0]

theorem after0_mat (c : Dev nD) (t : Fin cfg0.N) : (dat0 V c).after 0 t = blk0 V c 0 t := by dsimp only [dat0]

theorem after0_col (c : Dev nD) (t : Fin cfg0.N) : (dat0 V c).after 1 t = rs0 V c t.val t.isLt := by dsimp only [dat0]

theorem before0_mat (c : Dev nD) (t : Fin cfg0.N) (d) : (dat0 V c).before 0 t d = blk0 V c 0 t :=
  ((dat0 V c).before_in_eq_fetched 0 rfl (fun _ => rfl) (fun _ _ _ => rfl)
      (fun t => by rw [after0_mat]; unfold Dat.blockOf blk0; rw [arr0_eq]; try rfl) t d).trans
    (by unfold Dat.fetched Dat.blockOf blk0; rw [arr0_eq]; try rfl)

theorem before0_col_later (c : Dev nD) (t : Fin cfg0.N) (h : ¬t.val % 8 = 0) (d) :
    (dat0 V c).before 1 t d = rs0 V c (t.val - 1) (Nat.lt_of_le_of_lt (Nat.sub_le _ _) t.isLt) := by
  have hN : t.val < 64 := lt_of_lt_of_eq t.isLt (show cfg0.N = 64 from N_0)
  rw [Dat.before_out_kept _ 1 rfl t (by omega)
    (Bool.eq_false_iff.mpr fun hf => by have := (flush0_1 _).mp hf; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (mem0_mat t) fullShare ((dat0 V c).before 0 t d))
    ∗ (∃ d, owns (c : Thread nD τ) (mem0_col t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (mem0_mat t) fullShare ((dat0 V c).after 0 t)
    ∗ owns (c : Thread nD τ) (mem0_col t) fullShare ((dat0 V c).after 1 t))

set_option maxHeartbeats 800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_mat]
  rw [show (dat0 V c).Φ t.succ = (dat0 V c).Φ t.castSucc from rfl,
    show (dat0 V c).owesAt () t.succ = (dat0 V c).owesAt () t.castSucc from rfl,
    after0_mat, after0_col]
  by_cases h : t.val % 8 = 0
  · rw [rs0_first V c t h, ← left0_first c (grid0.coords t) (mem0_mat t) (whole0_mat t) (mem0_col t) (whole0_col t)
      ((hcond0_first t).mpr h) (blk0 V c 0 t)]
    iintro ⟨HΦ, Hd, ⟨%d0, Hm⟩, ⟨%d1, Hc⟩⟩
    iapply ((run0_first c (grid0.coords t) _ _ _ _ ((hcond0_first t).mpr h) (blk0 V c 0 t)).2 Set.univ _)
    isplitl [Hm]; · iexact Hm
    isplitl [Hc]; · iexists _; iexact Hc
    iintro ⟨Hm, ⟨%e, Hc⟩⟩
    iframe HΦ Hd Hm
    unfold owns; iexists _; isplitr
    swap; · iexact Hc
    ipureintro; exact View.read_writes_of_cover _ _ _ _ _ (cover0_first c _ _ _ _ _ _ _)
  · rw [rs0_later V c t h, ← left0_later c (grid0.coords t) (mem0_mat t) (whole0_mat t) (mem0_col t) (whole0_col t)
      (fun hc => h ((hcond0_first t).mp hc)) (blk0 V c 0 t)]
    simp only [before0_col_later V c t h]
    iintro ⟨HΦ, Hd, ⟨%d0, Hm⟩, ⟨%d1, Hc⟩⟩
    iapply ((run0_later c (grid0.coords t) _ _ _ _ (fun hc => h ((hcond0_first t).mp hc)) (blk0 V c 0 t) _).2 Set.univ _)
    iframe Hm Hc
    iintro ⟨Hm, ⟨%e, Hc⟩⟩
    iframe HΦ Hd Hm
    unfold owns; iexists _; isplitr
    swap; · iexact Hc
    ipureintro; exact View.read_writes_of_cover _ _ _ _ _ (cover0_later c _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Hand

end
-- ==== Proof.K.R1.lean ====
import proofs.«164122_j44229573214371_1_alg».proof.Proof.Gen.Kernel.Launch
import proofs.«164122_j44229573214371_1_alg».proof.Proof.Gen.Kernel.Skeleton
import proofs.«164122_j44229573214371_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem hz1 : (![0, 0] : Fin 2 → Nat) = fun _ => 0 := funext fun a => by fin_cases a <;> rfl

set_option maxHeartbeats 1000000 in

theorem run1_first (c : Dev nD) (E : Set ℕ) (i : grid1.Coords)
    (arg2 : Memref sig .tc .vmem S1024x1024 .f32) (harg2 : arg2.IsWhole) (arg3 : Memref sig .tc .vmem S1024x32 .f32) (harg3 : arg3.IsWhole)
    (arg4 : Memref sig .tc .vmem S1024x1 .f32) (harg4 : arg4.IsWhole) (arg5 : Memref sig .tc .vmem S1024x32 .f32) (harg5 : arg5.IsWhole)
    (arg6 : Memref sig .tc .vmem S1024x32 .f32) (harg6 : arg6.IsWhole) (hc0 : cond1_0 i) (hc1 : ¬cond1_1 i)
    (x0 : Vec F S1024x1024 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 x0 x1 (k1_pay1 (F := F)))) -∗ K ⟨⟩))
      ⊢ wp frame (wpE (defs₀ (F := F)) Variants.none c none) E
          (cc1__wmm_kernel i arg2 harg2 arg3 harg3 arg4 harg4 arg5 harg5 arg6 harg6) K := by
  simp only [cc1__wmm_kernel_eq_skeleton]; unfold cc1__wmm_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  refine (View.read_writes_eq_canon _ _ _ (fun y => ?_)).trans ?_
  · exact ⟨_, List.mem_cons_self, View.mem_set_unit_zero hz1 inb_S1024x32_S1024x32_0_0 y⟩
  rw [View.canon_cons_unit_zero (S := S1024x32) hz1, View.readCov_unit_zero (S := S1024x32) _ hz1]
  simp only [View.readAt_eq_ld, harg2.read_unread, harg3.read_unread,
    View.ld_unit_zero (S := S1024x1024) hz1, View.ld_unit_zero (S := S1024x32) hz1]

set_option maxHeartbeats 1000000 in

theorem run1_mid (c : Dev nD) (E : Set ℕ) (i : grid1.Coords)
    (arg2 : Memref sig .tc .vmem S1024x1024 .f32) (harg2 : arg2.IsWhole) (arg3 : Memref sig .tc .vmem S1024x32 .f32) (harg3 : arg3.IsWhole)
    (arg4 : Memref sig .tc .vmem S1024x1 .f32) (harg4 : arg4.IsWhole) (arg5 : Memref sig .tc .vmem S1024x32 .f32) (harg5 : arg5.IsWhole)
    (arg6 : Memref sig .tc .vmem S1024x32 .f32) (harg6 : arg6.IsWhole) (hc0 : ¬cond1_0 i) (hc1 : ¬cond1_1 i)
    (x0 : Vec F S1024x1024 .f32) (x1 : Vec F S1024x32 .f32) (xs : Vec F S1024x32 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 x0 x1 xs)) -∗ K ⟨⟩))
      ⊢ wp frame (wpE (defs₀ (F := F)) Variants.none c none) E
          (cc1__wmm_kernel i arg2 harg2 arg3 harg3 arg4 harg4 arg5 harg5 arg6 harg6) K := by
  simp only [cc1__wmm_kernel_eq_skeleton]; unfold cc1__wmm_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  refine (View.read_writes_eq_canon _ _ _ (fun y => ?_)).trans ?_
  · exact ⟨_, List.mem_cons_self, View.mem_set_unit_zero hz1 inb_S1024x32_S1024x32_0_0 y⟩
  rw [View.canon_unit_zero (S := S1024x32) hz1]
  simp only [View.readAt_eq_ld, harg2.read_unread, harg3.read_unread, harg6.read_unread,
    View.ld_unit_zero (S := S1024x1024) hz1, View.ld_unit_zero (S := S1024x32) hz1]

set_option maxHeartbeats 1000000 in

theorem run1_last (c : Dev nD) (E : Set ℕ) (i : grid1.Coords)
    (arg2 : Memref sig .tc .vmem S1024x1024 .f32) (harg2 : arg2.IsWhole) (arg3 : Memref sig .tc .vmem S1024x32 .f32) (harg3 : arg3.IsWhole)
    (arg4 : Memref sig .tc .vmem S1024x1 .f32) (harg4 : arg4.IsWhole) (arg5 : Memref sig .tc .vmem S1024x32 .f32) (harg5 : arg5.IsWhole)
    (arg6 : Memref sig .tc .vmem S1024x32 .f32) (harg6 : arg6.IsWhole) (hc0 : ¬cond1_0 i) (hc1 : cond1_1 i)
    (x0 : Vec F S1024x1024 .f32) (x1 : Vec F S1024x32 .f32) (x2 : Vec F S1024x1 .f32) (xs : Vec F S1024x32 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E
          (cc1__wmm_kernel i arg2 harg2 arg3 harg3 arg4 harg4 arg5 harg5 arg6 harg6) K := by
  simp only [cc1__wmm_kernel_eq_skeleton]; unfold cc1__wmm_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (View.read_writes_eq_canon _ _ _ (fun y => ?_)).trans ?_
    · exact ⟨_, List.mem_cons_self, View.mem_set_unit_zero hz1 inb_S1024x32_S1024x32_0_0 y⟩
    rw [View.canon_unit_zero (S := S1024x32) hz1, View.readCov_unit_zero (S := S1024x32) _ hz1]
    simp only [View.readAt_eq_ld, harg2.read_unread, harg3.read_unread, harg4.read_unread, harg6.read_unread,
      View.ld_unit_zero (S := S1024x1024) hz1, View.ld_unit_zero (S := S1024x32) hz1, View.ld_unit_zero (S := S1024x1) hz1]
  iexists _; isplitr
  swap; · iexact HS
  ipureintro
  sl_unfold_words
  refine (View.read_writes_eq_canon _ _ _ (fun y => ?_)).trans ?_
  · exact ⟨_, List.mem_cons_self, View.mem_set_unit_zero hz1 inb_S1024x32_S1024x32_0_0 y⟩
  rw [View.canon_unit_zero (S := S1024x32) hz1]
  simp only [View.readAt_eq_ld, harg2.read_unread, harg3.read_unread, harg6.read_unread,
    View.ld_unit_zero (S := S1024x1024) hz1, View.ld_unit_zero (S := S1024x32) hz1]

section Carry

variable {N : ℕ} (adj : Fin N → Vec F S1024x1024 .f32) (sup : Fin N → Vec F S1024x32 .f32)

-- What the accumulator holds after point n: the partial products of the row tile's column tiles so far, restarted from zero wherever n % 8 = 0.
def accOf : (n : ℕ) → n < N → Vec F S1024x32 .f32
  | 0, hn => k1_pay2 (adj ⟨0, hn⟩) (sup ⟨0, hn⟩) (k1_pay1 (F := F))
  | n + 1, hn => k1_pay2 (adj ⟨n + 1, hn⟩) (sup ⟨n + 1, hn⟩)
      (if (n + 1) % 8 = 0 then (k1_pay1 (F := F)) else accOf n (Nat.lt_of_succ_lt hn))

theorem accOf_first (t : Fin N) (h0 : t.val % 8 = 0) :
    accOf adj sup t.val t.isLt = k1_pay2 (adj t) (sup t) (k1_pay1 (F := F)) := by
  obtain ⟨n, hn⟩ := t
  cases n with
  | zero => rfl
  | succ n => exact congrArg (k1_pay2 _ _) (if_pos h0)

theorem accOf_next (t : Fin N) (h0 : ¬t.val % 8 = 0) :
    accOf adj sup t.val t.isLt = k1_pay2 (adj t) (sup t)
      (accOf adj sup (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

variable (spec : Fin 4 → Pipeline.WinSpec sig 2) (scr : Ref sig .tc) (M : Memref sig .tc .vmem S1024x32 .f32)
  (acc : (n : ℕ) → n < N → Vec F S1024x32 .f32) (c : Dev nD)

-- The invariant carried between points: after point n the accumulator holds `acc n`.
def PhiOf : (n : ℕ) → n ≤ N → sProp 𝕄
  | 0, _ => Pipeline.ΦA spec c
  | n + 1, hn => iprop(iprop(owns (c : Thread nD τ) M fullShare (acc n hn)
      ∗ Pipeline.scopedRestBut (Ix := Unit) (Name := ℕ) (U := UR sig nD τ) (Lvl := ℕ) (Val := Elt F) spec c [scr])
      ∗ (∃ r, prngReg c r))

theorem PhiOf_zero (n : ℕ) (h : n ≤ N) (hz : n = 0) : PhiOf spec scr M acc c n h = Pipeline.ΦA spec c := by
  subst hz; rfl

theorem PhiOf_succ (n : ℕ) (hn : n < N) :
    PhiOf spec scr M acc c (n + 1) hn = iprop(iprop(owns (c : Thread nD τ) M fullShare (acc n hn)
      ∗ Pipeline.scopedRestBut (Ix := Unit) (Name := ℕ) (U := UR sig nD τ) (Lvl := ℕ) (Val := Elt F) spec c [scr])
      ∗ (∃ r, prngReg c r)) := rfl

theorem PhiOf_pos (n : ℕ) (h : n ≤ N) (hz : n ≠ 0) :
    PhiOf spec scr M acc c n h = iprop(iprop(owns (c : Thread nD τ) M fullShare (acc (n - 1) (by omega))
      ∗ Pipeline.scopedRestBut (Ix := Unit) (Name := ℕ) (U := UR sig nD τ) (Lvl := ℕ) (Val := Elt F) spec c [scr])
      ∗ (∃ r, prngReg c r)) := by
  cases n with
  | zero => exact absurd rfl hz
  | succ n => rfl

-- After any point the carried invariant implies the entry invariant: the accumulator's value is forgotten.
theorem PhiOf_out (hA : (Pipeline.ΦA spec c : sProp 𝕄)
      = iprop(iprop((∃ d, owns (c : Thread nD τ) M fullShare d)
          ∗ Pipeline.scopedRestBut (Ix := Unit) (Name := ℕ) (U := UR sig nD τ) (Lvl := ℕ) (Val := Elt F) spec c [scr])
          ∗ (∃ r, prngReg c r)))
    (n : ℕ) (h : n ≤ N) (hz : n ≠ 0) : PhiOf spec scr M acc c n h ⊢ (Pipeline.ΦA spec c : sProp 𝕄) := by
  rw [PhiOf_pos spec scr M acc c n h hz, hA]
  iintro ⟨⟨HS, HR⟩, Hg⟩
  iframe HR Hg
  iexists _; iexact HS

end Carry

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev adj1 (c : Dev nD) (t : Fin cfg1.N) : Vec F S1024x1024 .f32 := blk1 V c 0 t
abbrev sup1 (c : Dev nD) (t : Fin cfg1.N) : Vec F S1024x32 .f32 := blk1 V c 1 t
abbrev rsc1 (c : Dev nD) (t : Fin cfg1.N) : Vec F S1024x1 .f32 := blk1 V c 2 t

abbrev acc1 (c : Dev nD) : (n : ℕ) → n < cfg1.N → Vec F S1024x32 .f32 := accOf (adj1 V c) (sup1 V c)

theorem acc1_first (c : Dev nD) (t : Fin cfg1.N) (h0 : t.val % 8 = 0) :
    acc1 V c t.val t.isLt = k1_pay2 (adj1 V c t) (sup1 V c t) (k1_pay1 (F := F)) := accOf_first _ _ t h0

theorem acc1_next (c : Dev nD) (t : Fin cfg1.N) (h0 : ¬t.val % 8 = 0) :
    acc1 V c t.val t.isLt = k1_pay2 (adj1 V c t) (sup1 V c t)
      (acc1 V c (t.val - 1) (Nat.lt_of_le_of_lt (Nat.sub_le _ _) t.isLt)) := accOf_next _ _ t h0

abbrev scM1 : Memref sig .tc .vmem S1024x32 .f32 := Memref.whole cc1_scratch0

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (acc1 V c t.val t.isLt) (rsc1 V c t)
  Φ t := PhiOf spec1 cc1_scratch0 scM1 (acc1 V c) c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiOf spec1 cc1_scratch0 scM1 (acc1 V c) c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = k1_pay3 (acc1 V c t.val t.isLt) (rsc1 V c t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)

theorem idleAt1_3 : ∀ t : Fin cfg1.N, ¬t.val % 8 = 7 → cfg1.idle 3 (grid1.coords t) = true := by decide +kernel
theorem liveAt1_3 : ∀ t : Fin cfg1.N, t.val % 8 = 7 → cfg1.idle 3 (grid1.coords t) = false := by decide +kernel
theorem noFlush1_3 (t : Fin cfg1.N) (h7 : ¬t.val % 8 = 7) : (cfg1.win 3).flush t = false :=
  Bool.eq_false_iff.mpr fun h => h7 ((flush1_3 t).mp h)

abbrev ms1_0 (t : Fin cfg1.N) : Memref sig .tc .vmem S1024x1024 .f32 := win1_0.stage (cfg1.slots t 0)
abbrev ms1_1 (t : Fin cfg1.N) : Memref sig .tc .vmem S1024x32 .f32 := win1_1.stage (cfg1.slots t 1)
abbrev ms1_2 (t : Fin cfg1.N) : Memref sig .tc .vmem S1024x1 .f32 := win1_2.stage (cfg1.slots t 2)
abbrev ms1_3 (t : Fin cfg1.N) : Memref sig .tc .vmem S1024x32 .f32 := win1_3.stage (cfg1.slots t 3)

theorem leaves1_0 (c : Dev nD) (t : Fin cfg1.N) :
    (dat1 V c).leavesExact 0 t = owns (c : Thread nD τ) (ms1_0 t) fullShare (blk1 V c 0 t) := by
  rw [← after1_0]
theorem leaves1_1 (c : Dev nD) (t : Fin cfg1.N) :
    (dat1 V c).leavesExact 1 t = owns (c : Thread nD τ) (ms1_1 t) fullShare (blk1 V c 1 t) := by
  rw [← after1_1]
theorem leaves1_2 (c : Dev nD) (t : Fin cfg1.N) :
    (dat1 V c).leavesExact 2 t = owns (c : Thread nD τ) (ms1_2 t) fullShare (blk1 V c 2 t) := by
  rw [← after1_2]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiOf spec1 cc1_scratch0 scM1 (acc1 V c) c (t.val + 1) t.isLt from rfl, PhiOf_succ]
  rw [leaves1_0, leaves1_1, leaves1_2]
  have hN : t.val < 64 := lt_of_lt_of_eq t.isLt (show cfg1.N = 64 from N_1)
  by_cases h0 : t.val % 8 = 0
  · have h7 : ¬t.val % 8 = 7 := by omega
    rw [Dat.leavesExact_idle (dat1 V c) 3 t (idleAt1_3 t h7) (noFlush1_3 t h7), acc1_first V c t h0]
    by_cases hz : t.val = 0
    · rw [Phi1_castSucc V c t, PhiOf_zero _ _ _ _ _ _ _ hz, PhiA1_eq]
      iintro ⟨⟨⟨HS, HR⟩, Hg⟩, Ho, ⟨%d0, H0⟩, ⟨%d1, H1⟩, ⟨%d2, H2⟩, H3⟩
      iapply (run1_first c Set.univ (grid1.coords t) _ _ _ _ _ _ _ _ _ _ ((hcond1_0 t).mpr h0) (fun h => h7 ((hcond1_1 t).mp h)) (adj1 V c t) (sup1 V c t) _)
      iframe H0 H1 HS
      iintro ⟨H0, H1, HS⟩
      iframe
    · rw [Phi1_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_first c Set.univ (grid1.coords t) _ _ _ _ _ _ _ _ _ _ ((hcond1_0 t).mpr h0) (fun h => h7 ((hcond1_1 t).mp h)) (adj1 V c t) (sup1 V c t) _)
      iframe H0 H1
      isplitl [HS]; · iexists _; iexact HS
      iintro ⟨H0, H1, HS⟩
      iframe
  · have hz : t.val ≠ 0 := fun e => h0 (by rw [e])
    by_cases h7 : t.val % 8 = 7
    · rw [show (dat1 V c).leavesExact 3 t = owns (c : Thread nD τ) (ms1_3 t) fullShare ((dat1 V c).after 3 t) from by
        unfold Dat.leavesExact; rw [liveAt1_3 t h7], after1_3, acc1_next V c t h0]
      rw [Phi1_castSucc V c t, PhiOf_pos _ _ _ _ _ _ _ hz]
      iintro ⟨⟨⟨HS, HR⟩, Hg⟩, Ho, ⟨%d0, H0⟩, ⟨%d1, H1⟩, ⟨%d2, H2⟩, ⟨%d3, H3⟩⟩
      iapply (run1_last c Set.univ (grid1.coords t) _ _ _ _ _ _ _ _ _ _ (fun h => h0 ((hcond1_0 t).mp h)) ((hcond1_1 t).mpr h7) (adj1 V c t) (sup1 V c t) (rsc1 V c t) _ _)
      iframe H0 H1 H2
      isplitl [H3]; · iexists _; iexact H3
      isplitl [HS]; · iexact HS
      iintro ⟨H0, H1, H2, H3, HS⟩
      iframe
    · rw [Dat.leavesExact_idle (dat1 V c) 3 t (idleAt1_3 t h7) (noFlush1_3 t h7), acc1_next V c t h0]
      rw [Phi1_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_mid c Set.univ (grid1.coords t) _ _ _ _ _ _ _ _ _ _ (fun h => h0 ((hcond1_0 t).mp h)) (fun h => h7 ((hcond1_1 t).mp h)) (adj1 V c t) (sup1 V c t) _ _)
      iframe H0 H1 HS
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiOf spec1 cc1_scratch0 scM1 (acc1 V c) c 0 (Nat.zero_le _) from rfl, PhiOf_zero _ _ _ _ _ 0 _ rfl]
  try exact Idealize.SL.BI.Entails.refl _

theorem hout1 (c : Dev nD) : (dat1 V c).Φ (Fin.last cfg1.N) ⊢ (Pipeline.ΦA spec1 c : sProp 𝕄) :=
  PhiOf_out spec1 cc1_scratch0 scM1 (acc1 V c) c (PhiA1_eq c) (Fin.last cfg1.N).val (Nat.le_of_lt_succ (Fin.last cfg1.N).isLt)
    (by rw [Fin.val_last]; have : cfg1.N = 64 := N_1; omega)

end Cert.Kernel.Hand

end
-- ==== Proof.K.R2.lean ====
import proofs.«164122_j44229573214371_1_alg».proof.Proof.Gen.Kernel.Launch
import proofs.«164122_j44229573214371_1_alg».proof.Proof.Gen.Kernel.Skeleton
import proofs.«164122_j44229573214371_1_alg».proof.Proof.Gen.Kernel.Points
import proofs.«164122_j44229573214371_1_alg».proof.Proof.K.R0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Regions 0 and 2 run one kernel body.
theorem cc2_eq_cc0 : cc2__rowsum_kernel (F := F) = cc0__rowsum_kernel (F := F) := rfl

abbrev mem2_mat (t : Fin cfg2.N) : Memref sig .tc .vmem S1024x1024 .f32 := win2_0.stage (cfg2.slots t 0)
abbrev whole2_mat (t : Fin cfg2.N) : (mem2_mat t).IsWhole := hstage2_0 ((cfg2.slots t 0).cast nbuf2_0)
abbrev mem2_col (t : Fin cfg2.N) : Memref sig .tc .vmem S1024x1 .f32 := win2_1.stage (cfg2.slots t 1)
abbrev whole2_col (t : Fin cfg2.N) : (mem2_col t).IsWhole := hstage2_1 ((cfg2.slots t 1).cast nbuf2_1)

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def rs2 (c : Dev nD) : (n : ℕ) → n < cfg2.N → Vec F S1024x1 .f32
  | 0, h => k0_pay2 (k0_pay1 (F := F)) (blk2 V c 0 ⟨0, h⟩)
  | n + 1, h => k0_pay2 (if (n + 1) % 8 = 0 then (k0_pay1 (F := F)) else rs2 c n (Nat.lt_of_succ_lt h)) (blk2 V c 0 ⟨n + 1, h⟩)

theorem rs2_first (c : Dev nD) (t : Fin cfg2.N) (h : t.val % 8 = 0) :
    rs2 V c t.val t.isLt = k0_pay2 (k0_pay1 (F := F)) (blk2 V c 0 t) := by
  obtain ⟨n, hn⟩ := t
  cases n with
  | zero => rfl
  | succ n => exact congrArg (fun z => k0_pay2 z (blk2 V c 0 ⟨n + 1, hn⟩)) (if_pos h)

theorem rs2_later (c : Dev nD) (t : Fin cfg2.N) (h : ¬t.val % 8 = 0) :
    rs2 V c t.val t.isLt
      = k0_pay2 (rs2 V c (t.val - 1) (Nat.lt_of_le_of_lt (Nat.sub_le _ _) t.isLt)) (blk2 V c 0 t) := by
  obtain ⟨n, hn⟩ := t
  cases n with
  | zero => exact absurd (Nat.zero_mod _) h
  | succ n => exact congrArg (fun z => k0_pay2 z (blk2 V c 0 ⟨n + 1, hn⟩)) (if_neg h)

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => rs2 V c t.val t.isLt
  Φ _ := Pipeline.ΦA spec2 c
  q _ := fullShare
  owed _ := 0

theorem arr2_eq (c : Dev nD) (w : Fin cfg2.W) : (dat2 V c).A w = V c (Pipeline.arrRef spec2 w) := by
  dsimp only [dat2]

theorem after2_mat (c : Dev nD) (t : Fin cfg2.N) : (dat2 V c).after 0 t = blk2 V c 0 t := by dsimp only [dat2]

theorem after2_col (c : Dev nD) (t : Fin cfg2.N) : (dat2 V c).after 1 t = rs2 V c t.val t.isLt := by dsimp only [dat2]

theorem before2_mat (c : Dev nD) (t : Fin cfg2.N) (d) : (dat2 V c).before 0 t d = blk2 V c 0 t :=
  ((dat2 V c).before_in_eq_fetched 0 rfl (fun _ => rfl) (fun _ _ _ => rfl)
      (fun t => by rw [after2_mat]; unfold Dat.blockOf blk2; rw [arr2_eq]; try rfl) t d).trans
    (by unfold Dat.fetched Dat.blockOf blk2; rw [arr2_eq]; try rfl)

theorem before2_col_later (c : Dev nD) (t : Fin cfg2.N) (h : ¬t.val % 8 = 0) (d) :
    (dat2 V c).before 1 t d = rs2 V c (t.val - 1) (Nat.lt_of_le_of_lt (Nat.sub_le _ _) t.isLt) := by
  have hN : t.val < 64 := lt_of_lt_of_eq t.isLt (show cfg2.N = 64 from N_2)
  rw [Dat.before_out_kept _ 1 rfl t (by omega)
    (Bool.eq_false_iff.mpr fun hf => by have := (flush2_1 _).mp hf; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (mem2_mat t) fullShare ((dat2 V c).before 0 t d))
    ∗ (∃ d, owns (c : Thread nD τ) (mem2_col t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (mem2_mat t) fullShare ((dat2 V c).after 0 t)
    ∗ owns (c : Thread nD τ) (mem2_col t) fullShare ((dat2 V c).after 1 t))

set_option maxHeartbeats 800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [cc2_eq_cc0]
  simp only [before2_mat]
  rw [show (dat2 V c).Φ t.succ = (dat2 V c).Φ t.castSucc from rfl,
    show (dat2 V c).owesAt () t.succ = (dat2 V c).owesAt () t.castSucc from rfl,
    after2_mat, after2_col]
  by_cases h : t.val % 8 = 0
  · rw [rs2_first V c t h, ← left0_first c (grid2.coords t) (mem2_mat t) (whole2_mat t) (mem2_col t) (whole2_col t)
      ((hcond0_first t).mpr h) (blk2 V c 0 t)]
    iintro ⟨HΦ, Hd, ⟨%d0, Hm⟩, ⟨%d1, Hc⟩⟩
    iapply ((run0_first c (grid2.coords t) _ _ _ _ ((hcond0_first t).mpr h) (blk2 V c 0 t)).2 Set.univ _)
    isplitl [Hm]; · iexact Hm
    isplitl [Hc]; · iexists _; iexact Hc
    iintro ⟨Hm, ⟨%e, Hc⟩⟩
    iframe HΦ Hd Hm
    unfold owns; iexists _; isplitr
    swap; · iexact Hc
    ipureintro; exact View.read_writes_of_cover _ _ _ _ _ (cover0_first c _ _ _ _ _ _ _)
  · rw [rs2_later V c t h, ← left0_later c (grid2.coords t) (mem2_mat t) (whole2_mat t) (mem2_col t) (whole2_col t)
      (fun hc => h ((hcond0_first t).mp hc)) (blk2 V c 0 t)]
    simp only [before2_col_later V c t h]
    iintro ⟨HΦ, Hd, ⟨%d0, Hm⟩, ⟨%d1, Hc⟩⟩
    iapply ((run0_later c (grid2.coords t) _ _ _ _ (fun hc => h ((hcond0_first t).mp hc)) (blk2 V c 0 t) _).2 Set.univ _)
    iframe Hm Hc
    iintro ⟨Hm, ⟨%e, Hc⟩⟩
    iframe HΦ Hd Hm
    unfold owns; iexists _; isplitr
    swap; · iexact Hc
    ipureintro; exact View.read_writes_of_cover _ _ _ _ _ (cover0_later c _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.Kernel.Hand

end
-- ==== Proof.K.R3.lean ====
import proofs.«164122_j44229573214371_1_alg».proof.Proof.Gen.Kernel.Launch
import proofs.«164122_j44229573214371_1_alg».proof.Proof.Gen.Kernel.Skeleton
import proofs.«164122_j44229573214371_1_alg».proof.Proof.Gen.Kernel.Points
import proofs.«164122_j44229573214371_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- Regions 1, 3 and 5 run one kernel body.
theorem cc3_eq_cc1 : cc3__wmm_kernel (F := F) = cc1__wmm_kernel (F := F) := rfl

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev adj3 (c : Dev nD) (t : Fin cfg3.N) : Vec F S1024x1024 .f32 := blk3 V c 0 t
abbrev sup3 (c : Dev nD) (t : Fin cfg3.N) : Vec F S1024x32 .f32 := blk3 V c 1 t
abbrev rsc3 (c : Dev nD) (t : Fin cfg3.N) : Vec F S1024x1 .f32 := blk3 V c 2 t

abbrev acc3 (c : Dev nD) : (n : ℕ) → n < cfg3.N → Vec F S1024x32 .f32 := accOf (adj3 V c) (sup3 V c)

theorem acc3_first (c : Dev nD) (t : Fin cfg3.N) (h0 : t.val % 8 = 0) :
    acc3 V c t.val t.isLt = k1_pay2 (adj3 V c t) (sup3 V c t) (k1_pay1 (F := F)) := accOf_first _ _ t h0

theorem acc3_next (c : Dev nD) (t : Fin cfg3.N) (h0 : ¬t.val % 8 = 0) :
    acc3 V c t.val t.isLt = k1_pay2 (adj3 V c t) (sup3 V c t)
      (acc3 V c (t.val - 1) (Nat.lt_of_le_of_lt (Nat.sub_le _ _) t.isLt)) := accOf_next _ _ t h0

abbrev scM3 : Memref sig .tc .vmem S1024x32 .f32 := Memref.whole cc3_scratch0

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => k1_pay3 (acc3 V c t.val t.isLt) (rsc3 V c t)
  Φ t := PhiOf spec3 cc3_scratch0 scM3 (acc3 V c) c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = PhiOf spec3 cc3_scratch0 scM3 (acc3 V c) c t.val (Nat.le_of_lt t.isLt) := by
  dsimp only [dat3]; simp only [Fin.coe_castSucc]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) :
    (dat3 V c).after 3 t = k1_pay3 (acc3 V c t.val t.isLt) (rsc3 V c t) := by dsimp only [dat3]

theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [A_eq3]; try rfl) t d).trans
    (by unfold Dat.fetched Dat.blockOf blk3; rw [A_eq3]; try rfl)
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [A_eq3]; try rfl) t d).trans
    (by unfold Dat.fetched Dat.blockOf blk3; rw [A_eq3]; try rfl)
theorem before3_2 (c : Dev nD) (t : Fin cfg3.N) (d) : (dat3 V c).before 2 t d = blk3 V c 2 t :=
  ((dat3 V c).before_in_eq_fetched 2 rfl (fun _ => rfl) (fun _ _ _ => rfl)
    (fun t => by rw [after3_2]; unfold Dat.blockOf blk3; rw [A_eq3]; try rfl) t d).trans
    (by unfold Dat.fetched Dat.blockOf blk3; rw [A_eq3]; try rfl)

theorem idleAt3_3 : ∀ t : Fin cfg3.N, ¬t.val % 8 = 7 → cfg3.idle 3 (grid3.coords t) = true := by decide +kernel
theorem liveAt3_3 : ∀ t : Fin cfg3.N, t.val % 8 = 7 → cfg3.idle 3 (grid3.coords t) = false := by decide +kernel
theorem noFlush3_3 (t : Fin cfg3.N) (h7 : ¬t.val % 8 = 7) : (cfg3.win 3).flush t = false :=
  Bool.eq_false_iff.mpr fun h => h7 ((flush3_3 t).mp h)

abbrev ms3_0 (t : Fin cfg3.N) : Memref sig .tc .vmem S1024x1024 .f32 := win3_0.stage (cfg3.slots t 0)
abbrev ms3_1 (t : Fin cfg3.N) : Memref sig .tc .vmem S1024x32 .f32 := win3_1.stage (cfg3.slots t 1)
abbrev ms3_2 (t : Fin cfg3.N) : Memref sig .tc .vmem S1024x1 .f32 := win3_2.stage (cfg3.slots t 2)
abbrev ms3_3 (t : Fin cfg3.N) : Memref sig .tc .vmem S1024x32 .f32 := win3_3.stage (cfg3.slots t 3)

theorem leaves3_0 (c : Dev nD) (t : Fin cfg3.N) :
    (dat3 V c).leavesExact 0 t = owns (c : Thread nD τ) (ms3_0 t) fullShare (blk3 V c 0 t) := by
  rw [← after3_0]
theorem leaves3_1 (c : Dev nD) (t : Fin cfg3.N) :
    (dat3 V c).leavesExact 1 t = owns (c : Thread nD τ) (ms3_1 t) fullShare (blk3 V c 1 t) := by
  rw [← after3_1]
theorem leaves3_2 (c : Dev nD) (t : Fin cfg3.N) :
    (dat3 V c).leavesExact 2 t = owns (c : Thread nD τ) (ms3_2 t) fullShare (blk3 V c 2 t) := by
  rw [← after3_2]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [cc3_eq_cc1]
  simp only [before3_0, before3_1, before3_2]
  rw [show (dat3 V c).owesAt () t.succ = (dat3 V c).owesAt () t.castSucc from rfl]
  rw [show (dat3 V c).Φ t.succ = PhiOf spec3 cc3_scratch0 scM3 (acc3 V c) c (t.val + 1) t.isLt from rfl, PhiOf_succ]
  rw [leaves3_0, leaves3_1, leaves3_2]
  have hN : t.val < 64 := lt_of_lt_of_eq t.isLt (show cfg3.N = 64 from N_3)
  by_cases h0 : t.val % 8 = 0
  · have h7 : ¬t.val % 8 = 7 := by omega
    rw [Dat.leavesExact_idle (dat3 V c) 3 t (idleAt3_3 t h7) (noFlush3_3 t h7), acc3_first V c t h0]
    by_cases hz : t.val = 0
    · rw [Phi3_castSucc V c t, PhiOf_zero _ _ _ _ _ _ _ hz, PhiA3_eq]
      iintro ⟨⟨⟨HS, HR⟩, Hg⟩, Ho, ⟨%d0, H0⟩, ⟨%d1, H1⟩, ⟨%d2, H2⟩, H3⟩
      iapply (run1_first c Set.univ (grid3.coords t) _ _ _ _ _ _ _ _ _ _ ((hcond1_0 t).mpr h0) (fun h => h7 ((hcond1_1 t).mp h)) (adj3 V c t) (sup3 V c t) _)
      iframe H0 H1 HS
      iintro ⟨H0, H1, HS⟩
      iframe
    · rw [Phi3_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_first c Set.univ (grid3.coords t) _ _ _ _ _ _ _ _ _ _ ((hcond1_0 t).mpr h0) (fun h => h7 ((hcond1_1 t).mp h)) (adj3 V c t) (sup3 V c t) _)
      iframe H0 H1
      isplitl [HS]; · iexists _; iexact HS
      iintro ⟨H0, H1, HS⟩
      iframe
  · have hz : t.val ≠ 0 := fun e => h0 (by rw [e])
    by_cases h7 : t.val % 8 = 7
    · rw [show (dat3 V c).leavesExact 3 t = owns (c : Thread nD τ) (ms3_3 t) fullShare ((dat3 V c).after 3 t) from by
        unfold Dat.leavesExact; rw [liveAt3_3 t h7], after3_3, acc3_next V c t h0]
      rw [Phi3_castSucc V c t, PhiOf_pos _ _ _ _ _ _ _ hz]
      iintro ⟨⟨⟨HS, HR⟩, Hg⟩, Ho, ⟨%d0, H0⟩, ⟨%d1, H1⟩, ⟨%d2, H2⟩, ⟨%d3, H3⟩⟩
      iapply (run1_last c Set.univ (grid3.coords t) _ _ _ _ _ _ _ _ _ _ (fun h => h0 ((hcond1_0 t).mp h)) ((hcond1_1 t).mpr h7) (adj3 V c t) (sup3 V c t) (rsc3 V c t) _ _)
      iframe H0 H1 H2
      isplitl [H3]; · iexists _; iexact H3
      isplitl [HS]; · iexact HS
      iintro ⟨H0, H1, H2, H3, HS⟩
      iframe
    · rw [Dat.leavesExact_idle (dat3 V c) 3 t (idleAt3_3 t h7) (noFlush3_3 t h7), acc3_next V c t h0]
      rw [Phi3_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_mid c Set.univ (grid3.coords t) _ _ _ _ _ _ _ _ _ _ (fun h => h0 ((hcond1_0 t).mp h)) (fun h => h7 ((hcond1_1 t).mp h)) (adj3 V c t) (sup3 V c t) _ _)
      iframe H0 H1 HS
      iintro ⟨H0, H1, HS⟩
      iframe

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiOf spec3 cc3_scratch0 scM3 (acc3 V c) c 0 (Nat.zero_le _) from rfl, PhiOf_zero _ _ _ _ _ 0 _ rfl]
  try exact Idealize.SL.BI.Entails.refl _

theorem hout3 (c : Dev nD) : (dat3 V c).Φ (Fin.last cfg3.N) ⊢ (Pipeline.ΦA spec3 c : sProp 𝕄) :=
  PhiOf_out spec3 cc3_scratch0 scM3 (acc3 V c) c (PhiA3_eq c) (Fin.last cfg3.N).val (Nat.le_of_lt_succ (Fin.last cfg3.N).isLt)
    (by rw [Fin.val_last]; have : cfg3.N = 64 := N_3; omega)

end Cert.Kernel.Hand

end
-- ==== Proof.K.R4.lean ====
import proofs.«164122_j44229573214371_1_alg».proof.Proof.Gen.Kernel.Launch
import proofs.«164122_j44229573214371_1_alg».proof.Proof.Gen.Kernel.Skeleton
import proofs.«164122_j44229573214371_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz4 : (![0, 0] : Fin 2 → Nat) = fun _ => 0 := funext fun a => by fin_cases a <;> rfl

theorem read_writes_cons_overlay4 {sg : RefSig} {κ : Kind} {sp : Space} {s : Shape} {e : EltTy} {Val : EltTy → Type}
    (v : View sg κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [Rect.overlay_of_not_mem _ _ _ hy, View.writes_cons, View.read_slice_write_of_not_mem r _ _ _ hy']

theorem overlay_unit_zero4 {S : Shape} {α : Type} {off : Fin S.rank → Nat} (h : off = fun _ => 0)
    (inb : ∀ a, off a + S.size a ≤ S.size a) (X w : S.Idx → α) : (Rect.unit off S.size inb).overlay X w = w := by
  subst h; funext y
  have e := Rect.overlay_emb (Rect.whole S) X w y
  rw [Rect.emb_whole_apply] at e
  exact e

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev colRect (i : grid4.Coords) : Rect S1x8192 := Rect.unit (s := S1x8192) (k4_off1 i) S1x1024.size (k4_off1_inb i)

def csStep (i : grid4.Coords) (x0 : Vec F S1024x1024 .f32) (xs : Vec F S1x8192 .f32) : Vec F S1x8192 .f32 :=
  (colRect i).overlay xs (k4_pay4 x0 (View.ld xs (colRect i)))

def rs4 (c : Dev nD) : (n : ℕ) → n < cfg4.N → Vec F S1024x1 .f32
  | 0, h => k4_pay3 (blk4 V c 0 ⟨0, h⟩) (k4_pay2 (F := F))
  | n + 1, h => k4_pay3 (blk4 V c 0 ⟨n + 1, h⟩) (if (n + 1) % 8 = 0 then (k4_pay2 (F := F)) else rs4 c n (Nat.lt_of_succ_lt h))

def cs4 (c : Dev nD) : (n : ℕ) → n < cfg4.N → Vec F S1x8192 .f32
  | 0, h => csStep (grid4.coords ⟨0, h⟩) (blk4 V c 0 ⟨0, h⟩) (k4_pay1 (F := F))
  | n + 1, h => csStep (grid4.coords ⟨n + 1, h⟩) (blk4 V c 0 ⟨n + 1, h⟩) (cs4 c n (Nat.lt_of_succ_lt h))

theorem rs4_reset (c : Dev nD) (t : Fin cfg4.N) (h : t.val % 8 = 0) :
    rs4 V c t.val t.isLt = k4_pay3 (blk4 V c 0 t) (k4_pay2 (F := F)) := by
  obtain ⟨n, hn⟩ := t
  cases n with
  | zero => rfl
  | succ n => exact congrArg (k4_pay3 (blk4 V c 0 ⟨n + 1, hn⟩)) (if_pos h)

theorem rs4_acc (c : Dev nD) (t : Fin cfg4.N) (h : ¬t.val % 8 = 0) :
    rs4 V c t.val t.isLt = k4_pay3 (blk4 V c 0 t) (rs4 V c (t.val - 1) (Nat.lt_of_le_of_lt (Nat.sub_le _ _) t.isLt)) := by
  obtain ⟨n, hn⟩ := t
  cases n with
  | zero => exact absurd (Nat.zero_mod _) h
  | succ n => exact congrArg (k4_pay3 (blk4 V c 0 ⟨n + 1, hn⟩)) (if_neg h)

theorem cs4_zero (c : Dev nD) (t : Fin cfg4.N) (h : t.val = 0) :
    cs4 V c t.val t.isLt = csStep (grid4.coords t) (blk4 V c 0 t) (k4_pay1 (F := F)) := by
  obtain ⟨n, hn⟩ := t
  cases n with
  | zero => rfl
  | succ n => exact absurd h (Nat.succ_ne_zero n)

theorem cs4_pos (c : Dev nD) (t : Fin cfg4.N) (h : t.val ≠ 0) :
    cs4 V c t.val t.isLt = csStep (grid4.coords t) (blk4 V c 0 t) (cs4 V c (t.val - 1) (Nat.lt_of_le_of_lt (Nat.sub_le _ _) t.isLt)) := by
  obtain ⟨n, hn⟩ := t
  cases n with
  | zero => exact absurd rfl h
  | succ n => rfl

abbrev cond4_0 (i : grid4.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

abbrev cond4_1 (i : grid4.Coords) : Prop := (Scalar.cmpi .ne (Scalar.extui (Scalar.cmpi .eq (BitVec.ofNat 32 (i 1).val) 0#32)) 0#32) = 1#1

abbrev cond4_2 (i : grid4.Coords) : Prop := k4_cond3 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val % 8 = 0 :=
  (by decide +kernel : ∀ t : Fin grid4.N, cond4_1 (grid4.coords t) ↔ t.val % 8 = 0)
theorem hcond4_2 : ∀ t : Fin cfg4.N, cond4_2 (grid4.coords t) ↔ t.val = 63 :=
  (by decide +kernel : ∀ t : Fin grid4.N, cond4_2 (grid4.coords t) ↔ t.val = 63)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_2 (grid4.coords t) → cfg4.idle 2 (grid4.coords t) = true := by decide +kernel
theorem liveAt4_2 : ∀ t : Fin cfg4.N, cond4_2 (grid4.coords t) → cfg4.idle 2 (grid4.coords t) = false := by decide +kernel
theorem noFlush4_2 : ∀ t : Fin cfg4.N, ¬cond4_2 (grid4.coords t) → (cfg4.win 2).flush t = false := by decide +kernel

set_option maxHeartbeats 1000000 in
theorem run4_G (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : ¬cond4_0 i) (hc1 : ¬cond4_1 i) (hc2 : ¬cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ owns (c : Thread nD τ) arg3 fullShare xo ∗ owns (c : Thread nD τ) arg4 fullShare xi ∗ owns (c : Thread nD τ) arg5 fullShare xs
        ∗ (iprop(owns (c : Thread nD τ) arg2 fullShare x0 ∗ owns (c : Thread nD τ) arg3 fullShare (k4_pay3 x0 xo) ∗ owns (c : Thread nD τ) arg4 fullShare (xi) ∗ owns (c : Thread nD τ) arg5 fullShare (csStep i x0 xs)) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]
  isplitl [H2]
  · iexists _; isplitr; · ipureintro; exact harg4.read_unread _
    iexact H2
  iexists _; isplitr
  swap; · iexact HS
  ipureintro
  unfold csStep
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

set_option maxHeartbeats 1000000 in
theorem run4_R (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : ¬cond4_0 i) (hc1 : cond4_1 i) (hc2 : ¬cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ (∃ d, owns (c : Thread nD τ) arg3 fullShare d) ∗ owns (c : Thread nD τ) arg4 fullShare xi ∗ owns (c : Thread nD τ) arg5 fullShare xs
        ∗ (iprop(owns (c : Thread nD τ) arg2 fullShare x0 ∗ owns (c : Thread nD τ) arg3 fullShare (k4_pay3 x0 (k4_pay2 (F := F))) ∗ owns (c : Thread nD τ) arg4 fullShare (xi) ∗ owns (c : Thread nD τ) arg5 fullShare (csStep i x0 xs)) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%d1, %f1, -, H1⟩, ⟨%f2, %hf2, H2⟩, ⟨%fs, %hfs, HS⟩, Hk⟩
  obtain rfl := harg2.eq_unread hf0; obtain rfl := harg4.eq_unread hf2; obtain rfl := harg5.eq_unread hfs
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    sl_unfold_words
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4, View.readCov_unit_zero (S := S1024x1) _ hz4]
  isplitl [H2]
  · iexists _; isplitr; · ipureintro; exact harg4.read_unread _
    iexact H2
  iexists _; isplitr
  swap; · iexact HS
  ipureintro
  unfold csStep
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

set_option maxHeartbeats 1000000 in
theorem run4_Z (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : cond4_0 i) (hc1 : cond4_1 i) (hc2 : ¬cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ (∃ d, owns (c : Thread nD τ) arg3 fullShare d) ∗ owns (c : Thread nD τ) arg4 fullShare xi ∗ (∃ d, owns (c : Thread nD τ) arg5 fullShare d)
        ∗ (iprop(owns (c : Thread nD τ) arg2 fullShare x0 ∗ owns (c : Thread nD τ) arg3 fullShare (k4_pay3 x0 (k4_pay2 (F := F))) ∗ owns (c : Thread nD τ) arg4 fullShare (xi) ∗ owns (c : Thread nD τ) arg5 fullShare (csStep i x0 (k4_pay1 (F := F)))) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%d1, %f1, -, H1⟩, ⟨%f2, %hf2, H2⟩, ⟨%ds, %fs, -, HS⟩, Hk⟩
  obtain rfl := harg2.eq_unread hf0; obtain rfl := harg4.eq_unread hf2
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    sl_unfold_words
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4, View.readCov_unit_zero (S := S1024x1) _ hz4]
  isplitl [H2]
  · iexists _; isplitr; · ipureintro; exact harg4.read_unread _
    iexact H2
  iexists _; isplitr
  swap; · iexact HS
  ipureintro
  unfold csStep
  sl_unfold_run_names
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

set_option maxHeartbeats 1000000 in
theorem run4_L (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : ¬cond4_0 i) (hc1 : ¬cond4_1 i) (hc2 : cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ owns (c : Thread nD τ) arg3 fullShare xo ∗ (∃ d, owns (c : Thread nD τ) arg4 fullShare d) ∗ owns (c : Thread nD τ) arg5 fullShare xs
        ∗ (iprop(owns (c : Thread nD τ) arg2 fullShare x0 ∗ owns (c : Thread nD τ) arg3 fullShare (k4_pay3 x0 xo) ∗ owns (c : Thread nD τ) arg4 fullShare (csStep i x0 xs) ∗ owns (c : Thread nD τ) arg5 fullShare (csStep i x0 xs)) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]
  isplitl [H2]
  · iexists _; isplitr
    swap; · iexact H2
    ipureintro
    unfold csStep
    sl_unfold_run_names
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]
  iexists _; isplitr
  swap; · iexact HS
  ipureintro
  unfold csStep
  sl_unfold_run_names
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

abbrev scM4 : Memref sig .tc .vmem S1x8192 .f32 := Memref.whole cc4_scratch0

def PhiS4 (c : Dev nD) : (n : ℕ) → n ≤ cfg4.N → sProp 𝕄
  | 0, _ => Pipeline.ΦA spec4 c
  | n + 1, hn => iprop(iprop(owns (c : Thread nD τ) scM4 fullShare (cs4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (cs4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (cs4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => rs4 V c t.val t.isLt
    | ⟨2, _⟩ => cs4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = blk4 V c 0 t := by dsimp only [dat4]
theorem after4_1 (c : Dev nD) (t : Fin cfg4.N) : (dat4 V c).after 1 t = rs4 V c t.val t.isLt := by dsimp only [dat4]
theorem after4_2 (c : Dev nD) (t : Fin cfg4.N) : (dat4 V c).after 2 t = cs4 V c t.val t.isLt := by dsimp only [dat4]

theorem before4_0 (c : Dev nD) (t : Fin cfg4.N) (d) : (dat4 V c).before 0 t d = blk4 V c 0 t :=
  ((dat4 V c).before_in_eq_fetched 0 rfl (fun _ => rfl) (fun _ _ _ => rfl)
    (fun t => by rw [after4_0]; unfold Dat.blockOf blk4; rw [A_eq4]; try rfl) t d).trans
    (by unfold Dat.fetched Dat.blockOf blk4; rw [A_eq4]; try rfl)

theorem before4_1_acc (c : Dev nD) (t : Fin cfg4.N) (h8 : ¬t.val % 8 = 0) (d) :
    (dat4 V c).before 1 t d = rs4 V c (t.val - 1) (Nat.lt_of_le_of_lt (Nat.sub_le _ _) t.isLt) := by
  have hN : t.val < 64 := lt_of_lt_of_eq t.isLt (show cfg4.N = 64 from N_4)
  rw [Dat.before_out_kept _ 1 rfl t (by omega) (Bool.eq_false_iff.mpr fun h => by have := (flush4_1 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [PhiS4_castSucc V c t]
  by_cases h0 : t.val = 0
  · have h8 : t.val % 8 = 0 := by omega
    have hL : ¬t.val = 63 := by omega
    rw [Dat.leavesExact_idle (dat4 V c) 2 t (idleAt4_2 t (fun h => hL ((hcond4_2 t).mp h))) (noFlush4_2 t (fun h => hL ((hcond4_2 t).mp h)))]
    rw [rs4_reset V c t h8, cs4_zero V c t h0, PhiS4_zero V c _ _ h0, PhiA4_eq]
    iintro ⟨⟨⟨HS, HR⟩, Hg⟩, Ho, ⟨%d0, H0⟩, ⟨%d1, H1⟩, ⟨%d2, H2⟩⟩
    iapply (run4_Z c (grid4.coords t) _ _ _ _ _ _ _ _ ((hcond4_0 t).mpr h0) ((hcond4_1 t).mpr h8) (fun h => hL ((hcond4_2 t).mp h)) (blk4 V c 0 t) ((dat4 V c).before 1 t d1) ((dat4 V c).before 2 t d2) (k4_pay1 (F := F)) Set.univ _)
    isplitl [H0]; · iexact H0
    isplitl [H1]; · iexists _; iexact H1
    iframe H2 HS
    iintro ⟨H0, H1, H2, HS⟩
    iframe HS HR Hg Ho H0 H1
    iexists _; iexact H2
  · rw [PhiS4_pos V c _ _ h0, cs4_pos V c t h0]
    by_cases h8 : t.val % 8 = 0
    · have hL : ¬t.val = 63 := by omega
      rw [Dat.leavesExact_idle (dat4 V c) 2 t (idleAt4_2 t (fun h => hL ((hcond4_2 t).mp h))) (noFlush4_2 t (fun h => hL ((hcond4_2 t).mp h)))]
      rw [rs4_reset V c t h8]
      iintro ⟨⟨⟨HS, HR⟩, Hg⟩, Ho, ⟨%d0, H0⟩, ⟨%d1, H1⟩, ⟨%d2, H2⟩⟩
      iapply (run4_R c (grid4.coords t) _ _ _ _ _ _ _ _ (fun h => h0 ((hcond4_0 t).mp h)) ((hcond4_1 t).mpr h8) (fun h => hL ((hcond4_2 t).mp h)) (blk4 V c 0 t) ((dat4 V c).before 1 t d1) ((dat4 V c).before 2 t d2) _ Set.univ _)
      isplitl [H0]; · iexact H0
      isplitl [H1]; · iexists _; iexact H1
      iframe H2 HS
      iintro ⟨H0, H1, H2, HS⟩
      iframe HS HR Hg Ho H0 H1
      iexists _; iexact H2
    · rw [rs4_acc V c t h8]
      simp only [before4_1_acc V c t h8]
      by_cases hL : t.val = 63
      · rw [show (dat4 V c).leavesExact 2 t = owns (c : Thread nD τ) (st4_2 t) fullShare ((dat4 V c).after 2 t) from by
          unfold Dat.leavesExact; rw [liveAt4_2 t ((hcond4_2 t).mpr hL)], after4_2, cs4_pos V c t h0]
        iintro ⟨⟨⟨HS, HR⟩, Hg⟩, Ho, ⟨%d0, H0⟩, ⟨%d1, H1⟩, ⟨%d2, H2⟩⟩
        iapply (run4_L c (grid4.coords t) _ _ _ _ _ _ _ _ (fun h => h0 ((hcond4_0 t).mp h)) (fun h => h8 ((hcond4_1 t).mp h)) ((hcond4_2 t).mpr hL) (blk4 V c 0 t) _ ((dat4 V c).before 2 t d2) _ Set.univ _)
        iframe H0 H1
        isplitl [H2]; · iexists _; iexact H2
        isplitl [HS]; · iexact HS
        iintro ⟨H0, H1, H2, HS⟩
        iframe
      · rw [Dat.leavesExact_idle (dat4 V c) 2 t (idleAt4_2 t (fun h => hL ((hcond4_2 t).mp h))) (noFlush4_2 t (fun h => hL ((hcond4_2 t).mp h)))]
        iintro ⟨⟨⟨HS, HR⟩, Hg⟩, Ho, ⟨%d0, H0⟩, ⟨%d1, H1⟩, ⟨%d2, H2⟩⟩
        iapply (run4_G c (grid4.coords t) _ _ _ _ _ _ _ _ (fun h => h0 ((hcond4_0 t).mp h)) (fun h => h8 ((hcond4_1 t).mp h)) (fun h => hL ((hcond4_2 t).mp h)) (blk4 V c 0 t) _ ((dat4 V c).before 2 t d2) _ Set.univ _)
        iframe H0 H1 H2 HS
        iintro ⟨H0, H1, H2, HS⟩
        iframe HS HR Hg Ho H0 H1
        iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ (Pipeline.ΦA spec4 c : sProp 𝕄) := by
  have hN : cfg4.N = 64 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega), PhiA4_eq]
  iintro ⟨⟨HS, HR⟩, Hg⟩
  isplitl [HS HR]
  · isplitl [HS]
    · iexists _; iexact HS
    iexact HR
  iexact Hg

end Cert.Kernel.Hand

end
-- ==== Proof.K.R5.lean ====
import proofs.«164122_j44229573214371_1_alg».proof.Proof.Gen.Kernel.Launch
import proofs.«164122_j44229573214371_1_alg».proof.Proof.Gen.Kernel.Skeleton
import proofs.«164122_j44229573214371_1_alg».proof.Proof.Gen.Kernel.Points
import proofs.«164122_j44229573214371_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- Regions 1, 3 and 5 run one kernel body.
theorem cc5_eq_cc1 : cc5__wmm_kernel (F := F) = cc1__wmm_kernel (F := F) := rfl

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev adj5 (c : Dev nD) (t : Fin cfg5.N) : Vec F S1024x1024 .f32 := blk5 V c 0 t
abbrev sup5 (c : Dev nD) (t : Fin cfg5.N) : Vec F S1024x32 .f32 := blk5 V c 1 t
abbrev rsc5 (c : Dev nD) (t : Fin cfg5.N) : Vec F S1024x1 .f32 := blk5 V c 2 t

abbrev acc5 (c : Dev nD) : (n : ℕ) → n < cfg5.N → Vec F S1024x32 .f32 := accOf (adj5 V c) (sup5 V c)

theorem acc5_first (c : Dev nD) (t : Fin cfg5.N) (h0 : t.val % 8 = 0) :
    acc5 V c t.val t.isLt = k1_pay2 (adj5 V c t) (sup5 V c t) (k1_pay1 (F := F)) := accOf_first _ _ t h0

theorem acc5_next (c : Dev nD) (t : Fin cfg5.N) (h0 : ¬t.val % 8 = 0) :
    acc5 V c t.val t.isLt = k1_pay2 (adj5 V c t) (sup5 V c t)
      (acc5 V c (t.val - 1) (Nat.lt_of_le_of_lt (Nat.sub_le _ _) t.isLt)) := accOf_next _ _ t h0

abbrev scM5 : Memref sig .tc .vmem S1024x32 .f32 := Memref.whole cc5_scratch0

theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => k1_pay3 (acc5 V c t.val t.isLt) (rsc5 V c t)
  Φ t := PhiOf spec5 cc5_scratch0 scM5 (acc5 V c) c t.val (Nat.le_of_lt_succ t.isLt)
  q _ := fullShare
  owed _ := 0

theorem A_eq5 (c : Dev nD) (w : Fin cfg5.W) : (dat5 V c).A w = V c (Pipeline.arrRef spec5 w) := by
  dsimp only [dat5]

theorem Phi5_castSucc (c : Dev nD) (t : Fin cfg5.N) :
    (dat5 V c).Φ t.castSucc = PhiOf spec5 cc5_scratch0 scM5 (acc5 V c) c t.val (Nat.le_of_lt t.isLt) := by
  dsimp only [dat5]; simp only [Fin.coe_castSucc]

theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = blk5 V c 2 t := by dsimp only [dat5]
theorem after5_3 (c : Dev nD) (t : Fin cfg5.N) :
    (dat5 V c).after 3 t = k1_pay3 (acc5 V c t.val t.isLt) (rsc5 V c t) := by dsimp only [dat5]

theorem before5_0 (c : Dev nD) (t : Fin cfg5.N) (d) : (dat5 V c).before 0 t d = blk5 V c 0 t :=
  ((dat5 V c).before_in_eq_fetched 0 rfl (fun _ => rfl) (fun _ _ _ => rfl)
    (fun t => by rw [after5_0]; unfold Dat.blockOf blk5; rw [A_eq5]; try rfl) t d).trans
    (by unfold Dat.fetched Dat.blockOf blk5; rw [A_eq5]; try rfl)
theorem before5_1 (c : Dev nD) (t : Fin cfg5.N) (d) : (dat5 V c).before 1 t d = blk5 V c 1 t :=
  ((dat5 V c).before_in_eq_fetched 1 rfl (fun _ => rfl) (fun _ _ _ => rfl)
    (fun t => by rw [after5_1]; unfold Dat.blockOf blk5; rw [A_eq5]; try rfl) t d).trans
    (by unfold Dat.fetched Dat.blockOf blk5; rw [A_eq5]; try rfl)
theorem before5_2 (c : Dev nD) (t : Fin cfg5.N) (d) : (dat5 V c).before 2 t d = blk5 V c 2 t :=
  ((dat5 V c).before_in_eq_fetched 2 rfl (fun _ => rfl) (fun _ _ _ => rfl)
    (fun t => by rw [after5_2]; unfold Dat.blockOf blk5; rw [A_eq5]; try rfl) t d).trans
    (by unfold Dat.fetched Dat.blockOf blk5; rw [A_eq5]; try rfl)

theorem idleAt5_3 : ∀ t : Fin cfg5.N, ¬t.val % 8 = 7 → cfg5.idle 3 (grid5.coords t) = true := by decide +kernel
theorem liveAt5_3 : ∀ t : Fin cfg5.N, t.val % 8 = 7 → cfg5.idle 3 (grid5.coords t) = false := by decide +kernel
theorem noFlush5_3 (t : Fin cfg5.N) (h7 : ¬t.val % 8 = 7) : (cfg5.win 3).flush t = false :=
  Bool.eq_false_iff.mpr fun h => h7 ((flush5_3 t).mp h)

abbrev ms5_0 (t : Fin cfg5.N) : Memref sig .tc .vmem S1024x1024 .f32 := win5_0.stage (cfg5.slots t 0)
abbrev ms5_1 (t : Fin cfg5.N) : Memref sig .tc .vmem S1024x32 .f32 := win5_1.stage (cfg5.slots t 1)
abbrev ms5_2 (t : Fin cfg5.N) : Memref sig .tc .vmem S1024x1 .f32 := win5_2.stage (cfg5.slots t 2)
abbrev ms5_3 (t : Fin cfg5.N) : Memref sig .tc .vmem S1024x32 .f32 := win5_3.stage (cfg5.slots t 3)

theorem leaves5_0 (c : Dev nD) (t : Fin cfg5.N) :
    (dat5 V c).leavesExact 0 t = owns (c : Thread nD τ) (ms5_0 t) fullShare (blk5 V c 0 t) := by
  rw [← after5_0]
theorem leaves5_1 (c : Dev nD) (t : Fin cfg5.N) :
    (dat5 V c).leavesExact 1 t = owns (c : Thread nD τ) (ms5_1 t) fullShare (blk5 V c 1 t) := by
  rw [← after5_1]
theorem leaves5_2 (c : Dev nD) (t : Fin cfg5.N) :
    (dat5 V c).leavesExact 2 t = owns (c : Thread nD τ) (ms5_2 t) fullShare (blk5 V c 2 t) := by
  rw [← after5_2]

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [cc5_eq_cc1]
  simp only [before5_0, before5_1, before5_2]
  rw [show (dat5 V c).owesAt () t.succ = (dat5 V c).owesAt () t.castSucc from rfl]
  rw [show (dat5 V c).Φ t.succ = PhiOf spec5 cc5_scratch0 scM5 (acc5 V c) c (t.val + 1) t.isLt from rfl, PhiOf_succ]
  rw [leaves5_0, leaves5_1, leaves5_2]
  have hN : t.val < 64 := lt_of_lt_of_eq t.isLt (show cfg5.N = 64 from N_5)
  by_cases h0 : t.val % 8 = 0
  · have h7 : ¬t.val % 8 = 7 := by omega
    rw [Dat.leavesExact_idle (dat5 V c) 3 t (idleAt5_3 t h7) (noFlush5_3 t h7), acc5_first V c t h0]
    by_cases hz : t.val = 0
    · rw [Phi5_castSucc V c t, PhiOf_zero _ _ _ _ _ _ _ hz, PhiA5_eq]
      iintro ⟨⟨⟨HS, HR⟩, Hg⟩, Ho, ⟨%d0, H0⟩, ⟨%d1, H1⟩, ⟨%d2, H2⟩, H3⟩
      iapply (run1_first c Set.univ (grid5.coords t) _ _ _ _ _ _ _ _ _ _ ((hcond1_0 t).mpr h0) (fun h => h7 ((hcond1_1 t).mp h)) (adj5 V c t) (sup5 V c t) _)
      iframe H0 H1 HS
      iintro ⟨H0, H1, HS⟩
      iframe
    · rw [Phi5_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_first c Set.univ (grid5.coords t) _ _ _ _ _ _ _ _ _ _ ((hcond1_0 t).mpr h0) (fun h => h7 ((hcond1_1 t).mp h)) (adj5 V c t) (sup5 V c t) _)
      iframe H0 H1
      isplitl [HS]; · iexists _; iexact HS
      iintro ⟨H0, H1, HS⟩
      iframe
  · have hz : t.val ≠ 0 := fun e => h0 (by rw [e])
    by_cases h7 : t.val % 8 = 7
    · rw [show (dat5 V c).leavesExact 3 t = owns (c : Thread nD τ) (ms5_3 t) fullShare ((dat5 V c).after 3 t) from by
        unfold Dat.leavesExact; rw [liveAt5_3 t h7], after5_3, acc5_next V c t h0]
      rw [Phi5_castSucc V c t, PhiOf_pos _ _ _ _ _ _ _ hz]
      iintro ⟨⟨⟨HS, HR⟩, Hg⟩, Ho, ⟨%d0, H0⟩, ⟨%d1, H1⟩, ⟨%d2, H2⟩, ⟨%d3, H3⟩⟩
      iapply (run1_last c Set.univ (grid5.coords t) _ _ _ _ _ _ _ _ _ _ (fun h => h0 ((hcond1_0 t).mp h)) ((hcond1_1 t).mpr h7) (adj5 V c t) (sup5 V c t) (rsc5 V c t) _ _)
      iframe H0 H1 H2
      isplitl [H3]; · iexists _; iexact H3
      isplitl [HS]; · iexact HS
      iintro ⟨H0, H1, H2, H3, HS⟩
      iframe
    · rw [Dat.leavesExact_idle (dat5 V c) 3 t (idleAt5_3 t h7) (noFlush5_3 t h7), acc5_next V c t h0]
      rw [Phi5_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_mid c Set.univ (grid5.coords t) _ _ _ _ _ _ _ _ _ _ (fun h => h0 ((hcond1_0 t).mp h)) (fun h => h7 ((hcond1_1 t).mp h)) (adj5 V c t) (sup5 V c t) _ _)
      iframe H0 H1 HS
      iintro ⟨H0, H1, HS⟩
      iframe

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiOf spec5 cc5_scratch0 scM5 (acc5 V c) c 0 (Nat.zero_le _) from rfl, PhiOf_zero _ _ _ _ _ 0 _ rfl]
  try exact Idealize.SL.BI.Entails.refl _

theorem hout5 (c : Dev nD) : (dat5 V c).Φ (Fin.last cfg5.N) ⊢ (Pipeline.ΦA spec5 c : sProp 𝕄) :=
  PhiOf_out spec5 cc5_scratch0 scM5 (acc5 V c) c (PhiA5_eq c) (Fin.last cfg5.N).val (Nat.le_of_lt_succ (Fin.last cfg5.N).isLt)
    (by rw [Fin.val_last]; have : cfg5.N = 64 := N_5; omega)

end Cert.Kernel.Hand

end
-- ==== Proof.K.Stages.lean ====
import proofs.«164122_j44229573214371_1_alg».proof.Proof.Gen.Kernel.Regions
import proofs.«164122_j44229573214371_1_alg».proof.Proof.K.R0
import proofs.«164122_j44229573214371_1_alg».proof.Proof.K.R1
import proofs.«164122_j44229573214371_1_alg».proof.Proof.K.R2
import proofs.«164122_j44229573214371_1_alg».proof.Proof.K.R3
import proofs.«164122_j44229573214371_1_alg».proof.Proof.K.R4
import proofs.«164122_j44229573214371_1_alg».proof.Proof.K.R5
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def Y1 (c : Dev nD) : Valuation τ sig (Elt F) :=
  Pipeline.withArrays spec0 c (V0 m c) fun w => (dat0 (rd (V0 m)) c).arrAt w cfg0.N

def o1 : Outs (F := F) := fun J r c => match J with
  | 1 => Y1 m c r
  | _ => m ((c : Thread nD τ).loc r)

def Y3 (c : Dev nD) : Valuation τ sig (Elt F) :=
  Pipeline.withArrays spec1 c (V2 m (o1 m) c) fun w => (dat1 (rd (V2 m (o1 m))) c).arrAt w cfg1.N

def o3 : Outs (F := F) := fun J r c => match J with
  | 3 => Y3 m c r
  | _ => o1 m J r c

def Y4 (c : Dev nD) : Valuation τ sig (Elt F) :=
  Pipeline.withArrays spec2 c (V3 m (o3 m) c) fun w => (dat2 (rd (V3 m (o3 m))) c).arrAt w cfg2.N

def o4 : Outs (F := F) := fun J r c => match J with
  | 4 => Y4 m c r
  | _ => o3 m J r c

def Y6 (c : Dev nD) : Valuation τ sig (Elt F) :=
  Pipeline.withArrays spec3 c (V5 m (o4 m) c) fun w => (dat3 (rd (V5 m (o4 m))) c).arrAt w cfg3.N

def o6 : Outs (F := F) := fun J r c => match J with
  | 6 => Y6 m c r
  | _ => o4 m J r c

def Y7 (c : Dev nD) : Valuation τ sig (Elt F) :=
  Pipeline.withArrays spec4 c (V6 m (o6 m) c) fun w => (dat4 (rd (V6 m (o6 m))) c).arrAt w cfg4.N

def o7 : Outs (F := F) := fun J r c => match J with
  | 7 => Y7 m c r
  | _ => o6 m J r c

def Y9 (c : Dev nD) : Valuation τ sig (Elt F) :=
  Pipeline.withArrays spec5 c (V8 m (o7 m) c) fun w => (dat5 (rd (V8 m (o7 m))) c).arrAt w cfg5.N

def o9 : Outs (F := F) := fun J r c => match J with
  | 9 => Y9 m c r
  | _ => o7 m J r c

abbrev outs : Outs (F := F) := o9 m

def pdats : (p : Fin 6) → (c : Dev nD) → Dat τ (Elt F) Unit ℕ (UR sig nD τ) ℕ (cfgs p) c
  | ⟨0, _⟩ => fun c => dat0 (rd (V0 m)) c
  | ⟨1, _⟩ => fun c => dat1 (rd (V2 m (outs m))) c
  | ⟨2, _⟩ => fun c => dat2 (rd (V3 m (outs m))) c
  | ⟨3, _⟩ => fun c => dat3 (rd (V5 m (outs m))) c
  | ⟨4, _⟩ => fun c => dat4 (rd (V6 m (outs m))) c
  | ⟨5, _⟩ => fun c => dat5 (rd (V8 m (outs m))) c

abbrev p0 : Fin 6 := 0
abbrev p1 : Fin 6 := 1
abbrev p2 : Fin 6 := 2
abbrev p3 : Fin 6 := 3
abbrev p4 : Fin 6 := 4
abbrev p5 : Fin 6 := 5

abbrev ent0 : Dev nD → Valuation τ sig (Elt F) := V0 m

abbrev ent1 : Dev nD → Valuation τ sig (Elt F) := V2 m (outs m)

abbrev ent2 : Dev nD → Valuation τ sig (Elt F) := V3 m (outs m)

abbrev ent3 : Dev nD → Valuation τ sig (Elt F) := V5 m (outs m)

abbrev ent4 : Dev nD → Valuation τ sig (Elt F) := V6 m (outs m)

abbrev ent5 : Dev nD → Valuation τ sig (Elt F) := V8 m (outs m)

abbrev L0 : GSem nD τ sig → Finset Unit := fun _ => ∅
abbrev lv0 : GSem nD τ sig → Unit → ℕ := fun _ _ => 0

abbrev rest (c : Dev nD) : sProp 𝕄 :=
  iprop((∃ r, prngReg c r) ∗ ∃ W, owes (c : Thread nD τ) (0 : CellTallies nD τ sig Unit) W)

set_option backward.isDefEq.respectTransparency.types false in
-- One region as a segment between two valuations, from its body obligation and what its arrays hold at exit.
def regOf (p : Fin 6) (launch : Pipeline.LaunchFacts (nD := nD) (τ := τ) cfgs p)
    (ent out : Dev nD → Valuation τ sig (Elt F))
    (hbody : ∀ c, BodyObligation (pdats m p c) defs₀ Variants.none () Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = rd out c (Pipeline.arrRef (cfgs p).spec w))
    (hrest : ∀ c b, b ∉ Finset.univ.image (Pipeline.arrRef (cfgs p).spec) → rd out c b = rd ent c b)
    (hq : ∀ c w, (pdats m p c).q w = fullShare := by exact fun _ _ => rfl)
    (hA : ∀ c w, (pdats m p c).A w = rd ent c (Pipeline.arrRef (cfgs p).spec w) := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ Variants.none L0 lv0 p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (ent c) ∗ rest c)
  post c := iprop(StableHlo.held (c : Thread nD τ) (Pipeline.ucRefs τ sig) (out c) ∗ rest c)
  X c := iprop(∃ r, prngReg c r)
  Y c := iprop(∃ r, prngReg c r)
  Z c := Pipeline.unscopedRest (Ix := Unit) (Name := ℕ) (U := UR sig nD τ) (Lvl := ℕ) (cfgs p).spec c (rd ent c)
  hentry c := by
    rw [Pipeline.ownSems0_none]
    have hsplit := Pipeline.arrays_of_unscopedBufs (p := p) (pcfgs (F := F)) adm (pdats m) launch.win launch.arr_whole c
      ((pdats m p c).share_full (hq c)) (rd ent c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    iframe
  hin c := by
    refine (show _ ⊢ (Pipeline.ΦA (cfgs p).spec c : sProp 𝕄) from ?_).trans (hin c)
    unfold Pipeline.ΦA
    iintro ⟨Hp, -, Hr⟩
    iframe
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (rd ent c) (rd out c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.Kernel.Hand

end
-- ==== Proof.K.Seg0.lean ====
import proofs.«164122_j44229573214371_1_alg».proof.Proof.K.Stages

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ)

theorem hF0 (c : Dev nD) (w : Fin cfg0.W) :
    (pdats m p0 c).arrAt w cfg0.N = rd (V1 m (outs m)) c (Pipeline.arrRef spec0 w) := by
  match w with
  | ⟨0, _⟩ =>
    exact ((dat0 (rd (ent0 m)) c).arrAt_in 0 rfl _).trans (V1_of m (outs m) c main_arg2 (by decide)).symm
  | ⟨1, _⟩ =>
    show _ = V1 m (outs m) c main_v0
    simp only [V1, Function.update_self]
    show (dat0 (rd (ent0 m)) c).arrAt 1 cfg0.N = Y1 m c main_v0
    unfold Y1
    exact (Pipeline.withArrays_arr spec0 launch0.win.arr_inj c (ent0 m c)
      (fun w => (dat0 (rd (ent0 m)) c).arrAt w cfg0.N) 1).symm

theorem hrest0 (c : Dev nD) :
    ∀ b, b ∉ Finset.univ.image (Pipeline.arrRef spec0) → rd (V1 m (outs m)) c b = rd (ent0 m) c b := by
  intro b hb
  refine V1_of m (outs m) c b ?_
  intro h
  simp only [List.mem_cons, List.mem_singleton, List.not_mem_nil, or_false] at h
  subst h
  exact hb (Finset.mem_image.mpr ⟨1, Finset.mem_univ _, rfl⟩)

def reg0 : Pipeline.RegionSeg (pcfgs (F := F)) adm (pdats m) () defs₀ Variants.none L0 lv0 p0 :=
  regOf m p0 launch0 (ent0 m) (V1 m (outs m)) (body_obligation0 _) (hin0 _) (hout0 _) (hF0 m) (hrest0 m)

end Cert.Kernel.Hand

end
-- ==== Proof.K.Seg1.lean ====
import proofs.«164122_j44229573214371_1_alg».proof.Proof.K.Stages

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ)

theorem hF1 (c : Dev nD) (w : Fin cfg1.W) :
    (pdats m p1 c).arrAt w cfg1.N = rd (V3 m (outs m)) c (Pipeline.arrRef spec1 w) := by
  match w with
  | ⟨0, _⟩ =>
    exact ((dat1 (rd (ent1 m)) c).arrAt_in 0 rfl _).trans (V3_of m (outs m) c main_arg2 (by decide)).symm
  | ⟨1, _⟩ =>
    exact ((dat1 (rd (ent1 m)) c).arrAt_in 1 rfl _).trans (V3_of m (outs m) c main_v6 (by decide)).symm
  | ⟨2, _⟩ =>
    exact ((dat1 (rd (ent1 m)) c).arrAt_in 2 rfl _).trans (V3_of m (outs m) c main_v3 (by decide)).symm
  | ⟨3, _⟩ =>
    show _ = V3 m (outs m) c main_v7
    simp only [V3, Function.update_self]
    show (dat1 (rd (ent1 m)) c).arrAt 3 cfg1.N = Y3 m c main_v7
    unfold Y3
    exact (Pipeline.withArrays_arr spec1 launch1.win.arr_inj c (ent1 m c)
      (fun w => (dat1 (rd (ent1 m)) c).arrAt w cfg1.N) 3).symm

theorem hrest1 (c : Dev nD) :
    ∀ b, b ∉ Finset.univ.image (Pipeline.arrRef spec1) → rd (V3 m (outs m)) c b = rd (ent1 m) c b := by
  intro b hb
  refine V3_of m (outs m) c b ?_
  intro h
  simp only [List.mem_cons, List.mem_singleton, List.not_mem_nil, or_false] at h
  subst h
  exact hb (Finset.mem_image.mpr ⟨3, Finset.mem_univ _, rfl⟩)

def reg1 : Pipeline.RegionSeg (pcfgs (F := F)) adm (pdats m) () defs₀ Variants.none L0 lv0 p1 :=
  regOf m p1 launch1 (ent1 m) (V3 m (outs m)) (body_obligation1 _) (hin1 _) (hout1 _) (hF1 m) (hrest1 m)

end Cert.Kernel.Hand

end
-- ==== Proof.K.Seg2.lean ====
import proofs.«164122_j44229573214371_1_alg».proof.Proof.K.Stages

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ)

theorem hF2 (c : Dev nD) (w : Fin cfg2.W) :
    (pdats m p2 c).arrAt w cfg2.N = rd (V4 m (outs m)) c (Pipeline.arrRef spec2 w) := by
  match w with
  | ⟨0, _⟩ =>
    exact ((dat2 (rd (ent2 m)) c).arrAt_in 0 rfl _).trans (V4_of m (outs m) c main_arg4 (by decide)).symm
  | ⟨1, _⟩ =>
    show _ = V4 m (outs m) c main_v8
    simp only [V4, Function.update_self]
    show (dat2 (rd (ent2 m)) c).arrAt 1 cfg2.N = Y4 m c main_v8
    unfold Y4
    exact (Pipeline.withArrays_arr spec2 launch2.win.arr_inj c (ent2 m c)
      (fun w => (dat2 (rd (ent2 m)) c).arrAt w cfg2.N) 1).symm

theorem hrest2 (c : Dev nD) :
    ∀ b, b ∉ Finset.univ.image (Pipeline.arrRef spec2) → rd (V4 m (outs m)) c b = rd (ent2 m) c b := by
  intro b hb
  refine V4_of m (outs m) c b ?_
  intro h
  simp only [List.mem_cons, List.mem_singleton, List.not_mem_nil, or_false] at h
  subst h
  exact hb (Finset.mem_image.mpr ⟨1, Finset.mem_univ _, rfl⟩)

def reg2 : Pipeline.RegionSeg (pcfgs (F := F)) adm (pdats m) () defs₀ Variants.none L0 lv0 p2 :=
  regOf m p2 launch2 (ent2 m) (V4 m (outs m)) (body_obligation2 _) (hin2 _) (hout2 _) (hF2 m) (hrest2 m)

end Cert.Kernel.Hand

end
-- ==== Proof.K.Seg3.lean ====
import proofs.«164122_j44229573214371_1_alg».proof.Proof.K.Stages

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ)

theorem hF3 (c : Dev nD) (w : Fin cfg3.W) :
    (pdats m p3 c).arrAt w cfg3.N = rd (V6 m (outs m)) c (Pipeline.arrRef spec3 w) := by
  match w with
  | ⟨0, _⟩ =>
    exact ((dat3 (rd (ent3 m)) c).arrAt_in 0 rfl _).trans (V6_of m (outs m) c main_arg4 (by decide)).symm
  | ⟨1, _⟩ =>
    exact ((dat3 (rd (ent3 m)) c).arrAt_in 1 rfl _).trans (V6_of m (outs m) c main_v14 (by decide)).symm
  | ⟨2, _⟩ =>
    exact ((dat3 (rd (ent3 m)) c).arrAt_in 2 rfl _).trans (V6_of m (outs m) c main_v11 (by decide)).symm
  | ⟨3, _⟩ =>
    show _ = V6 m (outs m) c main_v15
    simp only [V6, Function.update_self]
    show (dat3 (rd (ent3 m)) c).arrAt 3 cfg3.N = Y6 m c main_v15
    unfold Y6
    exact (Pipeline.withArrays_arr spec3 launch3.win.arr_inj c (ent3 m c)
      (fun w => (dat3 (rd (ent3 m)) c).arrAt w cfg3.N) 3).symm

theorem hrest3 (c : Dev nD) :
    ∀ b, b ∉ Finset.univ.image (Pipeline.arrRef spec3) → rd (V6 m (outs m)) c b = rd (ent3 m) c b := by
  intro b hb
  refine V6_of m (outs m) c b ?_
  intro h
  simp only [List.mem_cons, List.mem_singleton, List.not_mem_nil, or_false] at h
  subst h
  exact hb (Finset.mem_image.mpr ⟨3, Finset.mem_univ _, rfl⟩)

def reg3 : Pipeline.RegionSeg (pcfgs (F := F)) adm (pdats m) () defs₀ Variants.none L0 lv0 p3 :=
  regOf m p3 launch3 (ent3 m) (V6 m (outs m)) (body_obligation3 _) (hin3 _) (hout3 _) (hF3 m) (hrest3 m)

end Cert.Kernel.Hand

end
-- ==== Proof.K.Seg4.lean ====
import proofs.«164122_j44229573214371_1_alg».proof.Proof.K.Stages

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ)

theorem hF4 (c : Dev nD) (w : Fin cfg4.W) :
    (pdats m p4 c).arrAt w cfg4.N = rd (V7 m (outs m)) c (Pipeline.arrRef spec4 w) := by
  match w with
  | ⟨0, _⟩ =>
    exact ((dat4 (rd (ent4 m)) c).arrAt_in 0 rfl _).trans (V7_of m (outs m) c main_arg3 (by decide)).symm
  | ⟨1, _⟩ =>
    show _ = V7 m (outs m) c main_v16_0
    simp only [V7]
    rw [Function.update_of_ne (StableHlo.devRef_ne_of_ne (by decide) : (Proc.devRef .tc main_v16_0 : DevRef τ sig) ≠ Proc.devRef .tc main_v16_1),
      Function.update_self]
    show (dat4 (rd (ent4 m)) c).arrAt 1 cfg4.N = Y7 m c main_v16_0
    unfold Y7
    exact (Pipeline.withArrays_arr spec4 launch4.win.arr_inj c (ent4 m c)
      (fun w => (dat4 (rd (ent4 m)) c).arrAt w cfg4.N) 1).symm
  | ⟨2, _⟩ =>
    show _ = V7 m (outs m) c main_v16_1
    simp only [V7, Function.update_self]
    show (dat4 (rd (ent4 m)) c).arrAt 2 cfg4.N = Y7 m c main_v16_1
    unfold Y7
    exact (Pipeline.withArrays_arr spec4 launch4.win.arr_inj c (ent4 m c)
      (fun w => (dat4 (rd (ent4 m)) c).arrAt w cfg4.N) 2).symm

theorem hrest4 (c : Dev nD) :
    ∀ b, b ∉ Finset.univ.image (Pipeline.arrRef spec4) → rd (V7 m (outs m)) c b = rd (ent4 m) c b := by
  intro b hb
  refine V7_of m (outs m) c b ?_
  intro h
  simp only [List.mem_cons, List.mem_singleton, List.not_mem_nil, or_false] at h
  rcases h with rfl | rfl
  · exact hb (Finset.mem_image.mpr ⟨1, Finset.mem_univ _, rfl⟩)
  · exact hb (Finset.mem_image.mpr ⟨2, Finset.mem_univ _, rfl⟩)

def reg4 : Pipeline.RegionSeg (pcfgs (F := F)) adm (pdats m) () defs₀ Variants.none L0 lv0 p4 :=
  regOf m p4 launch4 (ent4 m) (V7 m (outs m)) (body_obligation4 _) (hin4 _) (hout4 _) (hF4 m) (hrest4 m)

end Cert.Kernel.Hand

end
-- ==== Proof.K.Seg5.lean ====
import proofs.«164122_j44229573214371_1_alg».proof.Proof.K.Stages

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ)

theorem hF5 (c : Dev nD) (w : Fin cfg5.W) :
    (pdats m p5 c).arrAt w cfg5.N = rd (V9 m (outs m)) c (Pipeline.arrRef spec5 w) := by
  match w with
  | ⟨0, _⟩ =>
    exact ((dat5 (rd (ent5 m)) c).arrAt_in 0 rfl _).trans (V9_of m (outs m) c main_arg3 (by decide)).symm
  | ⟨1, _⟩ =>
    exact ((dat5 (rd (ent5 m)) c).arrAt_in 1 rfl _).trans (V9_of m (outs m) c main_v23 (by decide)).symm
  | ⟨2, _⟩ =>
    exact ((dat5 (rd (ent5 m)) c).arrAt_in 2 rfl _).trans (V9_of m (outs m) c main_v17 (by decide)).symm
  | ⟨3, _⟩ =>
    show _ = V9 m (outs m) c main_v24
    simp only [V9, Function.update_self]
    show (dat5 (rd (ent5 m)) c).arrAt 3 cfg5.N = Y9 m c main_v24
    unfold Y9
    exact (Pipeline.withArrays_arr spec5 launch5.win.arr_inj c (ent5 m c)
      (fun w => (dat5 (rd (ent5 m)) c).arrAt w cfg5.N) 3).symm

theorem hrest5 (c : Dev nD) :
    ∀ b, b ∉ Finset.univ.image (Pipeline.arrRef spec5) → rd (V9 m (outs m)) c b = rd (ent5 m) c b := by
  intro b hb
  refine V9_of m (outs m) c b ?_
  intro h
  simp only [List.mem_cons, List.mem_singleton, List.not_mem_nil, or_false] at h
  subst h
  exact hb (Finset.mem_image.mpr ⟨3, Finset.mem_univ _, rfl⟩)

def reg5 : Pipeline.RegionSeg (pcfgs (F := F)) adm (pdats m) () defs₀ Variants.none L0 lv0 p5 :=
  regOf m p5 launch5 (ent5 m) (V9 m (outs m)) (body_obligation5 _) (hin5 _) (hout5 _) (hF5 m) (hrest5 m)

end Cert.Kernel.Hand

end
-- ==== Proof.K.Run.lean ====
import proofs.«164122_j44229573214371_1_alg».proof.Proof.K.Seg0
import proofs.«164122_j44229573214371_1_alg».proof.Proof.K.Seg1
import proofs.«164122_j44229573214371_1_alg».proof.Proof.K.Seg2
import proofs.«164122_j44229573214371_1_alg».proof.Proof.K.Seg3
import proofs.«164122_j44229573214371_1_alg».proof.Proof.K.Seg4
import proofs.«164122_j44229573214371_1_alg».proof.Proof.K.Seg5

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev restAt : Fin 7 → Dev nD → sProp 𝕄 := fun _ c => rest c

abbrev items (c : Dev nD) : List (Seg (pcfgs (F := F)) adm (pdats m) () defs₀ Variants.none L0 lv0) :=
  segs m (outs m) Variants.none L0 lv0 restAt () (pdats m) (reg0 m) (reg1 m) (reg2 m) (reg3 m) (reg4 m) (reg5 m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = V14 m (outs m) c b) := by
  refine Pipeline.θ_run_regions_kit_dev (pcfgs (F := F)) adm (pdats m) () cellOf_inj emb₁ defs₀ Variants.none L0 lv0 m ρ main
    (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V14 m (outs m) c b)
    (hfin := fun c s' => ?_) (hQ := fun _ h => h)
  unfold StableHlo.held
  iintro ⟨Hh, HSI⟩
  ihave Hr := (pointsTo_read_all (Pipeline.ucRefs τ sig) (fun b => ((c : Thread nD τ).1, b)) (V14 m (outs m) c) s') $$ [Hh HSI]
  · isplitl [Hh] <;> iassumption
  icases Hr with ⟨%h, HSI⟩
  imodintro
  isplitr
  · ipureintro; exact h
  · iexact HSI

-- The last valuation agrees with the first at every argument.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V14_main_arg0 m (outs m) c),
     (h c _ (mem_uc main_arg1 (by decide))).trans (V14_main_arg1 m (outs m) c),
     (h c _ (mem_uc main_arg2 (by decide))).trans (V14_main_arg2 m (outs m) c),
     (h c _ (mem_uc main_arg3 (by decide))).trans (V14_main_arg3 m (outs m) c),
     (h c _ (mem_uc main_arg4 (by decide))).trans (V14_main_arg4 m (outs m) c),
     (h c _ (mem_uc main_arg5 (by decide))).trans (V14_main_arg5 m (outs m) c),
     (h c _ (mem_uc main_arg6 (by decide))).trans (V14_main_arg6 m (outs m) c),
     (h c _ (mem_uc main_arg7 (by decide))).trans (V14_main_arg7 m (outs m) c),
     (h c _ (mem_uc main_arg8 (by decide))).trans (V14_main_arg8 m (outs m) c),
     (h c _ (mem_uc main_arg9 (by decide))).trans (V14_main_arg9 m (outs m) c),
     (h c _ (mem_uc main_arg10 (by decide))).trans (V14_main_arg10 m (outs m) c)⟩) (run_all m ρ)

end Cert.Kernel.Hand

end
-- ==== Proof.KI.R0.lean ====
import proofs.«164122_j44229573214371_1_alg».proof.Proof.Gen.KernelIdeal.Launch
import proofs.«164122_j44229573214371_1_alg».proof.Proof.Gen.KernelIdeal.Skeleton
import proofs.«164122_j44229573214371_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_first (i : grid0.Coords) : Prop :=
  (Scalar.cmpi .ne (Scalar.extui (Scalar.cmpi .eq (BitVec.ofNat 32 (i 1).val) 0#32)) 0#32) = 1#1

theorem hcond0_first : ∀ t : Fin cfg0.N, cond0_first (grid0.coords t) ↔ t.val % 8 = 0 :=
  (by decide +kernel : ∀ t : Fin grid0.N, cond0_first (grid0.coords t) ↔ t.val % 8 = 0)

abbrev view0_col : View sig .tc .vmem S1024x1 .f32 := (Memref.whole cc0_stg1_0 : Memref sig .tc .vmem S1024x1 .f32).view

abbrev mem0_mat (t : Fin cfg0.N) : Memref sig .tc .vmem S1024x1024 .f32 := win0_0.stage (cfg0.slots t 0)
abbrev whole0_mat (t : Fin cfg0.N) : (mem0_mat t).IsWhole := hstage0_0 ((cfg0.slots t 0).cast nbuf0_0)
abbrev mem0_col (t : Fin cfg0.N) : Memref sig .tc .vmem S1024x1 .f32 := win0_1.stage (cfg0.slots t 1)
abbrev whole0_col (t : Fin cfg0.N) : (mem0_col t).IsWhole := hstage0_1 ((cfg0.slots t 1).cast nbuf0_1)

set_option maxHeartbeats 1000000 in

noncomputable def run0_first (c : Dev nD) (i : grid0.Coords)
    (a : Memref sig .tc .vmem S1024x1024 .f32) (ha : a.IsWhole) (o : Memref sig .tc .vmem S1024x1 .f32) (ho : o.IsWhole)
    (hc : cond0_first i) (x : Vec F S1024x1024 .f32) :
    { L : List (View.Piece (Elt F) S1024x1 .f32) //
      ∀ (E : Set ℕ) (K : PUnit → sProp 𝕄),
        iprop(owns (c : Thread nD τ) a fullShare x ∗ (∃ d, owns (c : Thread nD τ) o fullShare d)
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__rowsum_kernel i a ha o ho) K } := by
  refine ⟨?_, fun E K => ?run⟩
  case run =>
    simp only [cc0__rowsum_kernel_eq_skeleton]; unfold cc0__rowsum_kernel_skel
    unfold owns
    iintro ⟨⟨%fa, %hfa, Ha⟩, ⟨%d, %fo, -, Ho⟩, Hk⟩
    obtain rfl := ha.eq_unread hfa
    sl_exec (disch := first | exact hc)
    sl_step
    iapply Hk
    isplitl [Ha]
    · iexists _; isplitr; · ipureintro; exact ha.read_unread _
      iexact Ha
    iexists _; iexact Ho

set_option maxHeartbeats 1000000 in

noncomputable def run0_later (c : Dev nD) (i : grid0.Coords)
    (a : Memref sig .tc .vmem S1024x1024 .f32) (ha : a.IsWhole) (o : Memref sig .tc .vmem S1024x1 .f32) (ho : o.IsWhole)
    (hc : ¬cond0_first i) (x : Vec F S1024x1024 .f32) (r : Vec F S1024x1 .f32) :
    { L : List (View.Piece (Elt F) S1024x1 .f32) //
      ∀ (E : Set ℕ) (K : PUnit → sProp 𝕄),
        iprop(owns (c : Thread nD τ) a fullShare x ∗ owns (c : Thread nD τ) o fullShare r
            ∗ (iprop(owns (c : Thread nD τ) a fullShare x ∗ (∃ f, o.view.loc (c : Thread nD τ) ↦[o.view.set]{fullShare} o.view.writes (Elt F) f L)) -∗ K ⟨⟩))
          ⊢ wp frame (wpE (defs₀ (F := F)) Variants.none c none) E (cc0__rowsum_kernel i a ha o ho) K } := by
  refine ⟨?_, fun E K => ?run⟩
  case run =>
    simp only [cc0__rowsum_kernel_eq_skeleton]; unfold cc0__rowsum_kernel_skel
    unfold owns
    iintro ⟨⟨%fa, %hfa, Ha⟩, ⟨%fo, %hfo, Ho⟩, Hk⟩
    obtain rfl := ha.eq_unread hfa; obtain rfl := ho.eq_unread hfo
    sl_exec (disch := first | exact hc)
    sl_step
    iapply Hk
    isplitl [Ha]
    · iexists _; isplitr; · ipureintro; exact ha.read_unread _
      iexact Ha
    iexists _; iexact Ho

theorem cover0_first (c : Dev nD) (i : grid0.Coords)
    (a : Memref sig .tc .vmem S1024x1024 .f32) (ha : a.IsWhole) (o : Memref sig .tc .vmem S1024x1 .f32) (ho : o.IsWhole)
    (hc : cond0_first i) (x : Vec F S1024x1024 .f32) (y : S1024x1.Idx) :
    ∃ pc ∈ (run0_first c i a ha o ho hc x).1, y ∈ pc.1.set :=
  View.cover_of_tiledL (run0_first c i a ha o ho hc x).1 S1024x1.size (by sl_kernel_rfl) y

theorem cover0_later (c : Dev nD) (i : grid0.Coords)
    (a : Memref sig .tc .vmem S1024x1024 .f32) (ha : a.IsWhole) (o : Memref sig .tc .vmem S1024x1 .f32) (ho : o.IsWhole)
    (hc : ¬cond0_first i) (x : Vec F S1024x1024 .f32) (r : Vec F S1024x1 .f32) (y : S1024x1.Idx) :
    ∃ pc ∈ (run0_later c i a ha o ho hc x r).1, y ∈ pc.1.set :=
  View.cover_of_tiledL (run0_later c i a ha o ho hc x r).1 S1024x1.size (by sl_kernel_rfl) y

theorem hz0 : (![0, 0] : Fin 2 → Nat) = fun _ => 0 := funext fun a => by fin_cases a <;> rfl

theorem left0_first (c : Dev nD) (i : grid0.Coords)
    (a : Memref sig .tc .vmem S1024x1024 .f32) (ha : a.IsWhole) (o : Memref sig .tc .vmem S1024x1 .f32) (ho : o.IsWhole)
    (hc : cond0_first i) (x : Vec F S1024x1024 .f32) :
    view0_col.read (Elt F) (view0_col.writes (Elt F) view0_col.junk (run0_first c i a ha o ho hc x).1)
      = k0_pay2 (k0_pay1 (F := F)) x := by
  rw [View.read_writes_eq_canon _ _ _ (cover0_first c i a ha o ho hc x)]
  unfold run0_first
  dsimp only
  sl_unfold_words
  rw [View.canon_cons_unit_zero (S := S1024x1) hz0, View.readCov_unit_zero (S := S1024x1) _ hz0]
  simp only [View.readAt_eq_ld, ha.read_unread, View.ld_unit_zero (S := S1024x1024) hz0]

theorem left0_later (c : Dev nD) (i : grid0.Coords)
    (a : Memref sig .tc .vmem S1024x1024 .f32) (ha : a.IsWhole) (o : Memref sig .tc .vmem S1024x1 .f32) (ho : o.IsWhole)
    (hc : ¬cond0_first i) (x : Vec F S1024x1024 .f32) (r : Vec F S1024x1 .f32) :
    view0_col.read (Elt F) (view0_col.writes (Elt F) view0_col.junk (run0_later c i a ha o ho hc x r).1)
      = k0_pay2 r x := by
  rw [View.read_writes_eq_canon _ _ _ (cover0_later c i a ha o ho hc x r)]
  unfold run0_later
  dsimp only
  sl_unfold_words
  rw [View.canon_unit_zero hz0]
  simp only [View.readAt_eq_ld, ha.read_unread, ho.read_unread, View.ld_unit_zero (S := S1024x1024) hz0,
    View.ld_unit_zero (S := S1024x1) hz0]

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The running row sums after point n = 8·i + k: column tiles 0 … k of row tile i, restarted at k = 0.
def rs0 (c : Dev nD) : (n : ℕ) → n < cfg0.N → Vec F S1024x1 .f32
  | 0, h => k0_pay2 (k0_pay1 (F := F)) (blk0 V c 0 ⟨0, h⟩)
  | n + 1, h => k0_pay2 (if (n + 1) % 8 = 0 then (k0_pay1 (F := F)) else rs0 c n (Nat.lt_of_succ_lt h)) (blk0 V c 0 ⟨n + 1, h⟩)

theorem rs0_first (c : Dev nD) (t : Fin cfg0.N) (h : t.val % 8 = 0) :
    rs0 V c t.val t.isLt = k0_pay2 (k0_pay1 (F := F)) (blk0 V c 0 t) := by
  obtain ⟨n, hn⟩ := t
  cases n with
  | zero => rfl
  | succ n => exact congrArg (fun z => k0_pay2 z (blk0 V c 0 ⟨n + 1, hn⟩)) (if_pos h)

theorem rs0_later (c : Dev nD) (t : Fin cfg0.N) (h : ¬t.val % 8 = 0) :
    rs0 V c t.val t.isLt
      = k0_pay2 (rs0 V c (t.val - 1) (Nat.lt_of_le_of_lt (Nat.sub_le _ _) t.isLt)) (blk0 V c 0 t) := by
  obtain ⟨n, hn⟩ := t
  cases n with
  | zero => exact absurd (Nat.zero_mod _) h
  | succ n => exact congrArg (fun z => k0_pay2 z (blk0 V c 0 ⟨n + 1, hn⟩)) (if_neg h)

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => rs0 V c t.val t.isLt
  Φ _ := Pipeline.ΦA spec0 c
  q _ := fullShare
  owed _ := 0

theorem arr0_eq (c : Dev nD) (w : Fin cfg0.W) : (dat0 V c).A w = V c (Pipeline.arrRef spec0 w) := by
  dsimp only [dat0]

theorem after0_mat (c : Dev nD) (t : Fin cfg0.N) : (dat0 V c).after 0 t = blk0 V c 0 t := by dsimp only [dat0]

theorem after0_col (c : Dev nD) (t : Fin cfg0.N) : (dat0 V c).after 1 t = rs0 V c t.val t.isLt := by dsimp only [dat0]

theorem before0_mat (c : Dev nD) (t : Fin cfg0.N) (d) : (dat0 V c).before 0 t d = blk0 V c 0 t :=
  ((dat0 V c).before_in_eq_fetched 0 rfl (fun _ => rfl) (fun _ _ _ => rfl)
      (fun t => by rw [after0_mat]; unfold Dat.blockOf blk0; rw [arr0_eq]; try rfl) t d).trans
    (by unfold Dat.fetched Dat.blockOf blk0; rw [arr0_eq]; try rfl)

theorem before0_col_later (c : Dev nD) (t : Fin cfg0.N) (h : ¬t.val % 8 = 0) (d) :
    (dat0 V c).before 1 t d = rs0 V c (t.val - 1) (Nat.lt_of_le_of_lt (Nat.sub_le _ _) t.isLt) := by
  have hN : t.val < 64 := lt_of_lt_of_eq t.isLt (show cfg0.N = 64 from N_0)
  rw [Dat.before_out_kept _ 1 rfl t (by omega)
    (Bool.eq_false_iff.mpr fun hf => by have := (flush0_1 _).mp hf; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (mem0_mat t) fullShare ((dat0 V c).before 0 t d))
    ∗ (∃ d, owns (c : Thread nD τ) (mem0_col t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (mem0_mat t) fullShare ((dat0 V c).after 0 t)
    ∗ owns (c : Thread nD τ) (mem0_col t) fullShare ((dat0 V c).after 1 t))

set_option maxHeartbeats 800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_mat]
  rw [show (dat0 V c).Φ t.succ = (dat0 V c).Φ t.castSucc from rfl,
    show (dat0 V c).owesAt () t.succ = (dat0 V c).owesAt () t.castSucc from rfl,
    after0_mat, after0_col]
  by_cases h : t.val % 8 = 0
  · rw [rs0_first V c t h, ← left0_first c (grid0.coords t) (mem0_mat t) (whole0_mat t) (mem0_col t) (whole0_col t)
      ((hcond0_first t).mpr h) (blk0 V c 0 t)]
    iintro ⟨HΦ, Hd, ⟨%d0, Hm⟩, ⟨%d1, Hc⟩⟩
    iapply ((run0_first c (grid0.coords t) _ _ _ _ ((hcond0_first t).mpr h) (blk0 V c 0 t)).2 Set.univ _)
    isplitl [Hm]; · iexact Hm
    isplitl [Hc]; · iexists _; iexact Hc
    iintro ⟨Hm, ⟨%e, Hc⟩⟩
    iframe HΦ Hd Hm
    unfold owns; iexists _; isplitr
    swap; · iexact Hc
    ipureintro; exact View.read_writes_of_cover _ _ _ _ _ (cover0_first c _ _ _ _ _ _ _)
  · rw [rs0_later V c t h, ← left0_later c (grid0.coords t) (mem0_mat t) (whole0_mat t) (mem0_col t) (whole0_col t)
      (fun hc => h ((hcond0_first t).mp hc)) (blk0 V c 0 t)]
    simp only [before0_col_later V c t h]
    iintro ⟨HΦ, Hd, ⟨%d0, Hm⟩, ⟨%d1, Hc⟩⟩
    iapply ((run0_later c (grid0.coords t) _ _ _ _ (fun hc => h ((hcond0_first t).mp hc)) (blk0 V c 0 t) _).2 Set.univ _)
    iframe Hm Hc
    iintro ⟨Hm, ⟨%e, Hc⟩⟩
    iframe HΦ Hd Hm
    unfold owns; iexists _; isplitr
    swap; · iexact Hc
    ipureintro; exact View.read_writes_of_cover _ _ _ _ _ (cover0_later c _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Hand

end
-- ==== Proof.KI.R1.lean ====
import proofs.«164122_j44229573214371_1_alg».proof.Proof.Gen.KernelIdeal.Launch
import proofs.«164122_j44229573214371_1_alg».proof.Proof.Gen.KernelIdeal.Skeleton
import proofs.«164122_j44229573214371_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem hz1 : (![0, 0] : Fin 2 → Nat) = fun _ => 0 := funext fun a => by fin_cases a <;> rfl

set_option maxHeartbeats 1000000 in

theorem run1_first (c : Dev nD) (E : Set ℕ) (i : grid1.Coords)
    (arg2 : Memref sig .tc .vmem S1024x1024 .f32) (harg2 : arg2.IsWhole) (arg3 : Memref sig .tc .vmem S1024x32 .f32) (harg3 : arg3.IsWhole)
    (arg4 : Memref sig .tc .vmem S1024x1 .f32) (harg4 : arg4.IsWhole) (arg5 : Memref sig .tc .vmem S1024x32 .f32) (harg5 : arg5.IsWhole)
    (arg6 : Memref sig .tc .vmem S1024x32 .f32) (harg6 : arg6.IsWhole) (hc0 : cond1_0 i) (hc1 : ¬cond1_1 i)
    (x0 : Vec F S1024x1024 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 x0 x1 (k1_pay1 (F := F)))) -∗ K ⟨⟩))
      ⊢ wp frame (wpE (defs₀ (F := F)) Variants.none c none) E
          (cc1__wmm_kernel i arg2 harg2 arg3 harg3 arg4 harg4 arg5 harg5 arg6 harg6) K := by
  simp only [cc1__wmm_kernel_eq_skeleton]; unfold cc1__wmm_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  refine (View.read_writes_eq_canon _ _ _ (fun y => ?_)).trans ?_
  · exact ⟨_, List.mem_cons_self, View.mem_set_unit_zero hz1 inb_S1024x32_S1024x32_0_0 y⟩
  rw [View.canon_cons_unit_zero (S := S1024x32) hz1, View.readCov_unit_zero (S := S1024x32) _ hz1]
  simp only [View.readAt_eq_ld, harg2.read_unread, harg3.read_unread,
    View.ld_unit_zero (S := S1024x1024) hz1, View.ld_unit_zero (S := S1024x32) hz1]

set_option maxHeartbeats 1000000 in

theorem run1_mid (c : Dev nD) (E : Set ℕ) (i : grid1.Coords)
    (arg2 : Memref sig .tc .vmem S1024x1024 .f32) (harg2 : arg2.IsWhole) (arg3 : Memref sig .tc .vmem S1024x32 .f32) (harg3 : arg3.IsWhole)
    (arg4 : Memref sig .tc .vmem S1024x1 .f32) (harg4 : arg4.IsWhole) (arg5 : Memref sig .tc .vmem S1024x32 .f32) (harg5 : arg5.IsWhole)
    (arg6 : Memref sig .tc .vmem S1024x32 .f32) (harg6 : arg6.IsWhole) (hc0 : ¬cond1_0 i) (hc1 : ¬cond1_1 i)
    (x0 : Vec F S1024x1024 .f32) (x1 : Vec F S1024x32 .f32) (xs : Vec F S1024x32 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 x0 x1 xs)) -∗ K ⟨⟩))
      ⊢ wp frame (wpE (defs₀ (F := F)) Variants.none c none) E
          (cc1__wmm_kernel i arg2 harg2 arg3 harg3 arg4 harg4 arg5 harg5 arg6 harg6) K := by
  simp only [cc1__wmm_kernel_eq_skeleton]; unfold cc1__wmm_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  refine (View.read_writes_eq_canon _ _ _ (fun y => ?_)).trans ?_
  · exact ⟨_, List.mem_cons_self, View.mem_set_unit_zero hz1 inb_S1024x32_S1024x32_0_0 y⟩
  rw [View.canon_unit_zero (S := S1024x32) hz1]
  simp only [View.readAt_eq_ld, harg2.read_unread, harg3.read_unread, harg6.read_unread,
    View.ld_unit_zero (S := S1024x1024) hz1, View.ld_unit_zero (S := S1024x32) hz1]

set_option maxHeartbeats 1000000 in

theorem run1_last (c : Dev nD) (E : Set ℕ) (i : grid1.Coords)
    (arg2 : Memref sig .tc .vmem S1024x1024 .f32) (harg2 : arg2.IsWhole) (arg3 : Memref sig .tc .vmem S1024x32 .f32) (harg3 : arg3.IsWhole)
    (arg4 : Memref sig .tc .vmem S1024x1 .f32) (harg4 : arg4.IsWhole) (arg5 : Memref sig .tc .vmem S1024x32 .f32) (harg5 : arg5.IsWhole)
    (arg6 : Memref sig .tc .vmem S1024x32 .f32) (harg6 : arg6.IsWhole) (hc0 : ¬cond1_0 i) (hc1 : cond1_1 i)
    (x0 : Vec F S1024x1024 .f32) (x1 : Vec F S1024x32 .f32) (x2 : Vec F S1024x1 .f32) (xs : Vec F S1024x32 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E
          (cc1__wmm_kernel i arg2 harg2 arg3 harg3 arg4 harg4 arg5 harg5 arg6 harg6) K := by
  simp only [cc1__wmm_kernel_eq_skeleton]; unfold cc1__wmm_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (View.read_writes_eq_canon _ _ _ (fun y => ?_)).trans ?_
    · exact ⟨_, List.mem_cons_self, View.mem_set_unit_zero hz1 inb_S1024x32_S1024x32_0_0 y⟩
    rw [View.canon_unit_zero (S := S1024x32) hz1, View.readCov_unit_zero (S := S1024x32) _ hz1]
    simp only [View.readAt_eq_ld, harg2.read_unread, harg3.read_unread, harg4.read_unread, harg6.read_unread,
      View.ld_unit_zero (S := S1024x1024) hz1, View.ld_unit_zero (S := S1024x32) hz1, View.ld_unit_zero (S := S1024x1) hz1]
  iexists _; isplitr
  swap; · iexact HS
  ipureintro
  sl_unfold_words
  refine (View.read_writes_eq_canon _ _ _ (fun y => ?_)).trans ?_
  · exact ⟨_, List.mem_cons_self, View.mem_set_unit_zero hz1 inb_S1024x32_S1024x32_0_0 y⟩
  rw [View.canon_unit_zero (S := S1024x32) hz1]
  simp only [View.readAt_eq_ld, harg2.read_unread, harg3.read_unread, harg6.read_unread,
    View.ld_unit_zero (S := S1024x1024) hz1, View.ld_unit_zero (S := S1024x32) hz1]

section Carry

variable {N : ℕ} (adj : Fin N → Vec F S1024x1024 .f32) (sup : Fin N → Vec F S1024x32 .f32)

-- What the accumulator holds after point n: the partial products of the row tile's column tiles so far, restarted from zero wherever n % 8 = 0.
def accOf : (n : ℕ) → n < N → Vec F S1024x32 .f32
  | 0, hn => k1_pay2 (adj ⟨0, hn⟩) (sup ⟨0, hn⟩) (k1_pay1 (F := F))
  | n + 1, hn => k1_pay2 (adj ⟨n + 1, hn⟩) (sup ⟨n + 1, hn⟩)
      (if (n + 1) % 8 = 0 then (k1_pay1 (F := F)) else accOf n (Nat.lt_of_succ_lt hn))

theorem accOf_first (t : Fin N) (h0 : t.val % 8 = 0) :
    accOf adj sup t.val t.isLt = k1_pay2 (adj t) (sup t) (k1_pay1 (F := F)) := by
  obtain ⟨n, hn⟩ := t
  cases n with
  | zero => rfl
  | succ n => exact congrArg (k1_pay2 _ _) (if_pos h0)

theorem accOf_next (t : Fin N) (h0 : ¬t.val % 8 = 0) :
    accOf adj sup t.val t.isLt = k1_pay2 (adj t) (sup t)
      (accOf adj sup (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

variable (spec : Fin 4 → Pipeline.WinSpec sig 2) (scr : Ref sig .tc) (M : Memref sig .tc .vmem S1024x32 .f32)
  (acc : (n : ℕ) → n < N → Vec F S1024x32 .f32) (c : Dev nD)

-- The invariant carried between points: after point n the accumulator holds `acc n`.
def PhiOf : (n : ℕ) → n ≤ N → sProp 𝕄
  | 0, _ => Pipeline.ΦA spec c
  | n + 1, hn => iprop(iprop(owns (c : Thread nD τ) M fullShare (acc n hn)
      ∗ Pipeline.scopedRestBut (Ix := Unit) (Name := ℕ) (U := UR sig nD τ) (Lvl := ℕ) (Val := Elt F) spec c [scr])
      ∗ (∃ r, prngReg c r))

theorem PhiOf_zero (n : ℕ) (h : n ≤ N) (hz : n = 0) : PhiOf spec scr M acc c n h = Pipeline.ΦA spec c := by
  subst hz; rfl

theorem PhiOf_succ (n : ℕ) (hn : n < N) :
    PhiOf spec scr M acc c (n + 1) hn = iprop(iprop(owns (c : Thread nD τ) M fullShare (acc n hn)
      ∗ Pipeline.scopedRestBut (Ix := Unit) (Name := ℕ) (U := UR sig nD τ) (Lvl := ℕ) (Val := Elt F) spec c [scr])
      ∗ (∃ r, prngReg c r)) := rfl

theorem PhiOf_pos (n : ℕ) (h : n ≤ N) (hz : n ≠ 0) :
    PhiOf spec scr M acc c n h = iprop(iprop(owns (c : Thread nD τ) M fullShare (acc (n - 1) (by omega))
      ∗ Pipeline.scopedRestBut (Ix := Unit) (Name := ℕ) (U := UR sig nD τ) (Lvl := ℕ) (Val := Elt F) spec c [scr])
      ∗ (∃ r, prngReg c r)) := by
  cases n with
  | zero => exact absurd rfl hz
  | succ n => rfl

-- After any point the carried invariant implies the entry invariant: the accumulator's value is forgotten.
theorem PhiOf_out (hA : (Pipeline.ΦA spec c : sProp 𝕄)
      = iprop(iprop((∃ d, owns (c : Thread nD τ) M fullShare d)
          ∗ Pipeline.scopedRestBut (Ix := Unit) (Name := ℕ) (U := UR sig nD τ) (Lvl := ℕ) (Val := Elt F) spec c [scr])
          ∗ (∃ r, prngReg c r)))
    (n : ℕ) (h : n ≤ N) (hz : n ≠ 0) : PhiOf spec scr M acc c n h ⊢ (Pipeline.ΦA spec c : sProp 𝕄) := by
  rw [PhiOf_pos spec scr M acc c n h hz, hA]
  iintro ⟨⟨HS, HR⟩, Hg⟩
  iframe HR Hg
  iexists _; iexact HS

end Carry

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev adj1 (c : Dev nD) (t : Fin cfg1.N) : Vec F S1024x1024 .f32 := blk1 V c 0 t
abbrev sup1 (c : Dev nD) (t : Fin cfg1.N) : Vec F S1024x32 .f32 := blk1 V c 1 t
abbrev rsc1 (c : Dev nD) (t : Fin cfg1.N) : Vec F S1024x1 .f32 := blk1 V c 2 t

abbrev acc1 (c : Dev nD) : (n : ℕ) → n < cfg1.N → Vec F S1024x32 .f32 := accOf (adj1 V c) (sup1 V c)

theorem acc1_first (c : Dev nD) (t : Fin cfg1.N) (h0 : t.val % 8 = 0) :
    acc1 V c t.val t.isLt = k1_pay2 (adj1 V c t) (sup1 V c t) (k1_pay1 (F := F)) := accOf_first _ _ t h0

theorem acc1_next (c : Dev nD) (t : Fin cfg1.N) (h0 : ¬t.val % 8 = 0) :
    acc1 V c t.val t.isLt = k1_pay2 (adj1 V c t) (sup1 V c t)
      (acc1 V c (t.val - 1) (Nat.lt_of_le_of_lt (Nat.sub_le _ _) t.isLt)) := accOf_next _ _ t h0

abbrev scM1 : Memref sig .tc .vmem S1024x32 .f32 := Memref.whole cc1_scratch0

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (acc1 V c t.val t.isLt) (rsc1 V c t)
  Φ t := PhiOf spec1 cc1_scratch0 scM1 (acc1 V c) c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiOf spec1 cc1_scratch0 scM1 (acc1 V c) c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = k1_pay3 (acc1 V c t.val t.isLt) (rsc1 V c t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)

theorem idleAt1_3 : ∀ t : Fin cfg1.N, ¬t.val % 8 = 7 → cfg1.idle 3 (grid1.coords t) = true := by decide +kernel
theorem liveAt1_3 : ∀ t : Fin cfg1.N, t.val % 8 = 7 → cfg1.idle 3 (grid1.coords t) = false := by decide +kernel
theorem noFlush1_3 (t : Fin cfg1.N) (h7 : ¬t.val % 8 = 7) : (cfg1.win 3).flush t = false :=
  Bool.eq_false_iff.mpr fun h => h7 ((flush1_3 t).mp h)

abbrev ms1_0 (t : Fin cfg1.N) : Memref sig .tc .vmem S1024x1024 .f32 := win1_0.stage (cfg1.slots t 0)
abbrev ms1_1 (t : Fin cfg1.N) : Memref sig .tc .vmem S1024x32 .f32 := win1_1.stage (cfg1.slots t 1)
abbrev ms1_2 (t : Fin cfg1.N) : Memref sig .tc .vmem S1024x1 .f32 := win1_2.stage (cfg1.slots t 2)
abbrev ms1_3 (t : Fin cfg1.N) : Memref sig .tc .vmem S1024x32 .f32 := win1_3.stage (cfg1.slots t 3)

theorem leaves1_0 (c : Dev nD) (t : Fin cfg1.N) :
    (dat1 V c).leavesExact 0 t = owns (c : Thread nD τ) (ms1_0 t) fullShare (blk1 V c 0 t) := by
  rw [← after1_0]
theorem leaves1_1 (c : Dev nD) (t : Fin cfg1.N) :
    (dat1 V c).leavesExact 1 t = owns (c : Thread nD τ) (ms1_1 t) fullShare (blk1 V c 1 t) := by
  rw [← after1_1]
theorem leaves1_2 (c : Dev nD) (t : Fin cfg1.N) :
    (dat1 V c).leavesExact 2 t = owns (c : Thread nD τ) (ms1_2 t) fullShare (blk1 V c 2 t) := by
  rw [← after1_2]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiOf spec1 cc1_scratch0 scM1 (acc1 V c) c (t.val + 1) t.isLt from rfl, PhiOf_succ]
  rw [leaves1_0, leaves1_1, leaves1_2]
  have hN : t.val < 64 := lt_of_lt_of_eq t.isLt (show cfg1.N = 64 from N_1)
  by_cases h0 : t.val % 8 = 0
  · have h7 : ¬t.val % 8 = 7 := by omega
    rw [Dat.leavesExact_idle (dat1 V c) 3 t (idleAt1_3 t h7) (noFlush1_3 t h7), acc1_first V c t h0]
    by_cases hz : t.val = 0
    · rw [Phi1_castSucc V c t, PhiOf_zero _ _ _ _ _ _ _ hz, PhiA1_eq]
      iintro ⟨⟨⟨HS, HR⟩, Hg⟩, Ho, ⟨%d0, H0⟩, ⟨%d1, H1⟩, ⟨%d2, H2⟩, H3⟩
      iapply (run1_first c Set.univ (grid1.coords t) _ _ _ _ _ _ _ _ _ _ ((hcond1_0 t).mpr h0) (fun h => h7 ((hcond1_1 t).mp h)) (adj1 V c t) (sup1 V c t) _)
      iframe H0 H1 HS
      iintro ⟨H0, H1, HS⟩
      iframe
    · rw [Phi1_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_first c Set.univ (grid1.coords t) _ _ _ _ _ _ _ _ _ _ ((hcond1_0 t).mpr h0) (fun h => h7 ((hcond1_1 t).mp h)) (adj1 V c t) (sup1 V c t) _)
      iframe H0 H1
      isplitl [HS]; · iexists _; iexact HS
      iintro ⟨H0, H1, HS⟩
      iframe
  · have hz : t.val ≠ 0 := fun e => h0 (by rw [e])
    by_cases h7 : t.val % 8 = 7
    · rw [show (dat1 V c).leavesExact 3 t = owns (c : Thread nD τ) (ms1_3 t) fullShare ((dat1 V c).after 3 t) from by
        unfold Dat.leavesExact; rw [liveAt1_3 t h7], after1_3, acc1_next V c t h0]
      rw [Phi1_castSucc V c t, PhiOf_pos _ _ _ _ _ _ _ hz]
      iintro ⟨⟨⟨HS, HR⟩, Hg⟩, Ho, ⟨%d0, H0⟩, ⟨%d1, H1⟩, ⟨%d2, H2⟩, ⟨%d3, H3⟩⟩
      iapply (run1_last c Set.univ (grid1.coords t) _ _ _ _ _ _ _ _ _ _ (fun h => h0 ((hcond1_0 t).mp h)) ((hcond1_1 t).mpr h7) (adj1 V c t) (sup1 V c t) (rsc1 V c t) _ _)
      iframe H0 H1 H2
      isplitl [H3]; · iexists _; iexact H3
      isplitl [HS]; · iexact HS
      iintro ⟨H0, H1, H2, H3, HS⟩
      iframe
    · rw [Dat.leavesExact_idle (dat1 V c) 3 t (idleAt1_3 t h7) (noFlush1_3 t h7), acc1_next V c t h0]
      rw [Phi1_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_mid c Set.univ (grid1.coords t) _ _ _ _ _ _ _ _ _ _ (fun h => h0 ((hcond1_0 t).mp h)) (fun h => h7 ((hcond1_1 t).mp h)) (adj1 V c t) (sup1 V c t) _ _)
      iframe H0 H1 HS
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiOf spec1 cc1_scratch0 scM1 (acc1 V c) c 0 (Nat.zero_le _) from rfl, PhiOf_zero _ _ _ _ _ 0 _ rfl]
  try exact Idealize.SL.BI.Entails.refl _

theorem hout1 (c : Dev nD) : (dat1 V c).Φ (Fin.last cfg1.N) ⊢ (Pipeline.ΦA spec1 c : sProp 𝕄) :=
  PhiOf_out spec1 cc1_scratch0 scM1 (acc1 V c) c (PhiA1_eq c) (Fin.last cfg1.N).val (Nat.le_of_lt_succ (Fin.last cfg1.N).isLt)
    (by rw [Fin.val_last]; have : cfg1.N = 64 := N_1; omega)

end Cert.KernelIdeal.Hand

end
-- ==== Proof.KI.R2.lean ====
import proofs.«164122_j44229573214371_1_alg».proof.Proof.Gen.KernelIdeal.Launch
import proofs.«164122_j44229573214371_1_alg».proof.Proof.Gen.KernelIdeal.Skeleton
import proofs.«164122_j44229573214371_1_alg».proof.Proof.Gen.KernelIdeal.Points
import proofs.«164122_j44229573214371_1_alg».proof.Proof.KI.R0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Regions 0 and 2 run one kernel body.
theorem cc2_eq_cc0 : cc2__rowsum_kernel (F := F) = cc0__rowsum_kernel (F := F) := rfl

abbrev mem2_mat (t : Fin cfg2.N) : Memref sig .tc .vmem S1024x1024 .f32 := win2_0.stage (cfg2.slots t 0)
abbrev whole2_mat (t : Fin cfg2.N) : (mem2_mat t).IsWhole := hstage2_0 ((cfg2.slots t 0).cast nbuf2_0)
abbrev mem2_col (t : Fin cfg2.N) : Memref sig .tc .vmem S1024x1 .f32 := win2_1.stage (cfg2.slots t 1)
abbrev whole2_col (t : Fin cfg2.N) : (mem2_col t).IsWhole := hstage2_1 ((cfg2.slots t 1).cast nbuf2_1)

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def rs2 (c : Dev nD) : (n : ℕ) → n < cfg2.N → Vec F S1024x1 .f32
  | 0, h => k0_pay2 (k0_pay1 (F := F)) (blk2 V c 0 ⟨0, h⟩)
  | n + 1, h => k0_pay2 (if (n + 1) % 8 = 0 then (k0_pay1 (F := F)) else rs2 c n (Nat.lt_of_succ_lt h)) (blk2 V c 0 ⟨n + 1, h⟩)

theorem rs2_first (c : Dev nD) (t : Fin cfg2.N) (h : t.val % 8 = 0) :
    rs2 V c t.val t.isLt = k0_pay2 (k0_pay1 (F := F)) (blk2 V c 0 t) := by
  obtain ⟨n, hn⟩ := t
  cases n with
  | zero => rfl
  | succ n => exact congrArg (fun z => k0_pay2 z (blk2 V c 0 ⟨n + 1, hn⟩)) (if_pos h)

theorem rs2_later (c : Dev nD) (t : Fin cfg2.N) (h : ¬t.val % 8 = 0) :
    rs2 V c t.val t.isLt
      = k0_pay2 (rs2 V c (t.val - 1) (Nat.lt_of_le_of_lt (Nat.sub_le _ _) t.isLt)) (blk2 V c 0 t) := by
  obtain ⟨n, hn⟩ := t
  cases n with
  | zero => exact absurd (Nat.zero_mod _) h
  | succ n => exact congrArg (fun z => k0_pay2 z (blk2 V c 0 ⟨n + 1, hn⟩)) (if_neg h)

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => rs2 V c t.val t.isLt
  Φ _ := Pipeline.ΦA spec2 c
  q _ := fullShare
  owed _ := 0

theorem arr2_eq (c : Dev nD) (w : Fin cfg2.W) : (dat2 V c).A w = V c (Pipeline.arrRef spec2 w) := by
  dsimp only [dat2]

theorem after2_mat (c : Dev nD) (t : Fin cfg2.N) : (dat2 V c).after 0 t = blk2 V c 0 t := by dsimp only [dat2]

theorem after2_col (c : Dev nD) (t : Fin cfg2.N) : (dat2 V c).after 1 t = rs2 V c t.val t.isLt := by dsimp only [dat2]

theorem before2_mat (c : Dev nD) (t : Fin cfg2.N) (d) : (dat2 V c).before 0 t d = blk2 V c 0 t :=
  ((dat2 V c).before_in_eq_fetched 0 rfl (fun _ => rfl) (fun _ _ _ => rfl)
      (fun t => by rw [after2_mat]; unfold Dat.blockOf blk2; rw [arr2_eq]; try rfl) t d).trans
    (by unfold Dat.fetched Dat.blockOf blk2; rw [arr2_eq]; try rfl)

theorem before2_col_later (c : Dev nD) (t : Fin cfg2.N) (h : ¬t.val % 8 = 0) (d) :
    (dat2 V c).before 1 t d = rs2 V c (t.val - 1) (Nat.lt_of_le_of_lt (Nat.sub_le _ _) t.isLt) := by
  have hN : t.val < 64 := lt_of_lt_of_eq t.isLt (show cfg2.N = 64 from N_2)
  rw [Dat.before_out_kept _ 1 rfl t (by omega)
    (Bool.eq_false_iff.mpr fun hf => by have := (flush2_1 _).mp hf; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (mem2_mat t) fullShare ((dat2 V c).before 0 t d))
    ∗ (∃ d, owns (c : Thread nD τ) (mem2_col t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (mem2_mat t) fullShare ((dat2 V c).after 0 t)
    ∗ owns (c : Thread nD τ) (mem2_col t) fullShare ((dat2 V c).after 1 t))

set_option maxHeartbeats 800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [cc2_eq_cc0]
  simp only [before2_mat]
  rw [show (dat2 V c).Φ t.succ = (dat2 V c).Φ t.castSucc from rfl,
    show (dat2 V c).owesAt () t.succ = (dat2 V c).owesAt () t.castSucc from rfl,
    after2_mat, after2_col]
  by_cases h : t.val % 8 = 0
  · rw [rs2_first V c t h, ← left0_first c (grid2.coords t) (mem2_mat t) (whole2_mat t) (mem2_col t) (whole2_col t)
      ((hcond0_first t).mpr h) (blk2 V c 0 t)]
    iintro ⟨HΦ, Hd, ⟨%d0, Hm⟩, ⟨%d1, Hc⟩⟩
    iapply ((run0_first c (grid2.coords t) _ _ _ _ ((hcond0_first t).mpr h) (blk2 V c 0 t)).2 Set.univ _)
    isplitl [Hm]; · iexact Hm
    isplitl [Hc]; · iexists _; iexact Hc
    iintro ⟨Hm, ⟨%e, Hc⟩⟩
    iframe HΦ Hd Hm
    unfold owns; iexists _; isplitr
    swap; · iexact Hc
    ipureintro; exact View.read_writes_of_cover _ _ _ _ _ (cover0_first c _ _ _ _ _ _ _)
  · rw [rs2_later V c t h, ← left0_later c (grid2.coords t) (mem2_mat t) (whole2_mat t) (mem2_col t) (whole2_col t)
      (fun hc => h ((hcond0_first t).mp hc)) (blk2 V c 0 t)]
    simp only [before2_col_later V c t h]
    iintro ⟨HΦ, Hd, ⟨%d0, Hm⟩, ⟨%d1, Hc⟩⟩
    iapply ((run0_later c (grid2.coords t) _ _ _ _ (fun hc => h ((hcond0_first t).mp hc)) (blk2 V c 0 t) _).2 Set.univ _)
    iframe Hm Hc
    iintro ⟨Hm, ⟨%e, Hc⟩⟩
    iframe HΦ Hd Hm
    unfold owns; iexists _; isplitr
    swap; · iexact Hc
    ipureintro; exact View.read_writes_of_cover _ _ _ _ _ (cover0_later c _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.KernelIdeal.Hand

end
-- ==== Proof.KI.R3.lean ====
import proofs.«164122_j44229573214371_1_alg».proof.Proof.Gen.KernelIdeal.Launch
import proofs.«164122_j44229573214371_1_alg».proof.Proof.Gen.KernelIdeal.Skeleton
import proofs.«164122_j44229573214371_1_alg».proof.Proof.Gen.KernelIdeal.Points
import proofs.«164122_j44229573214371_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- Regions 1, 3 and 5 run one kernel body.
theorem cc3_eq_cc1 : cc3__wmm_kernel (F := F) = cc1__wmm_kernel (F := F) := rfl

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev adj3 (c : Dev nD) (t : Fin cfg3.N) : Vec F S1024x1024 .f32 := blk3 V c 0 t
abbrev sup3 (c : Dev nD) (t : Fin cfg3.N) : Vec F S1024x32 .f32 := blk3 V c 1 t
abbrev rsc3 (c : Dev nD) (t : Fin cfg3.N) : Vec F S1024x1 .f32 := blk3 V c 2 t

abbrev acc3 (c : Dev nD) : (n : ℕ) → n < cfg3.N → Vec F S1024x32 .f32 := accOf (adj3 V c) (sup3 V c)

theorem acc3_first (c : Dev nD) (t : Fin cfg3.N) (h0 : t.val % 8 = 0) :
    acc3 V c t.val t.isLt = k1_pay2 (adj3 V c t) (sup3 V c t) (k1_pay1 (F := F)) := accOf_first _ _ t h0

theorem acc3_next (c : Dev nD) (t : Fin cfg3.N) (h0 : ¬t.val % 8 = 0) :
    acc3 V c t.val t.isLt = k1_pay2 (adj3 V c t) (sup3 V c t)
      (acc3 V c (t.val - 1) (Nat.lt_of_le_of_lt (Nat.sub_le _ _) t.isLt)) := accOf_next _ _ t h0

abbrev scM3 : Memref sig .tc .vmem S1024x32 .f32 := Memref.whole cc3_scratch0

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => k1_pay3 (acc3 V c t.val t.isLt) (rsc3 V c t)
  Φ t := PhiOf spec3 cc3_scratch0 scM3 (acc3 V c) c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = PhiOf spec3 cc3_scratch0 scM3 (acc3 V c) c t.val (Nat.le_of_lt t.isLt) := by
  dsimp only [dat3]; simp only [Fin.coe_castSucc]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) :
    (dat3 V c).after 3 t = k1_pay3 (acc3 V c t.val t.isLt) (rsc3 V c t) := by dsimp only [dat3]

theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [A_eq3]; try rfl) t d).trans
    (by unfold Dat.fetched Dat.blockOf blk3; rw [A_eq3]; try rfl)
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [A_eq3]; try rfl) t d).trans
    (by unfold Dat.fetched Dat.blockOf blk3; rw [A_eq3]; try rfl)
theorem before3_2 (c : Dev nD) (t : Fin cfg3.N) (d) : (dat3 V c).before 2 t d = blk3 V c 2 t :=
  ((dat3 V c).before_in_eq_fetched 2 rfl (fun _ => rfl) (fun _ _ _ => rfl)
    (fun t => by rw [after3_2]; unfold Dat.blockOf blk3; rw [A_eq3]; try rfl) t d).trans
    (by unfold Dat.fetched Dat.blockOf blk3; rw [A_eq3]; try rfl)

theorem idleAt3_3 : ∀ t : Fin cfg3.N, ¬t.val % 8 = 7 → cfg3.idle 3 (grid3.coords t) = true := by decide +kernel
theorem liveAt3_3 : ∀ t : Fin cfg3.N, t.val % 8 = 7 → cfg3.idle 3 (grid3.coords t) = false := by decide +kernel
theorem noFlush3_3 (t : Fin cfg3.N) (h7 : ¬t.val % 8 = 7) : (cfg3.win 3).flush t = false :=
  Bool.eq_false_iff.mpr fun h => h7 ((flush3_3 t).mp h)

abbrev ms3_0 (t : Fin cfg3.N) : Memref sig .tc .vmem S1024x1024 .f32 := win3_0.stage (cfg3.slots t 0)
abbrev ms3_1 (t : Fin cfg3.N) : Memref sig .tc .vmem S1024x32 .f32 := win3_1.stage (cfg3.slots t 1)
abbrev ms3_2 (t : Fin cfg3.N) : Memref sig .tc .vmem S1024x1 .f32 := win3_2.stage (cfg3.slots t 2)
abbrev ms3_3 (t : Fin cfg3.N) : Memref sig .tc .vmem S1024x32 .f32 := win3_3.stage (cfg3.slots t 3)

theorem leaves3_0 (c : Dev nD) (t : Fin cfg3.N) :
    (dat3 V c).leavesExact 0 t = owns (c : Thread nD τ) (ms3_0 t) fullShare (blk3 V c 0 t) := by
  rw [← after3_0]
theorem leaves3_1 (c : Dev nD) (t : Fin cfg3.N) :
    (dat3 V c).leavesExact 1 t = owns (c : Thread nD τ) (ms3_1 t) fullShare (blk3 V c 1 t) := by
  rw [← after3_1]
theorem leaves3_2 (c : Dev nD) (t : Fin cfg3.N) :
    (dat3 V c).leavesExact 2 t = owns (c : Thread nD τ) (ms3_2 t) fullShare (blk3 V c 2 t) := by
  rw [← after3_2]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [cc3_eq_cc1]
  simp only [before3_0, before3_1, before3_2]
  rw [show (dat3 V c).owesAt () t.succ = (dat3 V c).owesAt () t.castSucc from rfl]
  rw [show (dat3 V c).Φ t.succ = PhiOf spec3 cc3_scratch0 scM3 (acc3 V c) c (t.val + 1) t.isLt from rfl, PhiOf_succ]
  rw [leaves3_0, leaves3_1, leaves3_2]
  have hN : t.val < 64 := lt_of_lt_of_eq t.isLt (show cfg3.N = 64 from N_3)
  by_cases h0 : t.val % 8 = 0
  · have h7 : ¬t.val % 8 = 7 := by omega
    rw [Dat.leavesExact_idle (dat3 V c) 3 t (idleAt3_3 t h7) (noFlush3_3 t h7), acc3_first V c t h0]
    by_cases hz : t.val = 0
    · rw [Phi3_castSucc V c t, PhiOf_zero _ _ _ _ _ _ _ hz, PhiA3_eq]
      iintro ⟨⟨⟨HS, HR⟩, Hg⟩, Ho, ⟨%d0, H0⟩, ⟨%d1, H1⟩, ⟨%d2, H2⟩, H3⟩
      iapply (run1_first c Set.univ (grid3.coords t) _ _ _ _ _ _ _ _ _ _ ((hcond1_0 t).mpr h0) (fun h => h7 ((hcond1_1 t).mp h)) (adj3 V c t) (sup3 V c t) _)
      iframe H0 H1 HS
      iintro ⟨H0, H1, HS⟩
      iframe
    · rw [Phi3_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_first c Set.univ (grid3.coords t) _ _ _ _ _ _ _ _ _ _ ((hcond1_0 t).mpr h0) (fun h => h7 ((hcond1_1 t).mp h)) (adj3 V c t) (sup3 V c t) _)
      iframe H0 H1
      isplitl [HS]; · iexists _; iexact HS
      iintro ⟨H0, H1, HS⟩
      iframe
  · have hz : t.val ≠ 0 := fun e => h0 (by rw [e])
    by_cases h7 : t.val % 8 = 7
    · rw [show (dat3 V c).leavesExact 3 t = owns (c : Thread nD τ) (ms3_3 t) fullShare ((dat3 V c).after 3 t) from by
        unfold Dat.leavesExact; rw [liveAt3_3 t h7], after3_3, acc3_next V c t h0]
      rw [Phi3_castSucc V c t, PhiOf_pos _ _ _ _ _ _ _ hz]
      iintro ⟨⟨⟨HS, HR⟩, Hg⟩, Ho, ⟨%d0, H0⟩, ⟨%d1, H1⟩, ⟨%d2, H2⟩, ⟨%d3, H3⟩⟩
      iapply (run1_last c Set.univ (grid3.coords t) _ _ _ _ _ _ _ _ _ _ (fun h => h0 ((hcond1_0 t).mp h)) ((hcond1_1 t).mpr h7) (adj3 V c t) (sup3 V c t) (rsc3 V c t) _ _)
      iframe H0 H1 H2
      isplitl [H3]; · iexists _; iexact H3
      isplitl [HS]; · iexact HS
      iintro ⟨H0, H1, H2, H3, HS⟩
      iframe
    · rw [Dat.leavesExact_idle (dat3 V c) 3 t (idleAt3_3 t h7) (noFlush3_3 t h7), acc3_next V c t h0]
      rw [Phi3_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_mid c Set.univ (grid3.coords t) _ _ _ _ _ _ _ _ _ _ (fun h => h0 ((hcond1_0 t).mp h)) (fun h => h7 ((hcond1_1 t).mp h)) (adj3 V c t) (sup3 V c t) _ _)
      iframe H0 H1 HS
      iintro ⟨H0, H1, HS⟩
      iframe

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiOf spec3 cc3_scratch0 scM3 (acc3 V c) c 0 (Nat.zero_le _) from rfl, PhiOf_zero _ _ _ _ _ 0 _ rfl]
  try exact Idealize.SL.BI.Entails.refl _

theorem hout3 (c : Dev nD) : (dat3 V c).Φ (Fin.last cfg3.N) ⊢ (Pipeline.ΦA spec3 c : sProp 𝕄) :=
  PhiOf_out spec3 cc3_scratch0 scM3 (acc3 V c) c (PhiA3_eq c) (Fin.last cfg3.N).val (Nat.le_of_lt_succ (Fin.last cfg3.N).isLt)
    (by rw [Fin.val_last]; have : cfg3.N = 64 := N_3; omega)

end Cert.KernelIdeal.Hand

end
-- ==== Proof.KI.R4.lean ====
import proofs.«164122_j44229573214371_1_alg».proof.Proof.Gen.KernelIdeal.Launch
import proofs.«164122_j44229573214371_1_alg».proof.Proof.Gen.KernelIdeal.Skeleton
import proofs.«164122_j44229573214371_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz4 : (![0, 0] : Fin 2 → Nat) = fun _ => 0 := funext fun a => by fin_cases a <;> rfl

theorem read_writes_cons_overlay4 {sg : RefSig} {κ : Kind} {sp : Space} {s : Shape} {e : EltTy} {Val : EltTy → Type}
    (v : View sg κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [Rect.overlay_of_not_mem _ _ _ hy, View.writes_cons, View.read_slice_write_of_not_mem r _ _ _ hy']

theorem overlay_unit_zero4 {S : Shape} {α : Type} {off : Fin S.rank → Nat} (h : off = fun _ => 0)
    (inb : ∀ a, off a + S.size a ≤ S.size a) (X w : S.Idx → α) : (Rect.unit off S.size inb).overlay X w = w := by
  subst h; funext y
  have e := Rect.overlay_emb (Rect.whole S) X w y
  rw [Rect.emb_whole_apply] at e
  exact e

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev colRect (i : grid4.Coords) : Rect S1x8192 := Rect.unit (s := S1x8192) (k4_off1 i) S1x1024.size (k4_off1_inb i)

def csStep (i : grid4.Coords) (x0 : Vec F S1024x1024 .f32) (xs : Vec F S1x8192 .f32) : Vec F S1x8192 .f32 :=
  (colRect i).overlay xs (k4_pay4 x0 (View.ld xs (colRect i)))

def rs4 (c : Dev nD) : (n : ℕ) → n < cfg4.N → Vec F S1024x1 .f32
  | 0, h => k4_pay3 (blk4 V c 0 ⟨0, h⟩) (k4_pay2 (F := F))
  | n + 1, h => k4_pay3 (blk4 V c 0 ⟨n + 1, h⟩) (if (n + 1) % 8 = 0 then (k4_pay2 (F := F)) else rs4 c n (Nat.lt_of_succ_lt h))

def cs4 (c : Dev nD) : (n : ℕ) → n < cfg4.N → Vec F S1x8192 .f32
  | 0, h => csStep (grid4.coords ⟨0, h⟩) (blk4 V c 0 ⟨0, h⟩) (k4_pay1 (F := F))
  | n + 1, h => csStep (grid4.coords ⟨n + 1, h⟩) (blk4 V c 0 ⟨n + 1, h⟩) (cs4 c n (Nat.lt_of_succ_lt h))

theorem rs4_reset (c : Dev nD) (t : Fin cfg4.N) (h : t.val % 8 = 0) :
    rs4 V c t.val t.isLt = k4_pay3 (blk4 V c 0 t) (k4_pay2 (F := F)) := by
  obtain ⟨n, hn⟩ := t
  cases n with
  | zero => rfl
  | succ n => exact congrArg (k4_pay3 (blk4 V c 0 ⟨n + 1, hn⟩)) (if_pos h)

theorem rs4_acc (c : Dev nD) (t : Fin cfg4.N) (h : ¬t.val % 8 = 0) :
    rs4 V c t.val t.isLt = k4_pay3 (blk4 V c 0 t) (rs4 V c (t.val - 1) (Nat.lt_of_le_of_lt (Nat.sub_le _ _) t.isLt)) := by
  obtain ⟨n, hn⟩ := t
  cases n with
  | zero => exact absurd (Nat.zero_mod _) h
  | succ n => exact congrArg (k4_pay3 (blk4 V c 0 ⟨n + 1, hn⟩)) (if_neg h)

theorem cs4_zero (c : Dev nD) (t : Fin cfg4.N) (h : t.val = 0) :
    cs4 V c t.val t.isLt = csStep (grid4.coords t) (blk4 V c 0 t) (k4_pay1 (F := F)) := by
  obtain ⟨n, hn⟩ := t
  cases n with
  | zero => rfl
  | succ n => exact absurd h (Nat.succ_ne_zero n)

theorem cs4_pos (c : Dev nD) (t : Fin cfg4.N) (h : t.val ≠ 0) :
    cs4 V c t.val t.isLt = csStep (grid4.coords t) (blk4 V c 0 t) (cs4 V c (t.val - 1) (Nat.lt_of_le_of_lt (Nat.sub_le _ _) t.isLt)) := by
  obtain ⟨n, hn⟩ := t
  cases n with
  | zero => exact absurd rfl h
  | succ n => rfl

abbrev cond4_0 (i : grid4.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

abbrev cond4_1 (i : grid4.Coords) : Prop := (Scalar.cmpi .ne (Scalar.extui (Scalar.cmpi .eq (BitVec.ofNat 32 (i 1).val) 0#32)) 0#32) = 1#1

abbrev cond4_2 (i : grid4.Coords) : Prop := k4_cond3 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val % 8 = 0 :=
  (by decide +kernel : ∀ t : Fin grid4.N, cond4_1 (grid4.coords t) ↔ t.val % 8 = 0)
theorem hcond4_2 : ∀ t : Fin cfg4.N, cond4_2 (grid4.coords t) ↔ t.val = 63 :=
  (by decide +kernel : ∀ t : Fin grid4.N, cond4_2 (grid4.coords t) ↔ t.val = 63)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_2 (grid4.coords t) → cfg4.idle 2 (grid4.coords t) = true := by decide +kernel
theorem liveAt4_2 : ∀ t : Fin cfg4.N, cond4_2 (grid4.coords t) → cfg4.idle 2 (grid4.coords t) = false := by decide +kernel
theorem noFlush4_2 : ∀ t : Fin cfg4.N, ¬cond4_2 (grid4.coords t) → (cfg4.win 2).flush t = false := by decide +kernel

set_option maxHeartbeats 1000000 in
theorem run4_G (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : ¬cond4_0 i) (hc1 : ¬cond4_1 i) (hc2 : ¬cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ owns (c : Thread nD τ) arg3 fullShare xo ∗ owns (c : Thread nD τ) arg4 fullShare xi ∗ owns (c : Thread nD τ) arg5 fullShare xs
        ∗ (iprop(owns (c : Thread nD τ) arg2 fullShare x0 ∗ owns (c : Thread nD τ) arg3 fullShare (k4_pay3 x0 xo) ∗ owns (c : Thread nD τ) arg4 fullShare (xi) ∗ owns (c : Thread nD τ) arg5 fullShare (csStep i x0 xs)) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]
  isplitl [H2]
  · iexists _; isplitr; · ipureintro; exact harg4.read_unread _
    iexact H2
  iexists _; isplitr
  swap; · iexact HS
  ipureintro
  unfold csStep
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

set_option maxHeartbeats 1000000 in
theorem run4_R (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : ¬cond4_0 i) (hc1 : cond4_1 i) (hc2 : ¬cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ (∃ d, owns (c : Thread nD τ) arg3 fullShare d) ∗ owns (c : Thread nD τ) arg4 fullShare xi ∗ owns (c : Thread nD τ) arg5 fullShare xs
        ∗ (iprop(owns (c : Thread nD τ) arg2 fullShare x0 ∗ owns (c : Thread nD τ) arg3 fullShare (k4_pay3 x0 (k4_pay2 (F := F))) ∗ owns (c : Thread nD τ) arg4 fullShare (xi) ∗ owns (c : Thread nD τ) arg5 fullShare (csStep i x0 xs)) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%d1, %f1, -, H1⟩, ⟨%f2, %hf2, H2⟩, ⟨%fs, %hfs, HS⟩, Hk⟩
  obtain rfl := harg2.eq_unread hf0; obtain rfl := harg4.eq_unread hf2; obtain rfl := harg5.eq_unread hfs
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    sl_unfold_words
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4, View.readCov_unit_zero (S := S1024x1) _ hz4]
  isplitl [H2]
  · iexists _; isplitr; · ipureintro; exact harg4.read_unread _
    iexact H2
  iexists _; isplitr
  swap; · iexact HS
  ipureintro
  unfold csStep
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

set_option maxHeartbeats 1000000 in
theorem run4_Z (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : cond4_0 i) (hc1 : cond4_1 i) (hc2 : ¬cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ (∃ d, owns (c : Thread nD τ) arg3 fullShare d) ∗ owns (c : Thread nD τ) arg4 fullShare xi ∗ (∃ d, owns (c : Thread nD τ) arg5 fullShare d)
        ∗ (iprop(owns (c : Thread nD τ) arg2 fullShare x0 ∗ owns (c : Thread nD τ) arg3 fullShare (k4_pay3 x0 (k4_pay2 (F := F))) ∗ owns (c : Thread nD τ) arg4 fullShare (xi) ∗ owns (c : Thread nD τ) arg5 fullShare (csStep i x0 (k4_pay1 (F := F)))) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%d1, %f1, -, H1⟩, ⟨%f2, %hf2, H2⟩, ⟨%ds, %fs, -, HS⟩, Hk⟩
  obtain rfl := harg2.eq_unread hf0; obtain rfl := harg4.eq_unread hf2
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    sl_unfold_words
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4, View.readCov_unit_zero (S := S1024x1) _ hz4]
  isplitl [H2]
  · iexists _; isplitr; · ipureintro; exact harg4.read_unread _
    iexact H2
  iexists _; isplitr
  swap; · iexact HS
  ipureintro
  unfold csStep
  sl_unfold_run_names
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

set_option maxHeartbeats 1000000 in
theorem run4_L (c : Dev nD) (i : grid4.Coords) (arg2 : Memref sig .tc .vmem S1024x1024 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole)
    (hc0 : ¬cond4_0 i) (hc1 : ¬cond4_1 i) (hc2 : cond4_2 i)
    (x0 : Vec F S1024x1024 .f32) (xo : Vec F S1024x1 .f32) (xi : Vec F S1x8192 .f32) (xs : Vec F S1x8192 .f32) (E : Set ℕ) (K : PUnit → sProp 𝕄) :
    iprop(owns (c : Thread nD τ) arg2 fullShare x0 ∗ owns (c : Thread nD τ) arg3 fullShare xo ∗ (∃ d, owns (c : Thread nD τ) arg4 fullShare d) ∗ owns (c : Thread nD τ) arg5 fullShare xs
        ∗ (iprop(owns (c : Thread nD τ) arg2 fullShare x0 ∗ owns (c : Thread nD τ) arg3 fullShare (k4_pay3 x0 xo) ∗ owns (c : Thread nD τ) arg4 fullShare (csStep i x0 xs) ∗ owns (c : Thread nD τ) arg5 fullShare (csStep i x0 xs)) -∗ K ⟨⟩))
      ⊢ wp frame (wpE (defs₀ (F := F)) Variants.none c none) E (cc4__uc_sums_kernel i arg2 harg2 arg3 harg3 arg4 harg4 arg5 harg5) K := by
  simp only [cc4__uc_sums_kernel_eq_skeleton]; unfold cc4__uc_sums_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1 | exact hc2)
  sl_step
  iapply Hk
  isplitl [H0]
  · iexists _; isplitr; · ipureintro; exact harg2.read_unread _
    iexact H0
  isplitl [H1]
  · iexists _; isplitr
    swap; · iexact H1
    ipureintro
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]
  isplitl [H2]
  · iexists _; isplitr
    swap; · iexact H2
    ipureintro
    unfold csStep
    sl_unfold_run_names
    simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]
  iexists _; isplitr
  swap; · iexact HS
  ipureintro
  unfold csStep
  sl_unfold_run_names
  simp only [read_writes_cons_overlay4, View.writes_nil, overlay_unit_zero4 (S := S1024x1) hz4, overlay_unit_zero4 (S := S1x8192) hz4, View.readAt_eq_ld, harg2.read_unread, harg3.read_unread, harg4.read_unread, harg5.read_unread, View.ld_unit_zero (S := S1024x1024) hz4, View.ld_unit_zero (S := S1024x1) hz4, View.ld_unit_zero (S := S1x8192) hz4]

abbrev scM4 : Memref sig .tc .vmem S1x8192 .f32 := Memref.whole cc4_scratch0

def PhiS4 (c : Dev nD) : (n : ℕ) → n ≤ cfg4.N → sProp 𝕄
  | 0, _ => Pipeline.ΦA spec4 c
  | n + 1, hn => iprop(iprop(owns (c : Thread nD τ) scM4 fullShare (cs4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (cs4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (cs4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => rs4 V c t.val t.isLt
    | ⟨2, _⟩ => cs4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = blk4 V c 0 t := by dsimp only [dat4]
theorem after4_1 (c : Dev nD) (t : Fin cfg4.N) : (dat4 V c).after 1 t = rs4 V c t.val t.isLt := by dsimp only [dat4]
theorem after4_2 (c : Dev nD) (t : Fin cfg4.N) : (dat4 V c).after 2 t = cs4 V c t.val t.isLt := by dsimp only [dat4]

theorem before4_0 (c : Dev nD) (t : Fin cfg4.N) (d) : (dat4 V c).before 0 t d = blk4 V c 0 t :=
  ((dat4 V c).before_in_eq_fetched 0 rfl (fun _ => rfl) (fun _ _ _ => rfl)
    (fun t => by rw [after4_0]; unfold Dat.blockOf blk4; rw [A_eq4]; try rfl) t d).trans
    (by unfold Dat.fetched Dat.blockOf blk4; rw [A_eq4]; try rfl)

theorem before4_1_acc (c : Dev nD) (t : Fin cfg4.N) (h8 : ¬t.val % 8 = 0) (d) :
    (dat4 V c).before 1 t d = rs4 V c (t.val - 1) (Nat.lt_of_le_of_lt (Nat.sub_le _ _) t.isLt) := by
  have hN : t.val < 64 := lt_of_lt_of_eq t.isLt (show cfg4.N = 64 from N_4)
  rw [Dat.before_out_kept _ 1 rfl t (by omega) (Bool.eq_false_iff.mpr fun h => by have := (flush4_1 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [PhiS4_castSucc V c t]
  by_cases h0 : t.val = 0
  · have h8 : t.val % 8 = 0 := by omega
    have hL : ¬t.val = 63 := by omega
    rw [Dat.leavesExact_idle (dat4 V c) 2 t (idleAt4_2 t (fun h => hL ((hcond4_2 t).mp h))) (noFlush4_2 t (fun h => hL ((hcond4_2 t).mp h)))]
    rw [rs4_reset V c t h8, cs4_zero V c t h0, PhiS4_zero V c _ _ h0, PhiA4_eq]
    iintro ⟨⟨⟨HS, HR⟩, Hg⟩, Ho, ⟨%d0, H0⟩, ⟨%d1, H1⟩, ⟨%d2, H2⟩⟩
    iapply (run4_Z c (grid4.coords t) _ _ _ _ _ _ _ _ ((hcond4_0 t).mpr h0) ((hcond4_1 t).mpr h8) (fun h => hL ((hcond4_2 t).mp h)) (blk4 V c 0 t) ((dat4 V c).before 1 t d1) ((dat4 V c).before 2 t d2) (k4_pay1 (F := F)) Set.univ _)
    isplitl [H0]; · iexact H0
    isplitl [H1]; · iexists _; iexact H1
    iframe H2 HS
    iintro ⟨H0, H1, H2, HS⟩
    iframe HS HR Hg Ho H0 H1
    iexists _; iexact H2
  · rw [PhiS4_pos V c _ _ h0, cs4_pos V c t h0]
    by_cases h8 : t.val % 8 = 0
    · have hL : ¬t.val = 63 := by omega
      rw [Dat.leavesExact_idle (dat4 V c) 2 t (idleAt4_2 t (fun h => hL ((hcond4_2 t).mp h))) (noFlush4_2 t (fun h => hL ((hcond4_2 t).mp h)))]
      rw [rs4_reset V c t h8]
      iintro ⟨⟨⟨HS, HR⟩, Hg⟩, Ho, ⟨%d0, H0⟩, ⟨%d1, H1⟩, ⟨%d2, H2⟩⟩
      iapply (run4_R c (grid4.coords t) _ _ _ _ _ _ _ _ (fun h => h0 ((hcond4_0 t).mp h)) ((hcond4_1 t).mpr h8) (fun h => hL ((hcond4_2 t).mp h)) (blk4 V c 0 t) ((dat4 V c).before 1 t d1) ((dat4 V c).before 2 t d2) _ Set.univ _)
      isplitl [H0]; · iexact H0
      isplitl [H1]; · iexists _; iexact H1
      iframe H2 HS
      iintro ⟨H0, H1, H2, HS⟩
      iframe HS HR Hg Ho H0 H1
      iexists _; iexact H2
    · rw [rs4_acc V c t h8]
      simp only [before4_1_acc V c t h8]
      by_cases hL : t.val = 63
      · rw [show (dat4 V c).leavesExact 2 t = owns (c : Thread nD τ) (st4_2 t) fullShare ((dat4 V c).after 2 t) from by
          unfold Dat.leavesExact; rw [liveAt4_2 t ((hcond4_2 t).mpr hL)], after4_2, cs4_pos V c t h0]
        iintro ⟨⟨⟨HS, HR⟩, Hg⟩, Ho, ⟨%d0, H0⟩, ⟨%d1, H1⟩, ⟨%d2, H2⟩⟩
        iapply (run4_L c (grid4.coords t) _ _ _ _ _ _ _ _ (fun h => h0 ((hcond4_0 t).mp h)) (fun h => h8 ((hcond4_1 t).mp h)) ((hcond4_2 t).mpr hL) (blk4 V c 0 t) _ ((dat4 V c).before 2 t d2) _ Set.univ _)
        iframe H0 H1
        isplitl [H2]; · iexists _; iexact H2
        isplitl [HS]; · iexact HS
        iintro ⟨H0, H1, H2, HS⟩
        iframe
      · rw [Dat.leavesExact_idle (dat4 V c) 2 t (idleAt4_2 t (fun h => hL ((hcond4_2 t).mp h))) (noFlush4_2 t (fun h => hL ((hcond4_2 t).mp h)))]
        iintro ⟨⟨⟨HS, HR⟩, Hg⟩, Ho, ⟨%d0, H0⟩, ⟨%d1, H1⟩, ⟨%d2, H2⟩⟩
        iapply (run4_G c (grid4.coords t) _ _ _ _ _ _ _ _ (fun h => h0 ((hcond4_0 t).mp h)) (fun h => h8 ((hcond4_1 t).mp h)) (fun h => hL ((hcond4_2 t).mp h)) (blk4 V c 0 t) _ ((dat4 V c).before 2 t d2) _ Set.univ _)
        iframe H0 H1 H2 HS
        iintro ⟨H0, H1, H2, HS⟩
        iframe HS HR Hg Ho H0 H1
        iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ (Pipeline.ΦA spec4 c : sProp 𝕄) := by
  have hN : cfg4.N = 64 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega), PhiA4_eq]
  iintro ⟨⟨HS, HR⟩, Hg⟩
  isplitl [HS HR]
  · isplitl [HS]
    · iexists _; iexact HS
    iexact HR
  iexact Hg

end Cert.KernelIdeal.Hand

end
-- ==== Proof.KI.R5.lean ====
import proofs.«164122_j44229573214371_1_alg».proof.Proof.Gen.KernelIdeal.Launch
import proofs.«164122_j44229573214371_1_alg».proof.Proof.Gen.KernelIdeal.Skeleton
import proofs.«164122_j44229573214371_1_alg».proof.Proof.Gen.KernelIdeal.Points
import proofs.«164122_j44229573214371_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- Regions 1, 3 and 5 run one kernel body.
theorem cc5_eq_cc1 : cc5__wmm_kernel (F := F) = cc1__wmm_kernel (F := F) := rfl

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev adj5 (c : Dev nD) (t : Fin cfg5.N) : Vec F S1024x1024 .f32 := blk5 V c 0 t
abbrev sup5 (c : Dev nD) (t : Fin cfg5.N) : Vec F S1024x32 .f32 := blk5 V c 1 t
abbrev rsc5 (c : Dev nD) (t : Fin cfg5.N) : Vec F S1024x1 .f32 := blk5 V c 2 t

abbrev acc5 (c : Dev nD) : (n : ℕ) → n < cfg5.N → Vec F S1024x32 .f32 := accOf (adj5 V c) (sup5 V c)

theorem acc5_first (c : Dev nD) (t : Fin cfg5.N) (h0 : t.val % 8 = 0) :
    acc5 V c t.val t.isLt = k1_pay2 (adj5 V c t) (sup5 V c t) (k1_pay1 (F := F)) := accOf_first _ _ t h0

theorem acc5_next (c : Dev nD) (t : Fin cfg5.N) (h0 : ¬t.val % 8 = 0) :
    acc5 V c t.val t.isLt = k1_pay2 (adj5 V c t) (sup5 V c t)
      (acc5 V c (t.val - 1) (Nat.lt_of_le_of_lt (Nat.sub_le _ _) t.isLt)) := accOf_next _ _ t h0

abbrev scM5 : Memref sig .tc .vmem S1024x32 .f32 := Memref.whole cc5_scratch0

theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => k1_pay3 (acc5 V c t.val t.isLt) (rsc5 V c t)
  Φ t := PhiOf spec5 cc5_scratch0 scM5 (acc5 V c) c t.val (Nat.le_of_lt_succ t.isLt)
  q _ := fullShare
  owed _ := 0

theorem A_eq5 (c : Dev nD) (w : Fin cfg5.W) : (dat5 V c).A w = V c (Pipeline.arrRef spec5 w) := by
  dsimp only [dat5]

theorem Phi5_castSucc (c : Dev nD) (t : Fin cfg5.N) :
    (dat5 V c).Φ t.castSucc = PhiOf spec5 cc5_scratch0 scM5 (acc5 V c) c t.val (Nat.le_of_lt t.isLt) := by
  dsimp only [dat5]; simp only [Fin.coe_castSucc]

theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = blk5 V c 2 t := by dsimp only [dat5]
theorem after5_3 (c : Dev nD) (t : Fin cfg5.N) :
    (dat5 V c).after 3 t = k1_pay3 (acc5 V c t.val t.isLt) (rsc5 V c t) := by dsimp only [dat5]

theorem before5_0 (c : Dev nD) (t : Fin cfg5.N) (d) : (dat5 V c).before 0 t d = blk5 V c 0 t :=
  ((dat5 V c).before_in_eq_fetched 0 rfl (fun _ => rfl) (fun _ _ _ => rfl)
    (fun t => by rw [after5_0]; unfold Dat.blockOf blk5; rw [A_eq5]; try rfl) t d).trans
    (by unfold Dat.fetched Dat.blockOf blk5; rw [A_eq5]; try rfl)
theorem before5_1 (c : Dev nD) (t : Fin cfg5.N) (d) : (dat5 V c).before 1 t d = blk5 V c 1 t :=
  ((dat5 V c).before_in_eq_fetched 1 rfl (fun _ => rfl) (fun _ _ _ => rfl)
    (fun t => by rw [after5_1]; unfold Dat.blockOf blk5; rw [A_eq5]; try rfl) t d).trans
    (by unfold Dat.fetched Dat.blockOf blk5; rw [A_eq5]; try rfl)
theorem before5_2 (c : Dev nD) (t : Fin cfg5.N) (d) : (dat5 V c).before 2 t d = blk5 V c 2 t :=
  ((dat5 V c).before_in_eq_fetched 2 rfl (fun _ => rfl) (fun _ _ _ => rfl)
    (fun t => by rw [after5_2]; unfold Dat.blockOf blk5; rw [A_eq5]; try rfl) t d).trans
    (by unfold Dat.fetched Dat.blockOf blk5; rw [A_eq5]; try rfl)

theorem idleAt5_3 : ∀ t : Fin cfg5.N, ¬t.val % 8 = 7 → cfg5.idle 3 (grid5.coords t) = true := by decide +kernel
theorem liveAt5_3 : ∀ t : Fin cfg5.N, t.val % 8 = 7 → cfg5.idle 3 (grid5.coords t) = false := by decide +kernel
theorem noFlush5_3 (t : Fin cfg5.N) (h7 : ¬t.val % 8 = 7) : (cfg5.win 3).flush t = false :=
  Bool.eq_false_iff.mpr fun h => h7 ((flush5_3 t).mp h)

abbrev ms5_0 (t : Fin cfg5.N) : Memref sig .tc .vmem S1024x1024 .f32 := win5_0.stage (cfg5.slots t 0)
abbrev ms5_1 (t : Fin cfg5.N) : Memref sig .tc .vmem S1024x32 .f32 := win5_1.stage (cfg5.slots t 1)
abbrev ms5_2 (t : Fin cfg5.N) : Memref sig .tc .vmem S1024x1 .f32 := win5_2.stage (cfg5.slots t 2)
abbrev ms5_3 (t : Fin cfg5.N) : Memref sig .tc .vmem S1024x32 .f32 := win5_3.stage (cfg5.slots t 3)

theorem leaves5_0 (c : Dev nD) (t : Fin cfg5.N) :
    (dat5 V c).leavesExact 0 t = owns (c : Thread nD τ) (ms5_0 t) fullShare (blk5 V c 0 t) := by
  rw [← after5_0]
theorem leaves5_1 (c : Dev nD) (t : Fin cfg5.N) :
    (dat5 V c).leavesExact 1 t = owns (c : Thread nD τ) (ms5_1 t) fullShare (blk5 V c 1 t) := by
  rw [← after5_1]
theorem leaves5_2 (c : Dev nD) (t : Fin cfg5.N) :
    (dat5 V c).leavesExact 2 t = owns (c : Thread nD τ) (ms5_2 t) fullShare (blk5 V c 2 t) := by
  rw [← after5_2]

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [cc5_eq_cc1]
  simp only [before5_0, before5_1, before5_2]
  rw [show (dat5 V c).owesAt () t.succ = (dat5 V c).owesAt () t.castSucc from rfl]
  rw [show (dat5 V c).Φ t.succ = PhiOf spec5 cc5_scratch0 scM5 (acc5 V c) c (t.val + 1) t.isLt from rfl, PhiOf_succ]
  rw [leaves5_0, leaves5_1, leaves5_2]
  have hN : t.val < 64 := lt_of_lt_of_eq t.isLt (show cfg5.N = 64 from N_5)
  by_cases h0 : t.val % 8 = 0
  · have h7 : ¬t.val % 8 = 7 := by omega
    rw [Dat.leavesExact_idle (dat5 V c) 3 t (idleAt5_3 t h7) (noFlush5_3 t h7), acc5_first V c t h0]
    by_cases hz : t.val = 0
    · rw [Phi5_castSucc V c t, PhiOf_zero _ _ _ _ _ _ _ hz, PhiA5_eq]
      iintro ⟨⟨⟨HS, HR⟩, Hg⟩, Ho, ⟨%d0, H0⟩, ⟨%d1, H1⟩, ⟨%d2, H2⟩, H3⟩
      iapply (run1_first c Set.univ (grid5.coords t) _ _ _ _ _ _ _ _ _ _ ((hcond1_0 t).mpr h0) (fun h => h7 ((hcond1_1 t).mp h)) (adj5 V c t) (sup5 V c t) _)
      iframe H0 H1 HS
      iintro ⟨H0, H1, HS⟩
      iframe
    · rw [Phi5_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_first c Set.univ (grid5.coords t) _ _ _ _ _ _ _ _ _ _ ((hcond1_0 t).mpr h0) (fun h => h7 ((hcond1_1 t).mp h)) (adj5 V c t) (sup5 V c t) _)
      iframe H0 H1
      isplitl [HS]; · iexists _; iexact HS
      iintro ⟨H0, H1, HS⟩
      iframe
  · have hz : t.val ≠ 0 := fun e => h0 (by rw [e])
    by_cases h7 : t.val % 8 = 7
    · rw [show (dat5 V c).leavesExact 3 t = owns (c : Thread nD τ) (ms5_3 t) fullShare ((dat5 V c).after 3 t) from by
        unfold Dat.leavesExact; rw [liveAt5_3 t h7], after5_3, acc5_next V c t h0]
      rw [Phi5_castSucc V c t, PhiOf_pos _ _ _ _ _ _ _ hz]
      iintro ⟨⟨⟨HS, HR⟩, Hg⟩, Ho, ⟨%d0, H0⟩, ⟨%d1, H1⟩, ⟨%d2, H2⟩, ⟨%d3, H3⟩⟩
      iapply (run1_last c Set.univ (grid5.coords t) _ _ _ _ _ _ _ _ _ _ (fun h => h0 ((hcond1_0 t).mp h)) ((hcond1_1 t).mpr h7) (adj5 V c t) (sup5 V c t) (rsc5 V c t) _ _)
      iframe H0 H1 H2
      isplitl [H3]; · iexists _; iexact H3
      isplitl [HS]; · iexact HS
      iintro ⟨H0, H1, H2, H3, HS⟩
      iframe
    · rw [Dat.leavesExact_idle (dat5 V c) 3 t (idleAt5_3 t h7) (noFlush5_3 t h7), acc5_next V c t h0]
      rw [Phi5_castSucc V c t, PhiOf_pos _ _ _ _ _ _ _ hz]
      iintro ⟨⟨⟨HS, HR⟩, Hg⟩, Ho, ⟨%d0, H0⟩, ⟨%d1, H1⟩, ⟨%d2, H2⟩, H3⟩
      iapply (run1_mid c Set.univ (grid5.coords t) _ _ _ _ _ _ _ _ _ _ (fun h => h0 ((hcond1_0 t).mp h)) (fun h => h7 ((hcond1_1 t).mp h)) (adj5 V c t) (sup5 V c t) _ _)
      iframe H0 H1 HS
      iintro ⟨H0, H1, HS⟩
      iframe

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiOf spec5 cc5_scratch0 scM5 (acc5 V c) c 0 (Nat.zero_le _) from rfl, PhiOf_zero _ _ _ _ _ 0 _ rfl]
  try exact Idealize.SL.BI.Entails.refl _

theorem hout5 (c : Dev nD) : (dat5 V c).Φ (Fin.last cfg5.N) ⊢ (Pipeline.ΦA spec5 c : sProp 𝕄) :=
  PhiOf_out spec5 cc5_scratch0 scM5 (acc5 V c) c (PhiA5_eq c) (Fin.last cfg5.N).val (Nat.le_of_lt_succ (Fin.last cfg5.N).isLt)
    (by rw [Fin.val_last]; have : cfg5.N = 64 := N_5; omega)

end Cert.KernelIdeal.Hand

end
-- ==== Proof.KI.Stages.lean ====
import proofs.«164122_j44229573214371_1_alg».proof.Proof.Gen.KernelIdeal.Regions
import proofs.«164122_j44229573214371_1_alg».proof.Proof.KI.R0
import proofs.«164122_j44229573214371_1_alg».proof.Proof.KI.R1
import proofs.«164122_j44229573214371_1_alg».proof.Proof.KI.R2
import proofs.«164122_j44229573214371_1_alg».proof.Proof.KI.R3
import proofs.«164122_j44229573214371_1_alg».proof.Proof.KI.R4
import proofs.«164122_j44229573214371_1_alg».proof.Proof.KI.R5
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def Y1 (c : Dev nD) : Valuation τ sig (Elt F) :=
  Pipeline.withArrays spec0 c (V0 m c) fun w => (dat0 (rd (V0 m)) c).arrAt w cfg0.N

def o1 : Outs (F := F) := fun J r c => match J with
  | 1 => Y1 m c r
  | _ => m ((c : Thread nD τ).loc r)

def Y3 (c : Dev nD) : Valuation τ sig (Elt F) :=
  Pipeline.withArrays spec1 c (V2 m (o1 m) c) fun w => (dat1 (rd (V2 m (o1 m))) c).arrAt w cfg1.N

def o3 : Outs (F := F) := fun J r c => match J with
  | 3 => Y3 m c r
  | _ => o1 m J r c

def Y4 (c : Dev nD) : Valuation τ sig (Elt F) :=
  Pipeline.withArrays spec2 c (V3 m (o3 m) c) fun w => (dat2 (rd (V3 m (o3 m))) c).arrAt w cfg2.N

def o4 : Outs (F := F) := fun J r c => match J with
  | 4 => Y4 m c r
  | _ => o3 m J r c

def Y6 (c : Dev nD) : Valuation τ sig (Elt F) :=
  Pipeline.withArrays spec3 c (V5 m (o4 m) c) fun w => (dat3 (rd (V5 m (o4 m))) c).arrAt w cfg3.N

def o6 : Outs (F := F) := fun J r c => match J with
  | 6 => Y6 m c r
  | _ => o4 m J r c

def Y7 (c : Dev nD) : Valuation τ sig (Elt F) :=
  Pipeline.withArrays spec4 c (V6 m (o6 m) c) fun w => (dat4 (rd (V6 m (o6 m))) c).arrAt w cfg4.N

def o7 : Outs (F := F) := fun J r c => match J with
  | 7 => Y7 m c r
  | _ => o6 m J r c

def Y9 (c : Dev nD) : Valuation τ sig (Elt F) :=
  Pipeline.withArrays spec5 c (V8 m (o7 m) c) fun w => (dat5 (rd (V8 m (o7 m))) c).arrAt w cfg5.N

def o9 : Outs (F := F) := fun J r c => match J with
  | 9 => Y9 m c r
  | _ => o7 m J r c

abbrev outs : Outs (F := F) := o9 m

def pdats : (p : Fin 6) → (c : Dev nD) → Dat τ (Elt F) Unit ℕ (UR sig nD τ) ℕ (cfgs p) c
  | ⟨0, _⟩ => fun c => dat0 (rd (V0 m)) c
  | ⟨1, _⟩ => fun c => dat1 (rd (V2 m (outs m))) c
  | ⟨2, _⟩ => fun c => dat2 (rd (V3 m (outs m))) c
  | ⟨3, _⟩ => fun c => dat3 (rd (V5 m (outs m))) c
  | ⟨4, _⟩ => fun c => dat4 (rd (V6 m (outs m))) c
  | ⟨5, _⟩ => fun c => dat5 (rd (V8 m (outs m))) c

abbrev p0 : Fin 6 := 0
abbrev p1 : Fin 6 := 1
abbrev p2 : Fin 6 := 2
abbrev p3 : Fin 6 := 3
abbrev p4 : Fin 6 := 4
abbrev p5 : Fin 6 := 5

abbrev ent0 : Dev nD → Valuation τ sig (Elt F) := V0 m

abbrev ent1 : Dev nD → Valuation τ sig (Elt F) := V2 m (outs m)

abbrev ent2 : Dev nD → Valuation τ sig (Elt F) := V3 m (outs m)

abbrev ent3 : Dev nD → Valuation τ sig (Elt F) := V5 m (outs m)

abbrev ent4 : Dev nD → Valuation τ sig (Elt F) := V6 m (outs m)

abbrev ent5 : Dev nD → Valuation τ sig (Elt F) := V8 m (outs m)

abbrev L0 : GSem nD τ sig → Finset Unit := fun _ => ∅
abbrev lv0 : GSem nD τ sig → Unit → ℕ := fun _ _ => 0

abbrev rest (c : Dev nD) : sProp 𝕄 :=
  iprop((∃ r, prngReg c r) ∗ ∃ W, owes (c : Thread nD τ) (0 : CellTallies nD τ sig Unit) W)

set_option backward.isDefEq.respectTransparency.types false in
-- One region as a segment between two valuations, from its body obligation and what its arrays hold at exit.
def regOf (p : Fin 6) (launch : Pipeline.LaunchFacts (nD := nD) (τ := τ) cfgs p)
    (ent out : Dev nD → Valuation τ sig (Elt F))
    (hbody : ∀ c, BodyObligation (pdats m p c) defs₀ Variants.none () Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = rd out c (Pipeline.arrRef (cfgs p).spec w))
    (hrest : ∀ c b, b ∉ Finset.univ.image (Pipeline.arrRef (cfgs p).spec) → rd out c b = rd ent c b)
    (hq : ∀ c w, (pdats m p c).q w = fullShare := by exact fun _ _ => rfl)
    (hA : ∀ c w, (pdats m p c).A w = rd ent c (Pipeline.arrRef (cfgs p).spec w) := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ Variants.none L0 lv0 p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (ent c) ∗ rest c)
  post c := iprop(StableHlo.held (c : Thread nD τ) (Pipeline.ucRefs τ sig) (out c) ∗ rest c)
  X c := iprop(∃ r, prngReg c r)
  Y c := iprop(∃ r, prngReg c r)
  Z c := Pipeline.unscopedRest (Ix := Unit) (Name := ℕ) (U := UR sig nD τ) (Lvl := ℕ) (cfgs p).spec c (rd ent c)
  hentry c := by
    rw [Pipeline.ownSems0_none]
    have hsplit := Pipeline.arrays_of_unscopedBufs (p := p) (pcfgs (F := F)) adm (pdats m) launch.win launch.arr_whole c
      ((pdats m p c).share_full (hq c)) (rd ent c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    iframe
  hin c := by
    refine (show _ ⊢ (Pipeline.ΦA (cfgs p).spec c : sProp 𝕄) from ?_).trans (hin c)
    unfold Pipeline.ΦA
    iintro ⟨Hp, -, Hr⟩
    iframe
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (rd ent c) (rd out c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.Seg0.lean ====
import proofs.«164122_j44229573214371_1_alg».proof.Proof.KI.Stages

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

theorem hF0 (c : Dev nD) (w : Fin cfg0.W) :
    (pdats m p0 c).arrAt w cfg0.N = rd (V1 m (outs m)) c (Pipeline.arrRef spec0 w) := by
  match w with
  | ⟨0, _⟩ =>
    exact ((dat0 (rd (ent0 m)) c).arrAt_in 0 rfl _).trans (V1_of m (outs m) c main_arg2 (by decide)).symm
  | ⟨1, _⟩ =>
    show _ = V1 m (outs m) c main_v0
    simp only [V1, Function.update_self]
    show (dat0 (rd (ent0 m)) c).arrAt 1 cfg0.N = Y1 m c main_v0
    unfold Y1
    exact (Pipeline.withArrays_arr spec0 launch0.win.arr_inj c (ent0 m c)
      (fun w => (dat0 (rd (ent0 m)) c).arrAt w cfg0.N) 1).symm

theorem hrest0 (c : Dev nD) :
    ∀ b, b ∉ Finset.univ.image (Pipeline.arrRef spec0) → rd (V1 m (outs m)) c b = rd (ent0 m) c b := by
  intro b hb
  refine V1_of m (outs m) c b ?_
  intro h
  simp only [List.mem_cons, List.mem_singleton, List.not_mem_nil, or_false] at h
  subst h
  exact hb (Finset.mem_image.mpr ⟨1, Finset.mem_univ _, rfl⟩)

def reg0 : Pipeline.RegionSeg (pcfgs (F := F)) adm (pdats m) () defs₀ Variants.none L0 lv0 p0 :=
  regOf m p0 launch0 (ent0 m) (V1 m (outs m)) (body_obligation0 _) (hin0 _) (hout0 _) (hF0 m) (hrest0 m)

end Cert.KernelIdeal.Hand

end
-- ==== Proof.KI.Seg1.lean ====
import proofs.«164122_j44229573214371_1_alg».proof.Proof.KI.Stages

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

theorem hF1 (c : Dev nD) (w : Fin cfg1.W) :
    (pdats m p1 c).arrAt w cfg1.N = rd (V3 m (outs m)) c (Pipeline.arrRef spec1 w) := by
  match w with
  | ⟨0, _⟩ =>
    exact ((dat1 (rd (ent1 m)) c).arrAt_in 0 rfl _).trans (V3_of m (outs m) c main_arg2 (by decide)).symm
  | ⟨1, _⟩ =>
    exact ((dat1 (rd (ent1 m)) c).arrAt_in 1 rfl _).trans (V3_of m (outs m) c main_v6 (by decide)).symm
  | ⟨2, _⟩ =>
    exact ((dat1 (rd (ent1 m)) c).arrAt_in 2 rfl _).trans (V3_of m (outs m) c main_v3 (by decide)).symm
  | ⟨3, _⟩ =>
    show _ = V3 m (outs m) c main_v7
    simp only [V3, Function.update_self]
    show (dat1 (rd (ent1 m)) c).arrAt 3 cfg1.N = Y3 m c main_v7
    unfold Y3
    exact (Pipeline.withArrays_arr spec1 launch1.win.arr_inj c (ent1 m c)
      (fun w => (dat1 (rd (ent1 m)) c).arrAt w cfg1.N) 3).symm

theorem hrest1 (c : Dev nD) :
    ∀ b, b ∉ Finset.univ.image (Pipeline.arrRef spec1) → rd (V3 m (outs m)) c b = rd (ent1 m) c b := by
  intro b hb
  refine V3_of m (outs m) c b ?_
  intro h
  simp only [List.mem_cons, List.mem_singleton, List.not_mem_nil, or_false] at h
  subst h
  exact hb (Finset.mem_image.mpr ⟨3, Finset.mem_univ _, rfl⟩)

def reg1 : Pipeline.RegionSeg (pcfgs (F := F)) adm (pdats m) () defs₀ Variants.none L0 lv0 p1 :=
  regOf m p1 launch1 (ent1 m) (V3 m (outs m)) (body_obligation1 _) (hin1 _) (hout1 _) (hF1 m) (hrest1 m)

end Cert.KernelIdeal.Hand

end
-- ==== Proof.KI.Seg2.lean ====
import proofs.«164122_j44229573214371_1_alg».proof.Proof.KI.Stages

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

theorem hF2 (c : Dev nD) (w : Fin cfg2.W) :
    (pdats m p2 c).arrAt w cfg2.N = rd (V4 m (outs m)) c (Pipeline.arrRef spec2 w) := by
  match w with
  | ⟨0, _⟩ =>
    exact ((dat2 (rd (ent2 m)) c).arrAt_in 0 rfl _).trans (V4_of m (outs m) c main_arg4 (by decide)).symm
  | ⟨1, _⟩ =>
    show _ = V4 m (outs m) c main_v8
    simp only [V4, Function.update_self]
    show (dat2 (rd (ent2 m)) c).arrAt 1 cfg2.N = Y4 m c main_v8
    unfold Y4
    exact (Pipeline.withArrays_arr spec2 launch2.win.arr_inj c (ent2 m c)
      (fun w => (dat2 (rd (ent2 m)) c).arrAt w cfg2.N) 1).symm

theorem hrest2 (c : Dev nD) :
    ∀ b, b ∉ Finset.univ.image (Pipeline.arrRef spec2) → rd (V4 m (outs m)) c b = rd (ent2 m) c b := by
  intro b hb
  refine V4_of m (outs m) c b ?_
  intro h
  simp only [List.mem_cons, List.mem_singleton, List.not_mem_nil, or_false] at h
  subst h
  exact hb (Finset.mem_image.mpr ⟨1, Finset.mem_univ _, rfl⟩)

def reg2 : Pipeline.RegionSeg (pcfgs (F := F)) adm (pdats m) () defs₀ Variants.none L0 lv0 p2 :=
  regOf m p2 launch2 (ent2 m) (V4 m (outs m)) (body_obligation2 _) (hin2 _) (hout2 _) (hF2 m) (hrest2 m)

end Cert.KernelIdeal.Hand

end
-- ==== Proof.KI.Seg3.lean ====
import proofs.«164122_j44229573214371_1_alg».proof.Proof.KI.Stages

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

theorem hF3 (c : Dev nD) (w : Fin cfg3.W) :
    (pdats m p3 c).arrAt w cfg3.N = rd (V6 m (outs m)) c (Pipeline.arrRef spec3 w) := by
  match w with
  | ⟨0, _⟩ =>
    exact ((dat3 (rd (ent3 m)) c).arrAt_in 0 rfl _).trans (V6_of m (outs m) c main_arg4 (by decide)).symm
  | ⟨1, _⟩ =>
    exact ((dat3 (rd (ent3 m)) c).arrAt_in 1 rfl _).trans (V6_of m (outs m) c main_v14 (by decide)).symm
  | ⟨2, _⟩ =>
    exact ((dat3 (rd (ent3 m)) c).arrAt_in 2 rfl _).trans (V6_of m (outs m) c main_v11 (by decide)).symm
  | ⟨3, _⟩ =>
    show _ = V6 m (outs m) c main_v15
    simp only [V6, Function.update_self]
    show (dat3 (rd (ent3 m)) c).arrAt 3 cfg3.N = Y6 m c main_v15
    unfold Y6
    exact (Pipeline.withArrays_arr spec3 launch3.win.arr_inj c (ent3 m c)
      (fun w => (dat3 (rd (ent3 m)) c).arrAt w cfg3.N) 3).symm

theorem hrest3 (c : Dev nD) :
    ∀ b, b ∉ Finset.univ.image (Pipeline.arrRef spec3) → rd (V6 m (outs m)) c b = rd (ent3 m) c b := by
  intro b hb
  refine V6_of m (outs m) c b ?_
  intro h
  simp only [List.mem_cons, List.mem_singleton, List.not_mem_nil, or_false] at h
  subst h
  exact hb (Finset.mem_image.mpr ⟨3, Finset.mem_univ _, rfl⟩)

def reg3 : Pipeline.RegionSeg (pcfgs (F := F)) adm (pdats m) () defs₀ Variants.none L0 lv0 p3 :=
  regOf m p3 launch3 (ent3 m) (V6 m (outs m)) (body_obligation3 _) (hin3 _) (hout3 _) (hF3 m) (hrest3 m)

end Cert.KernelIdeal.Hand

end
-- ==== Proof.KI.Seg4.lean ====
import proofs.«164122_j44229573214371_1_alg».proof.Proof.KI.Stages

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

theorem hF4 (c : Dev nD) (w : Fin cfg4.W) :
    (pdats m p4 c).arrAt w cfg4.N = rd (V7 m (outs m)) c (Pipeline.arrRef spec4 w) := by
  match w with
  | ⟨0, _⟩ =>
    exact ((dat4 (rd (ent4 m)) c).arrAt_in 0 rfl _).trans (V7_of m (outs m) c main_arg3 (by decide)).symm
  | ⟨1, _⟩ =>
    show _ = V7 m (outs m) c main_v16_0
    simp only [V7]
    rw [Function.update_of_ne (StableHlo.devRef_ne_of_ne (by decide) : (Proc.devRef .tc main_v16_0 : DevRef τ sig) ≠ Proc.devRef .tc main_v16_1),
      Function.update_self]
    show (dat4 (rd (ent4 m)) c).arrAt 1 cfg4.N = Y7 m c main_v16_0
    unfold Y7
    exact (Pipeline.withArrays_arr spec4 launch4.win.arr_inj c (ent4 m c)
      (fun w => (dat4 (rd (ent4 m)) c).arrAt w cfg4.N) 1).symm
  | ⟨2, _⟩ =>
    show _ = V7 m (outs m) c main_v16_1
    simp only [V7, Function.update_self]
    show (dat4 (rd (ent4 m)) c).arrAt 2 cfg4.N = Y7 m c main_v16_1
    unfold Y7
    exact (Pipeline.withArrays_arr spec4 launch4.win.arr_inj c (ent4 m c)
      (fun w => (dat4 (rd (ent4 m)) c).arrAt w cfg4.N) 2).symm

theorem hrest4 (c : Dev nD) :
    ∀ b, b ∉ Finset.univ.image (Pipeline.arrRef spec4) → rd (V7 m (outs m)) c b = rd (ent4 m) c b := by
  intro b hb
  refine V7_of m (outs m) c b ?_
  intro h
  simp only [List.mem_cons, List.mem_singleton, List.not_mem_nil, or_false] at h
  rcases h with rfl | rfl
  · exact hb (Finset.mem_image.mpr ⟨1, Finset.mem_univ _, rfl⟩)
  · exact hb (Finset.mem_image.mpr ⟨2, Finset.mem_univ _, rfl⟩)

def reg4 : Pipeline.RegionSeg (pcfgs (F := F)) adm (pdats m) () defs₀ Variants.none L0 lv0 p4 :=
  regOf m p4 launch4 (ent4 m) (V7 m (outs m)) (body_obligation4 _) (hin4 _) (hout4 _) (hF4 m) (hrest4 m)

end Cert.KernelIdeal.Hand

end
-- ==== Proof.KI.Seg5.lean ====
import proofs.«164122_j44229573214371_1_alg».proof.Proof.KI.Stages

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

theorem hF5 (c : Dev nD) (w : Fin cfg5.W) :
    (pdats m p5 c).arrAt w cfg5.N = rd (V9 m (outs m)) c (Pipeline.arrRef spec5 w) := by
  match w with
  | ⟨0, _⟩ =>
    exact ((dat5 (rd (ent5 m)) c).arrAt_in 0 rfl _).trans (V9_of m (outs m) c main_arg3 (by decide)).symm
  | ⟨1, _⟩ =>
    exact ((dat5 (rd (ent5 m)) c).arrAt_in 1 rfl _).trans (V9_of m (outs m) c main_v23 (by decide)).symm
  | ⟨2, _⟩ =>
    exact ((dat5 (rd (ent5 m)) c).arrAt_in 2 rfl _).trans (V9_of m (outs m) c main_v17 (by decide)).symm
  | ⟨3, _⟩ =>
    show _ = V9 m (outs m) c main_v24
    simp only [V9, Function.update_self]
    show (dat5 (rd (ent5 m)) c).arrAt 3 cfg5.N = Y9 m c main_v24
    unfold Y9
    exact (Pipeline.withArrays_arr spec5 launch5.win.arr_inj c (ent5 m c)
      (fun w => (dat5 (rd (ent5 m)) c).arrAt w cfg5.N) 3).symm

theorem hrest5 (c : Dev nD) :
    ∀ b, b ∉ Finset.univ.image (Pipeline.arrRef spec5) → rd (V9 m (outs m)) c b = rd (ent5 m) c b := by
  intro b hb
  refine V9_of m (outs m) c b ?_
  intro h
  simp only [List.mem_cons, List.mem_singleton, List.not_mem_nil, or_false] at h
  subst h
  exact hb (Finset.mem_image.mpr ⟨3, Finset.mem_univ _, rfl⟩)

def reg5 : Pipeline.RegionSeg (pcfgs (F := F)) adm (pdats m) () defs₀ Variants.none L0 lv0 p5 :=
  regOf m p5 launch5 (ent5 m) (V9 m (outs m)) (body_obligation5 _) (hin5 _) (hout5 _) (hF5 m) (hrest5 m)

end Cert.KernelIdeal.Hand

end
-- ==== Proof.KI.Run.lean ====
import proofs.«164122_j44229573214371_1_alg».proof.Proof.KI.Seg0
import proofs.«164122_j44229573214371_1_alg».proof.Proof.KI.Seg1
import proofs.«164122_j44229573214371_1_alg».proof.Proof.KI.Seg2
import proofs.«164122_j44229573214371_1_alg».proof.Proof.KI.Seg3
import proofs.«164122_j44229573214371_1_alg».proof.Proof.KI.Seg4
import proofs.«164122_j44229573214371_1_alg».proof.Proof.KI.Seg5

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev restAt : Fin 7 → Dev nD → sProp 𝕄 := fun _ c => rest c

abbrev items (c : Dev nD) : List (Seg (pcfgs (F := F)) adm (pdats m) () defs₀ Variants.none L0 lv0) :=
  segs m (outs m) Variants.none L0 lv0 restAt () (pdats m) (reg0 m) (reg1 m) (reg2 m) (reg3 m) (reg4 m) (reg5 m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = V14 m (outs m) c b) := by
  refine Pipeline.θ_run_regions_kit_dev (pcfgs (F := F)) adm (pdats m) () cellOf_inj emb₁ defs₀ Variants.none L0 lv0 m ρ main
    (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V14 m (outs m) c b)
    (hfin := fun c s' => ?_) (hQ := fun _ h => h)
  unfold StableHlo.held
  iintro ⟨Hh, HSI⟩
  ihave Hr := (pointsTo_read_all (Pipeline.ucRefs τ sig) (fun b => ((c : Thread nD τ).1, b)) (V14 m (outs m) c) s') $$ [Hh HSI]
  · isplitl [Hh] <;> iassumption
  icases Hr with ⟨%h, HSI⟩
  imodintro
  isplitr
  · ipureintro; exact h
  · iexact HSI

-- The last valuation agrees with the first at every argument.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V14_main_arg0 m (outs m) c),
     (h c _ (mem_uc main_arg1 (by decide))).trans (V14_main_arg1 m (outs m) c),
     (h c _ (mem_uc main_arg2 (by decide))).trans (V14_main_arg2 m (outs m) c),
     (h c _ (mem_uc main_arg3 (by decide))).trans (V14_main_arg3 m (outs m) c),
     (h c _ (mem_uc main_arg4 (by decide))).trans (V14_main_arg4 m (outs m) c),
     (h c _ (mem_uc main_arg5 (by decide))).trans (V14_main_arg5 m (outs m) c),
     (h c _ (mem_uc main_arg6 (by decide))).trans (V14_main_arg6 m (outs m) c),
     (h c _ (mem_uc main_arg7 (by decide))).trans (V14_main_arg7 m (outs m) c),
     (h c _ (mem_uc main_arg8 (by decide))).trans (V14_main_arg8 m (outs m) c),
     (h c _ (mem_uc main_arg9 (by decide))).trans (V14_main_arg9 m (outs m) c),
     (h c _ (mem_uc main_arg10 (by decide))).trans (V14_main_arg10 m (outs m) c)⟩) (run_all m ρ)

end Cert.KernelIdeal.Hand

end
-- ==== Proof.Tail.lean ====
import proofs.«164122_j44229573214371_1_alg».proof.Proof.Gen.KernelIdeal

noncomputable section

namespace Cert.KernelIdeal.Hand

open Cert.KernelIdeal Cert.KernelIdeal.Gen Idealize.ShloMosaic Idealize.ShloMosaic.TcCoe Idealize.ShloMosaic.StableHlo

-- The closing attention fusion of two embedding arrays as one function of them; both programs end with it.
section Tail

variable {F : FTy → Type} [FloatOps F]

def tailWeights (c1 c2 xc : FVec F S8192x32 .f32) (wl : FVec F S64x32 .f32) (av : FVec F S32x1 .f32) :
    FVec F S8192x2 .f32 :=

  let v25 : FVec F S8192x64 .f32 := concatenate S8192x64 1 [⟨S8192x32, c1⟩, ⟨S8192x32, xc⟩] concatenates_S8192x32_S8192x32_S8192x64_d1
  let v26 : FVec F S8192x32 .f32 := Host.dotGeneral (F := F) dot_S8192x64_S64x32_S8192x32_1_0_0_1_n_n none v25 wl
  let v27 : FVec F S8192x32 .f32 := maximumf v26 (broadcastInDim S8192x32 ![] bcast_S_S8192x32 (constant (F := F) S_ .f32 0x00000000#32))
  let v28 : FVec F S8192x1 .f32 := Host.dotGeneral (F := F) dot_S8192x32_S32x1_S8192x1_1_0_0_1_n_n none v27 av

  let v29 : FVec F S8192x64 .f32 := concatenate S8192x64 1 [⟨S8192x32, c2⟩, ⟨S8192x32, xc⟩] concatenates_S8192x32_S8192x32_S8192x64_d1
  let v30 : FVec F S8192x32 .f32 := Host.dotGeneral (F := F) dot_S8192x64_S64x32_S8192x32_1_0_0_1_n_n none v29 wl
  let v31 : FVec F S8192x32 .f32 := maximumf v30 (broadcastInDim S8192x32 ![] bcast_S_S8192x32 (constant (F := F) S_ .f32 0x00000000#32))
  let v32 : FVec F S8192x1 .f32 := Host.dotGeneral (F := F) dot_S8192x32_S32x1_S8192x1_1_0_0_1_n_n none v31 av

  let v33 : FVec F S8192x2 .f32 := concatenate S8192x2 1 [⟨S8192x1, v28⟩, ⟨S8192x1, v32⟩] concatenates_S8192x1_S8192x1_S8192x2_d1
  let v34 : FVec F S8192 .f32 := Host.reduce FloatOps.maximumf v33 (constant (F := F) S_ .f32 0xFF800000#32) reducesTo_S8192x2_S8192_d1 h_S_
  let v35 : FVec F S8192 .f32 := broadcastInDim S8192 ![] bcast_S_S8192 (constant (F := F) S_ .f32 0xFF800000#32)
  let v36 : FVec F S8192 .f32 := maximumf v35 v34
  let v37 : FVec F S8192x1 .f32 := broadcastInDim S8192x1 ![0] bcast_S8192_S8192x1_0 v36
  let v38 : FVec F S8192x2 .f32 := broadcastInDim S8192x2 ![0, 1] bcast_S8192x1_S8192x2_0_1 v37

  let v39 : FVec F S8192x2 .f32 := subf v33 v38
  let v40 : FVec F S8192x2 .f32 := Host.exp (F := F) v39
  let v41 : FVec F S8192 .f32 := Host.reduceAdd (F := F) v40 (constant (F := F) S_ .f32 0x00000000#32) reducesTo_S8192x2_S8192_d1 h_S_
  let v42 : FVec F S8192x1 .f32 := broadcastInDim S8192x1 ![0] bcast_S8192_S8192x1_0 v41
  let v43 : FVec F S8192x2 .f32 := broadcastInDim S8192x2 ![0, 1] bcast_S8192x1_S8192x2_0_1 v42
  Host.divf (F := F) v40 v43

def tailYc (c1 c2 xc : FVec F S8192x32 .f32) (wl : FVec F S64x32 .f32) (av : FVec F S32x1 .f32) :
    FVec F S8192x32 .f32 :=
  mulf
    (broadcastInDim S8192x32 ![0, 1] bcast_S8192x1_S8192x32_0_1
      (extractStridedSlice S8192x1 ![0, 0] (tailWeights c1 c2 xc wl av) slices_S8192x2_S8192x1_0_0))
    c1

def tailYu (c1 c2 xc : FVec F S8192x32 .f32) (wl : FVec F S64x32 .f32) (av : FVec F S32x1 .f32) :
    FVec F S8192x32 .f32 :=
  mulf
    (broadcastInDim S8192x32 ![0, 1] bcast_S8192x1_S8192x32_0_1
      (extractStridedSlice S8192x1 ![0, 1] (tailWeights c1 c2 xc wl av) slices_S8192x2_S8192x1_0_1))
    c2

def tailSum (c1 c2 xc : FVec F S8192x32 .f32) (wl : FVec F S64x32 .f32) (av : FVec F S32x1 .f32) :
    FVec F S8192x32 .f32 :=
  addf (tailYc c1 c2 xc wl av) (tailYu c1 c2 xc wl av)

end Tail

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr (a b : Nat) : Type := FVec Ideal (⟨2, ![a, b]⟩ : Shape) .f32

def rowSumAt (A : Arr 8192 8192) (i : Fin 8192) : EReal := ∑ k : Fin 8192, A (ix2 i k)

def colSumAt (A : Arr 8192 8192) (j : Fin 8192) : EReal := ∑ k : Fin 8192, A (ix2 k j)

def scaledProductAt (A : Arr 8192 8192) (S : Arr 8192 32) (r : Arr 8192 1) (i : Fin 8192) (d : Fin 32) : EReal :=
  (∑ k : Fin 8192, A (ix2 i k) * S (ix2 k d)) * r (ix2 i (0 : Fin 1))

def rowSums (A : Arr 8192 8192) : Arr 8192 1 := fun j => rowSumAt A (j 0)

def colSums (A : Arr 8192 8192) : Arr 1 8192 := fun j => colSumAt A (j 1)

def scaledProduct (A : Arr 8192 8192) (S : Arr 8192 32) (r : Arr 8192 1) : Arr 8192 32 :=
  fun j => scaledProductAt A S r (j 0) (j 1)

theorem rowSums_apply (A : Arr 8192 8192) (i : Fin 8192) (z : Fin 1) : rowSums A (ix2 i z) = rowSumAt A i := rfl
theorem colSums_apply (A : Arr 8192 8192) (z : Fin 1) (j : Fin 8192) : colSums A (ix2 z j) = colSumAt A j := rfl
theorem scaledProduct_apply (A : Arr 8192 8192) (S : Arr 8192 32) (r : Arr 8192 1) (i : Fin 8192) (d : Fin 32) :
    scaledProduct A S r (ix2 i d) = scaledProductAt A S r i d := rfl

-- Eight tiles of 1024 columns make the whole sum: a sum over a commutative monoid may be regrouped.
section Tiles

variable {M : Type} [AddCommMonoid M]

def tileSum (f : Fin 8192 → M) (a : ℕ) : M :=
  if h : a < 8 then ∑ q : Fin 1024, f ⟨1024 * a + q.val, by omega⟩ else 0

theorem tileSum_of_lt (f : Fin 8192 → M) (a : ℕ) (h : a < 8) :
    tileSum f a = ∑ q : Fin 1024, f ⟨1024 * a + q.val, by omega⟩ := dif_pos h

theorem sum_tileSum (f : Fin 8192 → M) : ∑ a ∈ Finset.range 8, tileSum f a = ∑ j : Fin 8192, f j := by
  rw [← Fin.sum_univ_eq_sum_range (fun a => tileSum f a) 8]
  rw [← Equiv.sum_comp (finProdFinEquiv (m := 8) (n := 1024)) f, Fintype.sum_prod_type]
  refine Finset.sum_congr rfl fun a _ => ?_
  rw [tileSum_of_lt f a.val a.isLt]
  refine Finset.sum_congr rfl fun q _ => ?_
  refine congrArg f (Fin.ext ?_)
  show 1024 * a.val + q.val = q.val + 1024 * a.val
  omega

end Tiles

end Cert.Spec

end
-- ==== Proof.Model.lean ====
import proofs.«164122_j44229573214371_1_alg».proof.Proof.Spec

noncomputable section

open scoped BigOperators

namespace Cert.Model

open Idealize.ShloMosaic Idealize.ShloMosaic.ValueIdx Cert.Spec

abbrev one : EReal := Ideal.ofBits .f32 0x3F800000#32

def projAt (X : Arr 8192 32) (W : Arr 32 32) (i : Fin 8192) (d : Fin 32) : EReal :=
  ∑ k : Fin 32, X (ix2 i k) * W (ix2 k d)

def proj (X : Arr 8192 32) (W : Arr 32 32) : Arr 8192 32 := fun j => projAt X W (j 0) (j 1)

def selfScaleAt (A : Arr 8192 8192) (i : Fin 8192) : EReal := Ideal.rsqrt (one + rowSumAt A i)

def rowScaleAt (A : Arr 8192 8192) (i : Fin 8192) : EReal := Ideal.rsqrt (rowSumAt A i)

def colScaleAt (A : Arr 8192 8192) (j : Fin 8192) : EReal := Ideal.rsqrt (colSumAt A j)

def col (f : Fin 8192 → EReal) : Arr 8192 1 := fun j => f (j 0)

def scaleRows (f : Fin 8192 → EReal) (S : Arr 8192 32) : Arr 8192 32 := fun j => f (j 0) * S j

def gcnS (A : Arr 8192 8192) (X : Arr 8192 32) (W : Arr 32 32) : Arr 8192 32 :=
  scaledProduct A (scaleRows (selfScaleAt A) (proj X W)) (col (selfScaleAt A))

def gcnC (A : Arr 8192 8192) (X : Arr 8192 32) (P W : Arr 32 32) : Arr 8192 32 :=
  scaledProduct A (scaleRows (colScaleAt A) (proj (proj X P) W)) (col (rowScaleAt A))

theorem col_apply (f : Fin 8192 → EReal) (i : Fin 8192) (z : Fin 1) : col f (ix2 i z) = f i := rfl
theorem scaleRows_apply (f : Fin 8192 → EReal) (S : Arr 8192 32) (i : Fin 8192) (d : Fin 32) :
    scaleRows f S (ix2 i d) = f i * S (ix2 i d) := rfl
theorem proj_apply (X : Arr 8192 32) (W : Arr 32 32) (i : Fin 8192) (d : Fin 32) : proj X W (ix2 i d) = projAt X W i d := rfl

end Cert.Model

end
-- ==== Proof.KI.HostValue.lean ====
import proofs.«164122_j44229573214371_1_alg».proof.Proof.Gen.KernelIdeal.Regions
import proofs.«164122_j44229573214371_1_alg».proof.Proof.Tail
import proofs.«164122_j44229573214371_1_alg».proof.Proof.Spec
import proofs.«164122_j44229573214371_1_alg».proof.Proof.Model
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

section Pure

open Cert.Spec Cert.Model

theorem selfScale_col (A : Arr 8192 8192) :
    (Host.rsqrt (F := Ideal)
        (addf (broadcastInDim S8192x1 ![] bcast_S_S8192x1 (constant (F := Ideal) S_ .f32 0x3F800000#32)) (rowSums A))
      : FVec Ideal S8192x1 .f32)
      = col (selfScaleAt A) := by
  funext j
  obtain ⟨i, z, rfl⟩ : ∃ (i : Fin 8192) (z : Fin 1), j = ix2 i z := ⟨j 0, j 1, eq_ix2 j⟩
  rfl

theorem rowScale_col (A : Arr 8192 8192) :
    (Host.rsqrt (F := Ideal) (rowSums A) : FVec Ideal S8192x1 .f32) = col (rowScaleAt A) := by
  funext j
  obtain ⟨i, z, rfl⟩ : ∃ (i : Fin 8192) (z : Fin 1), j = ix2 i z := ⟨j 0, j 1, eq_ix2 j⟩
  rfl

end Pure

section Pure2

open Cert.Spec Cert.Model

theorem projDims_left_row (j : S8192x32.Idx) (q : dot_S8192x32_S32x32_S8192x32_1_0_0_1_n_n.contr.Idx) :
    (dot_S8192x32_S32x32_S8192x32_1_0_0_1_n_n.lhsIdx j q 0).val = (j 0).val := by
  unfold DotDims.lhsIdx
  rw [dif_neg (show ¬(0 : Fin S8192x32.rank) ∈ dot_S8192x32_S32x32_S8192x32_1_0_0_1_n_n.lhsBatch by decide),
    dif_pos (show (0 : Fin S8192x32.rank) ∈ dot_S8192x32_S32x32_S8192x32_1_0_0_1_n_n.lhsNonContracting by decide)]
  rfl

theorem projDims_left_col (j : S8192x32.Idx) (q : dot_S8192x32_S32x32_S8192x32_1_0_0_1_n_n.contr.Idx) :
    (dot_S8192x32_S32x32_S8192x32_1_0_0_1_n_n.lhsIdx j q 1).val = (q ⟨0, by decide⟩).val :=
  dot_S8192x32_S32x32_S8192x32_1_0_0_1_n_n.lhsIdx_val_of_single rfl j q

theorem projDims_right_row (j : S8192x32.Idx) (q : dot_S8192x32_S32x32_S8192x32_1_0_0_1_n_n.contr.Idx) :
    (dot_S8192x32_S32x32_S8192x32_1_0_0_1_n_n.rhsIdx j q 0).val = (q ⟨0, by decide⟩).val :=
  dot_S8192x32_S32x32_S8192x32_1_0_0_1_n_n.rhsIdx_val_of_single rfl j q

theorem projDims_right_col (j : S8192x32.Idx) (q : dot_S8192x32_S32x32_S8192x32_1_0_0_1_n_n.contr.Idx) :
    (dot_S8192x32_S32x32_S8192x32_1_0_0_1_n_n.rhsIdx j q 1).val = (j 1).val := by
  unfold DotDims.rhsIdx
  rw [dif_neg (show ¬(1 : Fin S32x32.rank) ∈ dot_S8192x32_S32x32_S8192x32_1_0_0_1_n_n.rhsBatch by decide),
    dif_pos (show (1 : Fin S32x32.rank) ∈ dot_S8192x32_S32x32_S8192x32_1_0_0_1_n_n.rhsNonContracting by decide)]
  rfl

theorem proj_eq (X : Arr 8192 32) (W : Arr 32 32) :
    (Host.dotGeneral (F := Ideal) dot_S8192x32_S32x32_S8192x32_1_0_0_1_n_n none X W : FVec Ideal S8192x32 .f32)
      = proj X W := by
  funext j
  obtain ⟨i, d, rfl⟩ : ∃ (i : Fin 8192) (d : Fin 32), j = ix2 i d := ⟨j 0, j 1, eq_ix2 j⟩
  rw [proj_apply]
  unfold projAt
  show FloatOps.dotGeneral dot_S8192x32_S32x32_S8192x32_1_0_0_1_n_n none .single X W (ix2 i d) = _
  rw [Ideal.dotGeneral_apply,
    ← Equiv.sum_comp (contrEquiv1 dot_S8192x32_S32x32_S8192x32_1_0_0_1_n_n 32 rfl rfl).symm]
  refine Finset.sum_congr rfl fun k _ => ?_
  have hk := contrEquiv1_symm_val dot_S8192x32_S32x32_S8192x32_1_0_0_1_n_n 32 rfl rfl k

  have eX : dot_S8192x32_S32x32_S8192x32_1_0_0_1_n_n.lhsIdx (ix2 i d)
      ((contrEquiv1 dot_S8192x32_S32x32_S8192x32_1_0_0_1_n_n 32 rfl rfl).symm k) = ix2 i k :=
    funext fun a => Fin.ext (by
      match a with
      | ⟨0, _⟩ => exact projDims_left_row _ _
      | ⟨1, _⟩ => exact (projDims_left_col _ _).trans hk)
  have eW : dot_S8192x32_S32x32_S8192x32_1_0_0_1_n_n.rhsIdx (ix2 i d)
      ((contrEquiv1 dot_S8192x32_S32x32_S8192x32_1_0_0_1_n_n 32 rfl rfl).symm k) = ix2 k d :=
    funext fun a => Fin.ext (by
      match a with
      | ⟨0, _⟩ => exact (projDims_right_row _ _).trans hk
      | ⟨1, _⟩ => exact projDims_right_col _ _)
  rw [eX, eW]

theorem scaleRows_eq (f : Fin 8192 → EReal) (M : Arr 8192 32) :
    (mulf (F := Ideal) (broadcastInDim S8192x32 ![0, 1] bcast_S8192x1_S8192x32_0_1 (col f)) M : FVec Ideal S8192x32 .f32)
      = scaleRows f M := by
  funext j
  obtain ⟨i, d, rfl⟩ : ∃ (i : Fin 8192) (d : Fin 32), j = ix2 i d := ⟨j 0, j 1, eq_ix2 j⟩
  rw [scaleRows_apply, mulf_apply]
  refine congrArg (· * M (ix2 i d)) ?_
  refine (broadcastInDim_apply _ bcast_S8192x1_S8192x32_0_1 (col f) (ix2 i d) (ix2 i (0 : Fin 1)) (fun a => ?_)).trans (col_apply f i 0)
  match a with
  | ⟨0, _⟩ => show i.val = if (8192 : Nat) = 1 then 0 else i.val; rw [if_neg (by decide)]
  | ⟨1, _⟩ => show (0 : Nat) = if (1 : Nat) = 1 then 0 else d.val; rw [if_pos rfl]

theorem colScale_col (A : Arr 8192 8192) :
    (shapeCast S8192x1 (Host.rsqrt (F := Ideal) (colSums A) : FVec Ideal S1x8192 .f32) shapeCasts_S1x8192_S8192x1
        : FVec Ideal S8192x1 .f32)
      = col (colScaleAt A) := by
  funext j
  obtain ⟨i, z, rfl⟩ : ∃ (i : Fin 8192) (z : Fin 1), j = ix2 i z := ⟨j 0, j 1, eq_ix2 j⟩
  refine (shapeCast_apply _ shapeCasts_S1x8192_S8192x1 (ix2 i z) (ix2 (0 : Fin 1) i) ?_).trans ?_
  · rw [Shape.rowMajor_val_two, Shape.rowMajor_val_two]
    show 0 * 8192 + i.val = i.val * 1 + z.val
    omega
  · rfl

end Pure2

section Stretches

variable {F : FTy → Type} [FloatOps F]

theorem stretch1_scale (W : Valuation τ sig (Elt F)) :
    StableHlo.after hostOps1 W (Proc.devRef .tc main_v3)
      = Host.rsqrt (F := F) (addf (broadcastInDim S8192x1 ![] bcast_S_S8192x1 (constant (F := F) S_ .f32 0x3F800000#32)) (W main_v0)) := by
  after_results <;> rfl

theorem stretch1_support (W : Valuation τ sig (Elt F)) :
    StableHlo.after hostOps1 W (Proc.devRef .tc main_v6)
      = mulf (F := F)
          (broadcastInDim S8192x32 ![0, 1] bcast_S8192x1_S8192x32_0_1
            (Host.rsqrt (F := F) (addf (broadcastInDim S8192x1 ![] bcast_S_S8192x1 (constant (F := F) S_ .f32 0x3F800000#32)) (W main_v0))))
          (Host.dotGeneral (F := F) dot_S8192x32_S32x32_S8192x32_1_0_0_1_n_n none (W main_arg0) (W main_arg5)) := by
  after_results <;> rfl

theorem stretch3_scale (W : Valuation τ sig (Elt F)) :
    StableHlo.after hostOps3 W (Proc.devRef .tc main_v11)
      = Host.rsqrt (F := F) (addf (broadcastInDim S8192x1 ![] bcast_S_S8192x1 (constant (F := F) S_ .f32 0x3F800000#32)) (W main_v8)) := by
  after_results <;> rfl

theorem stretch3_support (W : Valuation τ sig (Elt F)) :
    StableHlo.after hostOps3 W (Proc.devRef .tc main_v14)
      = mulf (F := F)
          (broadcastInDim S8192x32 ![0, 1] bcast_S8192x1_S8192x32_0_1
            (Host.rsqrt (F := F) (addf (broadcastInDim S8192x1 ![] bcast_S_S8192x1 (constant (F := F) S_ .f32 0x3F800000#32)) (W main_v8))))
          (Host.dotGeneral (F := F) dot_S8192x32_S32x32_S8192x32_1_0_0_1_n_n none (W main_arg1) (W main_arg5)) := by
  after_results <;> rfl

theorem stretch5_scale (W : Valuation τ sig (Elt F)) :
    StableHlo.after hostOps5 W (Proc.devRef .tc main_v17) = Host.rsqrt (F := F) (W main_v16_0) := by
  after_results <;> rfl

theorem stretch5_support (W : Valuation τ sig (Elt F)) :
    StableHlo.after hostOps5 W (Proc.devRef .tc main_v23)
      = mulf (F := F)
          (broadcastInDim S8192x32 ![0, 1] bcast_S8192x1_S8192x32_0_1
            (shapeCast S8192x1 (Host.rsqrt (F := F) (W main_v16_1)) shapeCasts_S1x8192_S8192x1))
          (Host.dotGeneral (F := F) dot_S8192x32_S32x32_S8192x32_1_0_0_1_n_n none
            (Host.dotGeneral (F := F) dot_S8192x32_S32x32_S8192x32_1_0_0_1_n_n none (W main_arg0) (W main_arg6)) (W main_arg8)) := by
  after_results <;> rfl

end Stretches

section TailRun

variable {F : FTy → Type} [FloatOps F]

theorem tailRun_yc (W : Valuation τ sig (Elt F)) :
    StableHlo.after hostOps6_4 (StableHlo.after hostOps6_3 (StableHlo.after hostOps6_2 (StableHlo.after hostOps6_1
        (StableHlo.after hostOps6 W)))) (Proc.devRef .tc main_v47)
      = tailYc (F := F) (W main_v15) (W main_v24) (W main_arg1) (W main_arg9) (W main_arg10) := by
  after_results_simp <;> rfl

theorem tailRun_yu (W : Valuation τ sig (Elt F)) :
    StableHlo.after hostOps6_4 (StableHlo.after hostOps6_3 (StableHlo.after hostOps6_2 (StableHlo.after hostOps6_1
        (StableHlo.after hostOps6 W)))) (Proc.devRef .tc main_v50)
      = tailYu (F := F) (W main_v15) (W main_v24) (W main_arg1) (W main_arg9) (W main_arg10) := by
  after_results_simp <;> rfl

theorem tailRun_sum (W : Valuation τ sig (Elt F)) :
    StableHlo.after hostOps6_4 (StableHlo.after hostOps6_3 (StableHlo.after hostOps6_2 (StableHlo.after hostOps6_1
        (StableHlo.after hostOps6 W)))) (Proc.devRef .tc main_v51)
      = tailSum (F := F) (W main_v15) (W main_v24) (W main_arg1) (W main_arg9) (W main_arg10) := by
  after_results_simp <;> rfl

end TailRun

section Chain

open Cert.Spec Cert.Model

variable (m : (ℓ : Loc nD τ sig) → Buf (Elt Ideal) ℓ) (outs : Gen.Outs (F := Ideal)) (c : Dev nD)

abbrev argRefs : List (Ref sig .tc) :=
  [main_arg0, main_arg1, main_arg2, main_arg3, main_arg4, main_arg5, main_arg6, main_arg7, main_arg8, main_arg9, main_arg10]

theorem V1_arg (r : Ref sig .tc) (hr : r ∈ argRefs) : V1 m outs c r = m ((c : Thread nD τ).loc r) :=
  (V1_of m outs c r (by revert r; decide)).trans rfl
theorem V2_arg (r : Ref sig .tc) (hr : r ∈ argRefs) : V2 m outs c r = m ((c : Thread nD τ).loc r) :=
  (V2_of m outs c r (by revert r; decide)).trans (V1_arg m outs c r hr)
theorem V3_arg (r : Ref sig .tc) (hr : r ∈ argRefs) : V3 m outs c r = m ((c : Thread nD τ).loc r) :=
  (V3_of m outs c r (by revert r; decide)).trans (V2_arg m outs c r hr)
theorem V4_arg (r : Ref sig .tc) (hr : r ∈ argRefs) : V4 m outs c r = m ((c : Thread nD τ).loc r) :=
  (V4_of m outs c r (by revert r; decide)).trans (V3_arg m outs c r hr)
theorem V5_arg (r : Ref sig .tc) (hr : r ∈ argRefs) : V5 m outs c r = m ((c : Thread nD τ).loc r) :=
  (V5_of m outs c r (by revert r; decide)).trans (V4_arg m outs c r hr)
theorem V6_arg (r : Ref sig .tc) (hr : r ∈ argRefs) : V6 m outs c r = m ((c : Thread nD τ).loc r) :=
  (V6_of m outs c r (by revert r; decide)).trans (V5_arg m outs c r hr)
theorem V7_arg (r : Ref sig .tc) (hr : r ∈ argRefs) : V7 m outs c r = m ((c : Thread nD τ).loc r) :=
  (V7_of m outs c r (by revert r; decide)).trans (V6_arg m outs c r hr)
theorem V8_arg (r : Ref sig .tc) (hr : r ∈ argRefs) : V8 m outs c r = m ((c : Thread nD τ).loc r) :=
  (V8_of m outs c r (by revert r; decide)).trans (V7_arg m outs c r hr)
theorem V9_arg (r : Ref sig .tc) (hr : r ∈ argRefs) : V9 m outs c r = m ((c : Thread nD τ).loc r) :=
  (V9_of m outs c r (by revert r; decide)).trans (V8_arg m outs c r hr)

theorem V2_scale (h0 : outs 1 main_v0 c = rowSums (V0 m c main_arg2)) :
    V2 m outs c main_v3 = col (selfScaleAt (m ((c : Thread nD τ).loc main_arg2))) := by
  refine (stretch1_scale (V1 m outs c)).trans ?_
  rw [show V1 m outs c main_v0 = outs 1 main_v0 c from Function.update_self .., h0]
  exact selfScale_col _

theorem V2_support (h0 : outs 1 main_v0 c = rowSums (V0 m c main_arg2)) :
    V2 m outs c main_v6
      = scaleRows (selfScaleAt (m ((c : Thread nD τ).loc main_arg2)))
          (proj (m ((c : Thread nD τ).loc main_arg0)) (m ((c : Thread nD τ).loc main_arg5))) := by
  refine (stretch1_support (V1 m outs c)).trans ?_
  rw [show V1 m outs c main_v0 = outs 1 main_v0 c from Function.update_self .., h0,
    V1_arg m outs c main_arg0 (by decide), V1_arg m outs c main_arg5 (by decide), selfScale_col, proj_eq]
  exact scaleRows_eq _ _

theorem V3_embed (h0 : outs 1 main_v0 c = rowSums (V0 m c main_arg2))
    (h1 : outs 3 main_v7 c = scaledProduct (V2 m outs c main_arg2) (V2 m outs c main_v6) (V2 m outs c main_v3)) :
    V3 m outs c main_v7
      = gcnS (m ((c : Thread nD τ).loc main_arg2)) (m ((c : Thread nD τ).loc main_arg0)) (m ((c : Thread nD τ).loc main_arg5)) := by
  rw [show V3 m outs c main_v7 = outs 3 main_v7 c from Function.update_self .., h1,
    V2_arg m outs c main_arg2 (by decide), V2_support m outs c h0, V2_scale m outs c h0]
  rfl

theorem V5_scale (h2 : outs 4 main_v8 c = rowSums (V3 m outs c main_arg4)) :
    V5 m outs c main_v11 = col (selfScaleAt (m ((c : Thread nD τ).loc main_arg4))) := by
  refine (stretch3_scale (V4 m outs c)).trans ?_
  rw [show V4 m outs c main_v8 = outs 4 main_v8 c from Function.update_self .., h2,
    V3_arg m outs c main_arg4 (by decide)]
  exact selfScale_col _

theorem V5_support (h2 : outs 4 main_v8 c = rowSums (V3 m outs c main_arg4)) :
    V5 m outs c main_v14
      = scaleRows (selfScaleAt (m ((c : Thread nD τ).loc main_arg4)))
          (proj (m ((c : Thread nD τ).loc main_arg1)) (m ((c : Thread nD τ).loc main_arg5))) := by
  refine (stretch3_support (V4 m outs c)).trans ?_
  rw [show V4 m outs c main_v8 = outs 4 main_v8 c from Function.update_self .., h2,
    V3_arg m outs c main_arg4 (by decide), V4_arg m outs c main_arg1 (by decide),
    V4_arg m outs c main_arg5 (by decide), selfScale_col, proj_eq]
  exact scaleRows_eq _ _

theorem V6_embed (h2 : outs 4 main_v8 c = rowSums (V3 m outs c main_arg4))
    (h3 : outs 6 main_v15 c = scaledProduct (V5 m outs c main_arg4) (V5 m outs c main_v14) (V5 m outs c main_v11)) :
    V6 m outs c main_v15
      = gcnS (m ((c : Thread nD τ).loc main_arg4)) (m ((c : Thread nD τ).loc main_arg1)) (m ((c : Thread nD τ).loc main_arg5)) := by
  rw [show V6 m outs c main_v15 = outs 6 main_v15 c from Function.update_self .., h3,
    V5_arg m outs c main_arg4 (by decide), V5_support m outs c h2, V5_scale m outs c h2]
  rfl

theorem V7_rows : V7 m outs c main_v16_0 = outs 7 main_v16_0 c := by
  show Function.update (Function.update (V6 m outs c) (Proc.devRef .tc main_v16_0) (outs 7 main_v16_0 c))
    (Proc.devRef .tc main_v16_1) (outs 7 main_v16_1 c) (Proc.devRef .tc main_v16_0) = _
  rw [Function.update_of_ne (StableHlo.devRef_ne_of_ne (by decide)), Function.update_self]

theorem V7_cols : V7 m outs c main_v16_1 = outs 7 main_v16_1 c := Function.update_self ..

theorem V8_scale (h4r : outs 7 main_v16_0 c = rowSums (V6 m outs c main_arg3)) :
    V8 m outs c main_v17 = col (rowScaleAt (m ((c : Thread nD τ).loc main_arg3))) := by
  refine (stretch5_scale (V7 m outs c)).trans ?_
  rw [V7_rows m outs c, h4r, V6_arg m outs c main_arg3 (by decide)]
  exact rowScale_col _

theorem V8_support (h4c : outs 7 main_v16_1 c = colSums (V6 m outs c main_arg3)) :
    V8 m outs c main_v23
      = scaleRows (colScaleAt (m ((c : Thread nD τ).loc main_arg3)))
          (proj (proj (m ((c : Thread nD τ).loc main_arg0)) (m ((c : Thread nD τ).loc main_arg6)))
            (m ((c : Thread nD τ).loc main_arg8))) := by
  refine (stretch5_support (V7 m outs c)).trans ?_
  rw [V7_cols m outs c, h4c, V6_arg m outs c main_arg3 (by decide), V7_arg m outs c main_arg0 (by decide),
    V7_arg m outs c main_arg6 (by decide), V7_arg m outs c main_arg8 (by decide), colScale_col, proj_eq, proj_eq]
  exact scaleRows_eq _ _

theorem V9_embed (h4r : outs 7 main_v16_0 c = rowSums (V6 m outs c main_arg3))
    (h4c : outs 7 main_v16_1 c = colSums (V6 m outs c main_arg3))
    (h5 : outs 9 main_v24 c = scaledProduct (V8 m outs c main_arg3) (V8 m outs c main_v23) (V8 m outs c main_v17)) :
    V9 m outs c main_v24
      = gcnC (m ((c : Thread nD τ).loc main_arg3)) (m ((c : Thread nD τ).loc main_arg0))
          (m ((c : Thread nD τ).loc main_arg6)) (m ((c : Thread nD τ).loc main_arg8)) := by
  rw [show V9 m outs c main_v24 = outs 9 main_v24 c from Function.update_self .., h5,
    V8_arg m outs c main_arg3 (by decide), V8_support m outs c h4c, V8_scale m outs c h4r]
  rfl

theorem V9_first (h2 : outs 4 main_v8 c = rowSums (V3 m outs c main_arg4))
    (h3 : outs 6 main_v15 c = scaledProduct (V5 m outs c main_arg4) (V5 m outs c main_v14) (V5 m outs c main_v11)) :
    V9 m outs c main_v15
      = gcnS (m ((c : Thread nD τ).loc main_arg4)) (m ((c : Thread nD τ).loc main_arg1)) (m ((c : Thread nD τ).loc main_arg5)) :=
  (V9_of m outs c main_v15 (by decide)).trans <| (V8_of m outs c main_v15 (by decide)).trans <|
    (V7_of m outs c main_v15 (by decide)).trans (V6_embed m outs c h2 h3)

variable (h0 : outs 1 main_v0 c = rowSums (V0 m c main_arg2))
  (h1 : outs 3 main_v7 c = scaledProduct (V2 m outs c main_arg2) (V2 m outs c main_v6) (V2 m outs c main_v3))
  (h2 : outs 4 main_v8 c = rowSums (V3 m outs c main_arg4))
  (h3 : outs 6 main_v15 c = scaledProduct (V5 m outs c main_arg4) (V5 m outs c main_v14) (V5 m outs c main_v11))
  (h4r : outs 7 main_v16_0 c = rowSums (V6 m outs c main_arg3))
  (h4c : outs 7 main_v16_1 c = colSums (V6 m outs c main_arg3))
  (h5 : outs 9 main_v24 c = scaledProduct (V8 m outs c main_arg3) (V8 m outs c main_v23) (V8 m outs c main_v17))
include h0 h1 h2 h3 h4r h4c h5

theorem val_u :
    V14 m outs c main_v7
      = gcnS (m ((c : Thread nD τ).loc main_arg2)) (m ((c : Thread nD τ).loc main_arg0)) (m ((c : Thread nD τ).loc main_arg5)) :=
  (V14_of m outs c main_v7 (by decide)).trans <| (V13_of m outs c main_v7 (by decide)).trans <|
  (V12_of m outs c main_v7 (by decide)).trans <| (V11_of m outs c main_v7 (by decide)).trans <|
  (V10_of m outs c main_v7 (by decide)).trans <| (V9_of m outs c main_v7 (by decide)).trans <|
  (V8_of m outs c main_v7 (by decide)).trans <| (V7_of m outs c main_v7 (by decide)).trans <|
  (V6_of m outs c main_v7 (by decide)).trans <| (V5_of m outs c main_v7 (by decide)).trans <|
  (V4_of m outs c main_v7 (by decide)).trans (V3_embed m outs c h0 h1)

theorem val_yc :
    V14 m outs c main_v47
      = tailYc
          (gcnS (m ((c : Thread nD τ).loc main_arg4)) (m ((c : Thread nD τ).loc main_arg1)) (m ((c : Thread nD τ).loc main_arg5)))
          (gcnC (m ((c : Thread nD τ).loc main_arg3)) (m ((c : Thread nD τ).loc main_arg0))
            (m ((c : Thread nD τ).loc main_arg6)) (m ((c : Thread nD τ).loc main_arg8)))
          (m ((c : Thread nD τ).loc main_arg1)) (m ((c : Thread nD τ).loc main_arg9)) (m ((c : Thread nD τ).loc main_arg10)) := by
  refine (tailRun_yc (V9 m outs c)).trans ?_
  rw [V9_first m outs c h2 h3, V9_embed m outs c h4r h4c h5, V9_arg m outs c main_arg1 (by decide),
    V9_arg m outs c main_arg9 (by decide), V9_arg m outs c main_arg10 (by decide)]

theorem val_yu :
    V14 m outs c main_v50
      = tailYu
          (gcnS (m ((c : Thread nD τ).loc main_arg4)) (m ((c : Thread nD τ).loc main_arg1)) (m ((c : Thread nD τ).loc main_arg5)))
          (gcnC (m ((c : Thread nD τ).loc main_arg3)) (m ((c : Thread nD τ).loc main_arg0))
            (m ((c : Thread nD τ).loc main_arg6)) (m ((c : Thread nD τ).loc main_arg8)))
          (m ((c : Thread nD τ).loc main_arg1)) (m ((c : Thread nD τ).loc main_arg9)) (m ((c : Thread nD τ).loc main_arg10)) := by
  refine (tailRun_yu (V9 m outs c)).trans ?_
  rw [V9_first m outs c h2 h3, V9_embed m outs c h4r h4c h5, V9_arg m outs c main_arg1 (by decide),
    V9_arg m outs c main_arg9 (by decide), V9_arg m outs c main_arg10 (by decide)]

theorem val_sum :
    V14 m outs c main_v51
      = tailSum
          (gcnS (m ((c : Thread nD τ).loc main_arg4)) (m ((c : Thread nD τ).loc main_arg1)) (m ((c : Thread nD τ).loc main_arg5)))
          (gcnC (m ((c : Thread nD τ).loc main_arg3)) (m ((c : Thread nD τ).loc main_arg0))
            (m ((c : Thread nD τ).loc main_arg6)) (m ((c : Thread nD τ).loc main_arg8)))
          (m ((c : Thread nD τ).loc main_arg1)) (m ((c : Thread nD τ).loc main_arg9)) (m ((c : Thread nD τ).loc main_arg10)) := by
  refine (tailRun_sum (V9 m outs c)).trans ?_
  rw [V9_first m outs c h2 h3, V9_embed m outs c h4r h4c h5, V9_arg m outs c main_arg1 (by decide),
    V9_arg m outs c main_arg9 (by decide), V9_arg m outs c main_arg10 (by decide)]

end Chain

end Cert.KernelIdeal.Hand

end
-- ==== Proof.KI.R0Value.lean ====
import proofs.«164122_j44229573214371_1_alg».proof.Proof.KI.R0
import proofs.«164122_j44229573214371_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators
open Cert.Spec (tileSum tileSum_of_lt sum_tileSum)

section RowSums

theorem zero0_apply (j : S1024x1.Idx) : k0_pay1 (F := Ideal) j = (0 : EReal) := by
  unfold k0_pay1
  exact Ideal.ofBits_zero_f32

theorem sums0_apply (u : Vec Ideal S1024x1 .f32) (x : Vec Ideal S1024x1024 .f32) (r : Fin 1024) (z : Fin 1) :
    k0_pay2 (F := Ideal) u x (ix2 r z) = u (ix2 r z) + ∑ q : Fin 1024, x (ix2 r q) := by
  unfold k0_pay2
  refine (addf_apply _ _ _).trans ?_
  refine congrArg₂ (· + ·) (congrFun (shapeCast_self u _) _) ?_
  refine (shapeCast_apply _ _ (ix2 r z) (ix1 r) ?_).trans ?_
  · rw [Shape.rowMajor_val_one, Shape.rowMajor_val_two]
    show r.val = r.val * 1 + z.val
    have := z.isLt; omega
  refine (Ideal.multiReduction_add_single _ _ _ _ _ (ix1 r)).trans ?_
  exact Finset.sum_congr rfl fun k _ => congrArg x (Shape.idx_ext₂ rfl rfl)

variable {N : ℕ} (A : Cert.Spec.Arr 8192 8192)
  (blk : Fin N → Vec Ideal S1024x1024 .f32) (rs : (n : ℕ) → n < N → Vec Ideal S1024x1 .f32)
  (hblk : ∀ (t : Fin N) (r q : Fin 1024) (R Q : Fin 8192), R.val = 1024 * (t.val / 8) + r.val →
    Q.val = 1024 * (t.val % 8) + q.val → blk t (ix2 r q) = A (ix2 R Q))
  (hfirst : ∀ t : Fin N, t.val % 8 = 0 → rs t.val t.isLt = k0_pay2 (k0_pay1 (F := Ideal)) (blk t))
  (hstep : ∀ (n : ℕ) (h : n + 1 < N), ¬(n + 1) % 8 = 0 →
    rs (n + 1) h = k0_pay2 (rs n (Nat.lt_of_succ_lt h)) (blk ⟨n + 1, h⟩))

include hblk in
-- One step at point t = 8·i + k adds column tile k of row 1024·i + r.
theorem rs_add (t : Fin N) (u : Vec Ideal S1024x1 .f32) (r : Fin 1024) (z : Fin 1) (R : Fin 8192)
    (hR : R.val = 1024 * (t.val / 8) + r.val) :
    k0_pay2 (F := Ideal) u (blk t) (ix2 r z) = u (ix2 r z) + tileSum (fun j => A (ix2 R j)) (t.val % 8) := by
  refine (sums0_apply u (blk t) r z).trans (congrArg (u (ix2 r z) + ·) ?_)
  rw [tileSum_of_lt _ _ (Nat.mod_lt _ (by decide))]
  exact Finset.sum_congr rfl fun q _ => hblk t r q R _ hR rfl

include hblk hfirst hstep in
-- After point n = 8·i + k the running sums' entry r is row 1024·i + r summed over column tiles 0 … k.
theorem rs_apply (r : Fin 1024) (z : Fin 1) (R : Fin 8192) : ∀ (n : ℕ) (hn : n < N), R.val = 1024 * (n / 8) + r.val →
    rs n hn (ix2 r z) = ∑ a ∈ Finset.range (n % 8 + 1), tileSum (fun j => A (ix2 R j)) a := by
  have first : ∀ (n : ℕ) (hn : n < N), n % 8 = 0 → R.val = 1024 * (n / 8) + r.val →
      rs n hn (ix2 r z) = ∑ a ∈ Finset.range (n % 8 + 1), tileSum (fun j => A (ix2 R j)) a := fun n hn h0 hR => by
    refine (congrFun (hfirst ⟨n, hn⟩ h0) (ix2 r z)).trans ?_
    refine (rs_add A blk hblk ⟨n, hn⟩ _ r z R hR).trans ?_
    rw [zero0_apply, zero_add]
    show tileSum _ (n % 8) = _
    rw [h0, zero_add, Finset.sum_range_one]
  intro n
  induction n with
  | zero => exact fun hn hR => first 0 hn (Nat.zero_mod _) hR
  | succ n ih =>
    intro hn hR
    by_cases h0 : (n + 1) % 8 = 0
    · exact first (n + 1) hn h0 hR
    · refine (congrFun (hstep n hn h0) (ix2 r z)).trans ?_
      refine (rs_add A blk hblk ⟨n + 1, hn⟩ _ r z R hR).trans ?_
      show rs n _ (ix2 r z) + tileSum _ ((n + 1) % 8) = _
      rw [ih (Nat.lt_of_succ_lt hn) (by omega), show (n + 1) % 8 = n % 8 + 1 by omega]
      exact (Finset.sum_range_succ _ _).symm

include hblk hfirst hstep in
-- At a last column tile the running sums' entry r is the whole row sum.
theorem rs_last (t : Fin N) (h7 : t.val % 8 = 7) (r : Fin 1024) (z : Fin 1) (R : Fin 8192)
    (hR : R.val = 1024 * (t.val / 8) + r.val) : rs t.val t.isLt (ix2 r z) = Cert.Spec.rowSumAt A R := by
  rw [rs_apply A blk rs hblk hfirst hstep r z R t.val t.isLt hR, h7]
  exact sum_tileSum _

end RowSums

section Any

variable {F : FTy → Type} [FloatOps F]
variable (V : (c : Dev nD) → (b : Ref sig .tc) → Buf (Elt F) ((c : Thread nD τ).loc b))

theorem rs0_step (c : Dev nD) (n : ℕ) (h : n + 1 < cfg0.N) (hn : ¬(n + 1) % 8 = 0) :
    rs0 V c (n + 1) h = k0_pay2 (rs0 V c n (Nat.lt_of_succ_lt h)) (blk0 V c 0 ⟨n + 1, h⟩) :=
  congrArg (fun u => k0_pay2 u (blk0 V c 0 ⟨n + 1, h⟩)) (if_neg hn)

theorem idx0_mat : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

theorem idx0_col : ∀ t : Fin cfg0.N, win0_1.index t 0 = t.val / 8 ∧ win0_1.index t 1 = 0 :=
  (by decide +kernel : ∀ t : Fin grid0.N, win0_1.index t 0 = t.val / 8 ∧ win0_1.index t 1 = 0)

abbrev mat0 (c : Dev nD) : Vec F S8192x8192 .f32 := V c main_arg2

theorem blk0_apply (c : Dev nD) (t : Fin cfg0.N) (r q : Fin 1024) (R Q : Fin 8192)
    (hR : R.val = 1024 * (t.val / 8) + r.val) (hQ : Q.val = 1024 * (t.val % 8) + q.val) :
    (blk0 (F := F) V c 0 t : Vec F S1024x1024 .f32) (ix2 r q) = mat0 V c (ix2 R Q) := by
  unfold blk0
  rw [View.read_apply]
  show V c main_arg2 _ = V c main_arg2 _
  congr 1
  funext a
  apply Fin.ext
  match a with
  | ⟨0, _⟩ => show win0_0.index t 0 * 1024 + 1 * r.val = R.val; rw [(idx0_mat t).1, hR]; omega
  | ⟨1, _⟩ => show win0_0.index t 1 * 1024 + 1 * q.val = Q.val; rw [(idx0_mat t).2, hQ]; omega

end Any

section Reals

variable (V : (c : Dev nD) → (b : Ref sig .tc) → Buf (Elt Ideal) ((c : Thread nD τ).loc b))

theorem rs0_last (c : Dev nD) (t : Fin cfg0.N) (h7 : t.val % 8 = 7) (r : Fin 1024) (z : Fin 1) (R : Fin 8192)
    (hR : R.val = 1024 * (t.val / 8) + r.val) :
    rs0 (F := Ideal) V c t.val t.isLt (ix2 r z) = Cert.Spec.rowSumAt (mat0 V c) R :=
  rs_last _ (blk0 V c 0) (rs0 V c) (blk0_apply V c) (rs0_first V c) (rs0_step V c) t h7 r z R hR

theorem flushed0_eq (c : Dev nD) (t : Fin cfg0.N) (hf : (cfg0.win 1).flush t = true) :
    (dat0 (F := Ideal) V c).flushed 1 t
      = ((cfg0.win 1).blk t).view.read (Elt Ideal) (Cert.Spec.rowSums (mat0 V c)) := by
  have h7 : t.val % 8 = 7 := (flush0_1 t).mp hf
  funext y
  rw [View.read_apply]
  show (dat0 V c).after 1 t ((cfg0.win 1).xinj (grid0.coords t) y)
    = Cert.Spec.rowSums (mat0 V c) (((cfg0.win 1).blk t).view.emb y)
  rw [after0_col]
  have e : ((cfg0.win 1).xinj (grid0.coords t) y : S1024x1.Idx)
      = ix2 (⟨(y 0).val, (y 0).isLt⟩ : Fin 1024) (⟨(y 1).val, (y 1).isLt⟩ : Fin 1) := Shape.idx_ext₂ rfl rfl
  refine (congrArg (rs0 (F := Ideal) V c t.val t.isLt) e).trans ?_
  refine rs0_last V c t h7 _ _ ((((cfg0.win 1).blk t).view.emb y) 0) ?_
  show win0_1.index t 0 * 1024 + 1 * (y 0).val = 1024 * (t.val / 8) + (y 0).val
  rw [(idx0_col t).1]; omega

theorem arrAt0_out (c : Dev nD) : (dat0 (F := Ideal) V c).arrAt 1 cfg0.N = Cert.Spec.rowSums (V c main_arg2) :=
  (dat0 V c).arrAt_eq_of_cover 1 (Cert.Spec.rowSums (mat0 V c)) (flushed0_eq V c) fun i => by
    have h0 : (i 0 : ℕ) < 8192 := (i 0).isLt
    have h1 : (i 1 : ℕ) < 1 := (i 1).isLt
    have hN : 8 * ((i 0 : ℕ) / 1024) + 7 < cfg0.N := lt_of_lt_of_eq (by omega) (N_0.symm : 64 = cfg0.N)
    refine ⟨⟨8 * ((i 0 : ℕ) / 1024) + 7, hN⟩, (flush0_1 _).mpr (by show (8 * ((i 0 : ℕ) / 1024) + 7) % 8 = 7; omega), ?_⟩
    show i ∈ ((View.whole main_v0).slice (win0_1.rect ⟨8 * ((i 0 : ℕ) / 1024) + 7, hN⟩)).set
    rw [View.set_slice_whole, Rect.mem_set_unit]
    intro a
    match a with
    | ⟨0, _⟩ =>
      show win0_1.index ⟨8 * ((i 0 : ℕ) / 1024) + 7, hN⟩ 0 * 1024 ≤ (i 0 : ℕ)
        ∧ (i 0 : ℕ) < win0_1.index ⟨8 * ((i 0 : ℕ) / 1024) + 7, hN⟩ 0 * 1024 + 1024
      rw [(idx0_col _).1]; dsimp only; omega
    | ⟨1, _⟩ =>
      show win0_1.index ⟨8 * ((i 0 : ℕ) / 1024) + 7, hN⟩ 1 * 1 ≤ (i 1 : ℕ)
        ∧ (i 1 : ℕ) < win0_1.index ⟨8 * ((i 0 : ℕ) / 1024) + 7, hN⟩ 1 * 1 + 1
      rw [(idx0_col _).2]; omega

end Reals

end Cert.KernelIdeal.Hand

end
-- ==== Proof.KI.R1Value.lean ====
import proofs.«164122_j44229573214371_1_alg».proof.Proof.KI.R1
import proofs.«164122_j44229573214371_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.Spec (tileSum tileSum_of_lt sum_tileSum)

open Idealize.ShloMosaic Idealize.ShloMosaic.TcCoe Idealize.ShloMosaic.ValueIdx
open Idealize.SL.Sem
open Idealize.ShloMosaic.Pipeline (Dat)
open Cert.KernelIdeal Cert.KernelIdeal.Gen

theorem pay1_apply1 (r : Fin 1024) (d : Fin 32) : k1_pay1 (F := Ideal) (ix2 r d) = 0 := by
  unfold k1_pay1
  refine (congrFun (shapeCast_self _ _) _).trans ?_
  exact Ideal.ofBits_zero_f32

theorem lhs1_0 (i : S1024x32.Idx) (q : dot_S1024x1024_S1024x32_S1024x32_1_0_0_1_n_n.contr.Idx) :
    (dot_S1024x1024_S1024x32_S1024x32_1_0_0_1_n_n.lhsIdx i q 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhs1_1 (i : S1024x32.Idx) (q : dot_S1024x1024_S1024x32_S1024x32_1_0_0_1_n_n.contr.Idx) :
    (dot_S1024x1024_S1024x32_S1024x32_1_0_0_1_n_n.lhsIdx i q 1).val = (q ⟨0, by decide⟩).val :=
  dot_S1024x1024_S1024x32_S1024x32_1_0_0_1_n_n.lhsIdx_val_of_single rfl i q
theorem rhs1_0 (i : S1024x32.Idx) (q : dot_S1024x1024_S1024x32_S1024x32_1_0_0_1_n_n.contr.Idx) :
    (dot_S1024x1024_S1024x32_S1024x32_1_0_0_1_n_n.rhsIdx i q 0).val = (q ⟨0, by decide⟩).val :=
  dot_S1024x1024_S1024x32_S1024x32_1_0_0_1_n_n.rhsIdx_val_of_single rfl i q
theorem rhs1_1 (i : S1024x32.Idx) (q : dot_S1024x1024_S1024x32_S1024x32_1_0_0_1_n_n.contr.Idx) :
    (dot_S1024x1024_S1024x32_S1024x32_1_0_0_1_n_n.rhsIdx i q 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

theorem blockProd_apply1 (x0 : FVec Ideal S1024x1024 .bf16) (x1 : FVec Ideal S1024x32 .bf16) (r : Fin 1024) (d : Fin 32) :
    FloatOps.matmul dot_S1024x1024_S1024x32_S1024x32_1_0_0_1_n_n none x0 x1 (constant (F := Ideal) S1024x32 .f32 0x00000000#32) (ix2 r d)
      = ∑ q : Fin 1024, x0 (ix2 r q) * x1 (ix2 q d) := by
  rw [Ideal.matmul_constant_zero_apply, ← Equiv.sum_comp (ValueIdx.contrEquiv1 dot_S1024x1024_S1024x32_S1024x32_1_0_0_1_n_n 1024 rfl rfl).symm]
  refine Finset.sum_congr rfl fun k _ => ?_
  have hk := ValueIdx.contrEquiv1_symm_val dot_S1024x1024_S1024x32_S1024x32_1_0_0_1_n_n 1024 rfl rfl k
  have el : dot_S1024x1024_S1024x32_S1024x32_1_0_0_1_n_n.lhsIdx (ix2 r d) ((ValueIdx.contrEquiv1 dot_S1024x1024_S1024x32_S1024x32_1_0_0_1_n_n 1024 rfl rfl).symm k) = ix2 r k := funext fun a => Fin.ext (by
    match a with
    | ⟨0, _⟩ => exact lhs1_0 _ _
    | ⟨1, _⟩ => exact (lhs1_1 _ _).trans hk)
  have er : dot_S1024x1024_S1024x32_S1024x32_1_0_0_1_n_n.rhsIdx (ix2 r d) ((ValueIdx.contrEquiv1 dot_S1024x1024_S1024x32_S1024x32_1_0_0_1_n_n 1024 rfl rfl).symm k) = ix2 k d := funext fun a => Fin.ext (by
    match a with
    | ⟨0, _⟩ => exact (rhs1_0 _ _).trans hk
    | ⟨1, _⟩ => exact rhs1_1 _ _)
  rw [el, er]

theorem pay2_apply1 (x0 : Vec Ideal S1024x1024 .f32) (x1 a : Vec Ideal S1024x32 .f32) (r : Fin 1024) (d : Fin 32) :
    k1_pay2 (F := Ideal) x0 x1 a (ix2 r d) = a (ix2 r d) + ∑ q : Fin 1024, x0 (ix2 r q) * x1 (ix2 q d) := by
  unfold k1_pay2
  refine (congrFun (shapeCast_self _ _) _).trans ?_
  refine congrArg (a (ix2 r d) + ·) ?_
  refine (blockProd_apply1 _ _ r d).trans ?_
  refine Finset.sum_congr rfl fun q _ => ?_
  exact congrArg (x0 (ix2 r q) * ·) (congrFun (shapeCast_self x1 _) (ix2 q d))

theorem pay3_apply1 (a : Vec Ideal S1024x32 .f32) (x2 : Vec Ideal S1024x1 .f32) (r : Fin 1024) (d : Fin 32) :
    k1_pay3 (F := Ideal) a x2 (ix2 r d) = a (ix2 r d) * x2 (ix2 r (0 : Fin 1)) := by
  unfold k1_pay3
  refine congrArg (a (ix2 r d) * ·) ?_
  refine (broadcastTo_apply _ _ (ix2 r d) (ix2 r (0 : Fin 1)) (fun b => ?_)).trans (congrFun (shapeCast_self x2 _) _)
  match b with
  | ⟨0, _⟩ => exact (if_neg (show ¬(1024 : ℕ) = 1 by decide)).symm
  | ⟨1, _⟩ => exact (if_pos (show (1 : ℕ) = 1 from rfl)).symm

section Accumulate

open Cert.Spec

def rowOf (n : ℕ) (r : Fin 1024) : Fin 8192 := ⟨(1024 * (n / 8) + r.val) % 8192, Nat.mod_lt _ (by decide)⟩

def rowTerm (A : Arr 8192 8192) (S : Arr 8192 32) (n : ℕ) (r : Fin 1024) (d : Fin 32) : Fin 8192 → EReal :=
  fun j => A (ix2 (rowOf n r) j) * S (ix2 j d)

variable {N : ℕ} (hN : N = 64) (A : Arr 8192 8192) (S : Arr 8192 32) (R : Arr 8192 1)
  (adj : Fin N → Vec Ideal S1024x1024 .f32) (sup : Fin N → Vec Ideal S1024x32 .f32) (rsc : Fin N → Vec Ideal S1024x1 .f32)
  (acc : (n : ℕ) → n < N → Vec Ideal S1024x32 .f32)
  (hadj : ∀ (t : Fin N) (x : S1024x1024.Idx) (k : S8192x8192.Idx), (k 0).val = 1024 * (t.val / 8) + (x 0).val →
    (k 1).val = 1024 * (t.val % 8) + (x 1).val → adj t x = A k)
  (hsup : ∀ (t : Fin N) (x : S1024x32.Idx) (k : S8192x32.Idx), (k 0).val = 1024 * (t.val % 8) + (x 0).val →
    (k 1).val = (x 1).val → sup t x = S k)
  (hrsc : ∀ (t : Fin N) (x : S1024x1.Idx) (k : S8192x1.Idx), (k 0).val = 1024 * (t.val / 8) + (x 0).val → rsc t x = R k)
  (hfirst : ∀ t : Fin N, t.val % 8 = 0 → acc t.val t.isLt = k1_pay2 (adj t) (sup t) (k1_pay1 (F := Ideal)))
  (hnext : ∀ t : Fin N, ¬t.val % 8 = 0 → acc t.val t.isLt
    = k1_pay2 (adj t) (sup t) (acc (t.val - 1) (Nat.lt_of_le_of_lt (Nat.sub_le _ _) t.isLt)))

include hN hadj hsup in
-- One step at point t = 8·i + k adds column tile k's terms of row tile i.
theorem step (t : Fin N) (a : Vec Ideal S1024x32 .f32) (r : Fin 1024) (d : Fin 32) :
    k1_pay2 (F := Ideal) (adj t) (sup t) a (ix2 r d) = a (ix2 r d) + tileSum (rowTerm A S t.val r d) (t.val % 8) := by
  have hN' : t.val < 64 := lt_of_lt_of_eq t.isLt hN
  refine (pay2_apply1 (adj t) (sup t) a r d).trans ?_
  refine congrArg (a (ix2 r d) + ·) ?_
  rw [tileSum_of_lt _ _ (Nat.mod_lt _ (by decide))]
  refine Finset.sum_congr rfl fun q _ => ?_
  have e0 := hadj t (ix2 r q) (ix2 (rowOf t.val r) ⟨1024 * (t.val % 8) + q.val, by omega⟩)
    (by show (1024 * (t.val / 8) + r.val) % 8192 = 1024 * (t.val / 8) + r.val; omega) rfl
  have e1 := hsup t (ix2 q d) (ix2 (⟨1024 * (t.val % 8) + q.val, by omega⟩ : Fin 8192) d) rfl rfl
  show adj t (ix2 r q) * sup t (ix2 q d) = _
  rw [e0, e1]
  rfl

include hN hadj hsup hfirst hnext in
-- After point n = 8·i + k the accumulator's entry (r, d) is the sum of the terms of column tiles 0 … k.
theorem acc_apply (n : ℕ) : ∀ (hn : n < N) (r : Fin 1024) (d : Fin 32),
    acc n hn (ix2 r d) = ∑ a ∈ Finset.range (n % 8 + 1), tileSum (rowTerm A S n r d) a := by
  induction n with
  | zero =>
    intro hn r d
    refine (congrFun (hfirst ⟨0, hn⟩ (Nat.zero_mod _)) (ix2 r d)).trans ?_
    refine (step hN A S adj sup hadj hsup ⟨0, hn⟩ (k1_pay1 (F := Ideal)) r d).trans ?_
    rw [pay1_apply1, zero_add]
    show tileSum (rowTerm A S 0 r d) (0 % 8) = ∑ a ∈ Finset.range (0 % 8 + 1), tileSum (rowTerm A S 0 r d) a
    rw [Nat.zero_mod, zero_add, Finset.sum_range_one]
  | succ n ih =>
    intro hn r d
    by_cases h0 : (n + 1) % 8 = 0
    · refine (congrFun (hfirst ⟨n + 1, hn⟩ h0) (ix2 r d)).trans ?_
      refine (step hN A S adj sup hadj hsup ⟨n + 1, hn⟩ (k1_pay1 (F := Ideal)) r d).trans ?_
      rw [pay1_apply1, zero_add]
      show tileSum (rowTerm A S (n + 1) r d) ((n + 1) % 8) = _
      rw [h0, zero_add, Finset.sum_range_one]
    · refine (congrFun (hnext ⟨n + 1, hn⟩ h0) (ix2 r d)).trans ?_
      refine (step hN A S adj sup hadj hsup ⟨n + 1, hn⟩ _ r d).trans ?_
      have e := ih (Nat.lt_of_succ_lt hn) r d
      have hrow : rowTerm A S n r d = rowTerm A S (n + 1) r d := by
        have hq : rowOf n r = rowOf (n + 1) r :=
          Fin.ext (by show (1024 * (n / 8) + r.val) % 8192 = (1024 * ((n + 1) / 8) + r.val) % 8192; omega)
        unfold rowTerm; rw [hq]
      have hk : (n + 1) % 8 = n % 8 + 1 := by omega
      show acc n _ (ix2 r d) + tileSum (rowTerm A S (n + 1) r d) ((n + 1) % 8) = _
      rw [e, hrow, hk]
      exact (Finset.sum_range_succ _ _).symm

include hN hadj hsup hrsc hfirst hnext in
-- At a last column tile the output block's entry (r, d) is the whole row sum, scaled.
theorem out_entry (t : Fin N) (h7 : t.val % 8 = 7) (r : Fin 1024) (d : Fin 32) :
    k1_pay3 (F := Ideal) (acc t.val t.isLt) (rsc t) (ix2 r d) = scaledProductAt A S R (rowOf t.val r) d := by
  have hN' : t.val < 64 := lt_of_lt_of_eq t.isLt hN
  refine (pay3_apply1 (acc t.val t.isLt) (rsc t) r d).trans ?_
  rw [acc_apply hN A S adj sup acc hadj hsup hfirst hnext t.val t.isLt r d, h7, show (7 + 1 : ℕ) = 8 from rfl, sum_tileSum]
  rw [hrsc t (ix2 r (0 : Fin 1)) (ix2 (rowOf t.val r) (0 : Fin 1))
    (by show (1024 * (t.val / 8) + r.val) % 8192 = 1024 * (t.val / 8) + r.val; omega)]
  rfl

end Accumulate

section Blocks

variable {F : FTy → Type} [FloatOps F]
variable (V : (c : Dev nD) → (b : Ref sig .tc) → Buf (Elt F) ((c : Thread nD τ).loc b))

theorem idx1_0 : ∀ t : Fin cfg1.N, win1_0.index t (0 : Fin 2) = t.val / 8 ∧ win1_0.index t (1 : Fin 2) = t.val % 8 :=
  (by decide +kernel : ∀ t : Fin grid1.N, _)
theorem idx1_1 : ∀ t : Fin cfg1.N, win1_1.index t (0 : Fin 2) = t.val % 8 ∧ win1_1.index t (1 : Fin 2) = 0 :=
  (by decide +kernel : ∀ t : Fin grid1.N, _)
theorem idx1_2 : ∀ t : Fin cfg1.N, win1_2.index t (0 : Fin 2) = t.val / 8 ∧ win1_2.index t (1 : Fin 2) = 0 :=
  (by decide +kernel : ∀ t : Fin grid1.N, _)
theorem idx1_3 : ∀ t : Fin cfg1.N, win1_3.index t (0 : Fin 2) = t.val / 8 ∧ win1_3.index t (1 : Fin 2) = 0 :=
  (by decide +kernel : ∀ t : Fin grid1.N, _)

theorem adj1_apply (c : Dev nD) (t : Fin cfg1.N) (x : S1024x1024.Idx) (k : S8192x8192.Idx)
    (hk0 : (k 0).val = 1024 * (t.val / 8) + (x 0).val) (hk1 : (k 1).val = 1024 * (t.val % 8) + (x 1).val) :
    adj1 V c t x = (V c main_arg2 : S8192x8192.Idx → Elt F .f32) k := by
  have hi := idx1_0 t
  unfold adj1 blk1
  rw [View.read_apply]
  show V c main_arg2 _ = V c main_arg2 _
  congr 1
  funext a
  apply Fin.ext
  match a with
  | ⟨0, _⟩ => show win1_0.index t 0 * 1024 + 1 * (x 0).val = (k 0).val; rw [hi.1, hk0]; omega
  | ⟨1, _⟩ => show win1_0.index t 1 * 1024 + 1 * (x 1).val = (k 1).val; rw [hi.2, hk1]; omega

theorem sup1_apply (c : Dev nD) (t : Fin cfg1.N) (x : S1024x32.Idx) (k : S8192x32.Idx)
    (hk0 : (k 0).val = 1024 * (t.val % 8) + (x 0).val) (hk1 : (k 1).val = (x 1).val) :
    sup1 V c t x = (V c main_v6 : S8192x32.Idx → Elt F .f32) k := by
  have hi := idx1_1 t
  unfold sup1 blk1
  rw [View.read_apply]
  show V c main_v6 _ = V c main_v6 _
  congr 1
  funext a
  apply Fin.ext
  match a with
  | ⟨0, _⟩ => show win1_1.index t 0 * 1024 + 1 * (x 0).val = (k 0).val; rw [hi.1, hk0]; omega
  | ⟨1, _⟩ => show win1_1.index t 1 * 32 + 1 * (x 1).val = (k 1).val; rw [hi.2, hk1]; omega

theorem rsc1_apply (c : Dev nD) (t : Fin cfg1.N) (x : S1024x1.Idx) (k : S8192x1.Idx)
    (hk0 : (k 0).val = 1024 * (t.val / 8) + (x 0).val) :
    rsc1 V c t x = (V c main_v3 : S8192x1.Idx → Elt F .f32) k := by
  have hi := idx1_2 t
  unfold rsc1 blk1
  rw [View.read_apply]
  show V c main_v3 _ = V c main_v3 _
  congr 1
  funext a
  apply Fin.ext
  match a with
  | ⟨0, _⟩ => show win1_2.index t 0 * 1024 + 1 * (x 0).val = (k 0).val; rw [hi.1, hk0]; omega
  | ⟨1, _⟩ =>
    show win1_2.index t 1 * 1 + 1 * (x 1).val = (k 1).val
    have h1 : (x 1).val < 1 := (x 1).isLt
    have h2 : (k 1).val < 1 := (k 1).isLt
    rw [hi.2]; omega

end Blocks

section Value

variable (V : (c : Dev nD) → (b : Ref sig .tc) → Buf (Elt Ideal) ((c : Thread nD τ).loc b))

abbrev arrA1 (c : Dev nD) : Cert.Spec.Arr 8192 8192 := V c main_arg2
abbrev arrS1 (c : Dev nD) : Cert.Spec.Arr 8192 32 := V c main_v6
abbrev arrR1 (c : Dev nD) : Cert.Spec.Arr 8192 1 := V c main_v3

theorem out1_entry (c : Dev nD) (t : Fin cfg1.N) (h7 : t.val % 8 = 7) (r : Fin 1024) (d : Fin 32) :
    k1_pay3 (F := Ideal) (acc1 V c t.val t.isLt) (rsc1 V c t) (ix2 r d)
      = Cert.Spec.scaledProductAt (arrA1 V c) (arrS1 V c) (arrR1 V c) (rowOf t.val r) d :=
  out_entry N_1 _ _ _ (adj1 V c) (sup1 V c) (rsc1 V c) (acc1 V c) (adj1_apply V c) (sup1_apply V c) (rsc1_apply V c)
    (acc1_first V c) (acc1_next V c) t h7 r d

theorem flushed1_eq (c : Dev nD) (t : Fin cfg1.N) (hf : (cfg1.win 3).flush t = true) :
    (dat1 (F := Ideal) V c).flushed 3 t
      = ((cfg1.win 3).blk t).view.read (Elt Ideal) (Cert.Spec.scaledProduct (arrA1 V c) (arrS1 V c) (arrR1 V c)) := by
  have h7 : t.val % 8 = 7 := (flush1_3 t).mp hf
  have hN : t.val < 64 := lt_of_lt_of_eq t.isLt (show cfg1.N = 64 from N_1)
  have hi := idx1_3 t
  show (cfg1.win 3).cut (grid1.coords t) ((dat1 V c).after 3 t) = _
  rw [after1_3]
  funext y
  have hy0 : (y 0).val < 1024 := (y 0).isLt
  have hy : (y : S1024x32.Idx) = ix2 (y 0) (y 1) := eq_ix2 y
  have hemb : (((cfg1.win 3).blk t).view.emb y : S8192x32.Idx) = ix2 (rowOf t.val (y 0)) (y 1) := by
    funext a; apply Fin.ext
    match a with
    | ⟨0, _⟩ =>
      show win1_3.index t 0 * 1024 + 1 * (y 0).val = (1024 * (t.val / 8) + (y 0).val) % 8192
      rw [hi.1]; omega
    | ⟨1, _⟩ =>
      show win1_3.index t 1 * 32 + 1 * (y 1).val = (y 1).val
      rw [hi.2]; omega
  show k1_pay3 (F := Ideal) (acc1 V c t.val t.isLt) (rsc1 V c t) y
      = Cert.Spec.scaledProduct (arrA1 V c) (arrS1 V c) (arrR1 V c) (((cfg1.win 3).blk t).view.emb y)
  rw [hemb]
  refine (congrArg (k1_pay3 (F := Ideal) (acc1 V c t.val t.isLt) (rsc1 V c t)) hy).trans ?_
  exact out1_entry V c t h7 (y 0) (y 1)

theorem mem_blk1_3 (t : Fin cfg1.N) (i : S8192x32.Idx) :
    i ∈ ((cfg1.win 3).blk t).view.set ↔ ∀ a : Fin 2, win1_3.index t a * S1024x32.size a ≤ (i a).val ∧ (i a).val < win1_3.index t a * S1024x32.size a + S1024x32.size a := by
  show i ∈ ((View.whole main_v7).slice (win1_3.rect t)).set ↔ _
  rw [View.set_slice_whole, Rect.mem_set_unit]
  exact Iff.rfl

theorem cover1_3 (i : S8192x32.Idx) :
    ∃ t : Fin cfg1.N, (cfg1.win 3).flush t = true ∧ i ∈ ((cfg1.win 3).blk t).view.set := by
  have h0 : (i 0).val < 8192 := (i 0).isLt
  have h1 : (i 1).val < 32 := (i 1).isLt
  have hN : cfg1.N = 64 := N_1
  have hlt : 8 * ((i 0).val / 1024) + 7 < cfg1.N := by omega
  have hi : win1_3.index ⟨8 * ((i 0).val / 1024) + 7, hlt⟩ (0 : Fin 2) = (8 * ((i 0).val / 1024) + 7) / 8
      ∧ win1_3.index ⟨8 * ((i 0).val / 1024) + 7, hlt⟩ (1 : Fin 2) = 0 := idx1_3 ⟨8 * ((i 0).val / 1024) + 7, hlt⟩
  refine ⟨⟨8 * ((i 0).val / 1024) + 7, hlt⟩, (flush1_3 _).mpr (by show (8 * ((i 0).val / 1024) + 7) % 8 = 7; omega), ?_⟩
  rw [mem_blk1_3]
  intro a
  match a with
  | ⟨0, _⟩ =>
    show win1_3.index ⟨8 * ((i 0).val / 1024) + 7, hlt⟩ (0 : Fin 2) * 1024 ≤ (i 0).val
      ∧ (i 0).val < win1_3.index ⟨8 * ((i 0).val / 1024) + 7, hlt⟩ (0 : Fin 2) * 1024 + 1024
    rw [hi.1]; omega
  | ⟨1, _⟩ =>
    show win1_3.index ⟨8 * ((i 0).val / 1024) + 7, hlt⟩ (1 : Fin 2) * 32 ≤ (i 1).val
      ∧ (i 1).val < win1_3.index ⟨8 * ((i 0).val / 1024) + 7, hlt⟩ (1 : Fin 2) * 32 + 32
    rw [hi.2]; omega

-- Why: the blocks written at the last column tiles cover the array, and each carries its rows of the scaled product.
theorem arrAt1_out (c : Dev nD) :
    (dat1 (F := Ideal) V c).arrAt 3 cfg1.N = Cert.Spec.scaledProduct (V c main_arg2) (V c main_v6) (V c main_v3) :=
  (dat1 V c).arrAt_eq_of_cover 3 (Cert.Spec.scaledProduct (arrA1 V c) (arrS1 V c) (arrR1 V c)) (flushed1_eq V c) cover1_3

end Value

end Cert.KernelIdeal.Hand

end
-- ==== Proof.KI.R2Value.lean ====
import proofs.«164122_j44229573214371_1_alg».proof.Proof.KI.R2
import proofs.«164122_j44229573214371_1_alg».proof.Proof.KI.R0Value
import proofs.«164122_j44229573214371_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

section Any

variable {F : FTy → Type} [FloatOps F]
variable (V : (c : Dev nD) → (b : Ref sig .tc) → Buf (Elt F) ((c : Thread nD τ).loc b))

theorem rs2_step (c : Dev nD) (n : ℕ) (h : n + 1 < cfg2.N) (hn : ¬(n + 1) % 8 = 0) :
    rs2 V c (n + 1) h = k0_pay2 (rs2 V c n (Nat.lt_of_succ_lt h)) (blk2 V c 0 ⟨n + 1, h⟩) :=
  congrArg (fun u => k0_pay2 u (blk2 V c 0 ⟨n + 1, h⟩)) (if_neg hn)

theorem idx2_mat : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)

theorem idx2_col : ∀ t : Fin cfg2.N, win2_1.index t 0 = t.val / 8 ∧ win2_1.index t 1 = 0 :=
  (by decide +kernel : ∀ t : Fin grid2.N, win2_1.index t 0 = t.val / 8 ∧ win2_1.index t 1 = 0)

abbrev mat2 (c : Dev nD) : Vec F S8192x8192 .f32 := V c main_arg4

theorem blk2_apply (c : Dev nD) (t : Fin cfg2.N) (r q : Fin 1024) (R Q : Fin 8192)
    (hR : R.val = 1024 * (t.val / 8) + r.val) (hQ : Q.val = 1024 * (t.val % 8) + q.val) :
    (blk2 (F := F) V c 0 t : Vec F S1024x1024 .f32) (ix2 r q) = mat2 V c (ix2 R Q) := by
  unfold blk2
  rw [View.read_apply]
  show V c main_arg4 _ = V c main_arg4 _
  congr 1
  funext a
  apply Fin.ext
  match a with
  | ⟨0, _⟩ => show win2_0.index t 0 * 1024 + 1 * r.val = R.val; rw [(idx2_mat t).1, hR]; omega
  | ⟨1, _⟩ => show win2_0.index t 1 * 1024 + 1 * q.val = Q.val; rw [(idx2_mat t).2, hQ]; omega

end Any

section Reals

variable (V : (c : Dev nD) → (b : Ref sig .tc) → Buf (Elt Ideal) ((c : Thread nD τ).loc b))

theorem rs2_last (c : Dev nD) (t : Fin cfg2.N) (h7 : t.val % 8 = 7) (r : Fin 1024) (z : Fin 1) (R : Fin 8192)
    (hR : R.val = 1024 * (t.val / 8) + r.val) :
    rs2 (F := Ideal) V c t.val t.isLt (ix2 r z) = Cert.Spec.rowSumAt (mat2 V c) R :=
  rs_last _ (blk2 V c 0) (rs2 V c) (blk2_apply V c) (rs2_first V c) (rs2_step V c) t h7 r z R hR

theorem flushed2_eq (c : Dev nD) (t : Fin cfg2.N) (hf : (cfg2.win 1).flush t = true) :
    (dat2 (F := Ideal) V c).flushed 1 t
      = ((cfg2.win 1).blk t).view.read (Elt Ideal) (Cert.Spec.rowSums (mat2 V c)) := by
  have h7 : t.val % 8 = 7 := (flush2_1 t).mp hf
  funext y
  rw [View.read_apply]
  show (dat2 V c).after 1 t ((cfg2.win 1).xinj (grid2.coords t) y)
    = Cert.Spec.rowSums (mat2 V c) (((cfg2.win 1).blk t).view.emb y)
  rw [after2_col]
  have e : ((cfg2.win 1).xinj (grid2.coords t) y : S1024x1.Idx)
      = ix2 (⟨(y 0).val, (y 0).isLt⟩ : Fin 1024) (⟨(y 1).val, (y 1).isLt⟩ : Fin 1) := Shape.idx_ext₂ rfl rfl
  refine (congrArg (rs2 (F := Ideal) V c t.val t.isLt) e).trans ?_
  refine rs2_last V c t h7 _ _ ((((cfg2.win 1).blk t).view.emb y) 0) ?_
  show win2_1.index t 0 * 1024 + 1 * (y 0).val = 1024 * (t.val / 8) + (y 0).val
  rw [(idx2_col t).1]; omega

theorem arrAt2_out (c : Dev nD) : (dat2 (F := Ideal) V c).arrAt 1 cfg2.N = Cert.Spec.rowSums (V c main_arg4) :=
  (dat2 V c).arrAt_eq_of_cover 1 (Cert.Spec.rowSums (mat2 V c)) (flushed2_eq V c) fun i => by
    have h0 : (i 0 : ℕ) < 8192 := (i 0).isLt
    have h1 : (i 1 : ℕ) < 1 := (i 1).isLt
    have hN : 8 * ((i 0 : ℕ) / 1024) + 7 < cfg2.N := lt_of_lt_of_eq (by omega) (N_2.symm : 64 = cfg2.N)
    refine ⟨⟨8 * ((i 0 : ℕ) / 1024) + 7, hN⟩, (flush2_1 _).mpr (by show (8 * ((i 0 : ℕ) / 1024) + 7) % 8 = 7; omega), ?_⟩
    show i ∈ ((View.whole main_v8).slice (win2_1.rect ⟨8 * ((i 0 : ℕ) / 1024) + 7, hN⟩)).set
    rw [View.set_slice_whole, Rect.mem_set_unit]
    intro a
    match a with
    | ⟨0, _⟩ =>
      show win2_1.index ⟨8 * ((i 0 : ℕ) / 1024) + 7, hN⟩ 0 * 1024 ≤ (i 0 : ℕ)
        ∧ (i 0 : ℕ) < win2_1.index ⟨8 * ((i 0 : ℕ) / 1024) + 7, hN⟩ 0 * 1024 + 1024
      rw [(idx2_col _).1]; dsimp only; omega
    | ⟨1, _⟩ =>
      show win2_1.index ⟨8 * ((i 0 : ℕ) / 1024) + 7, hN⟩ 1 * 1 ≤ (i 1 : ℕ)
        ∧ (i 1 : ℕ) < win2_1.index ⟨8 * ((i 0 : ℕ) / 1024) + 7, hN⟩ 1 * 1 + 1
      rw [(idx2_col _).2]; omega

end Reals

end Cert.KernelIdeal.Hand

end
-- ==== Proof.KI.R3Value.lean ====
import proofs.«164122_j44229573214371_1_alg».proof.Proof.KI.R3
import proofs.«164122_j44229573214371_1_alg».proof.Proof.KI.R1Value
import proofs.«164122_j44229573214371_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

section Blocks

variable {F : FTy → Type} [FloatOps F]
variable (V : (c : Dev nD) → (b : Ref sig .tc) → Buf (Elt F) ((c : Thread nD τ).loc b))

theorem idx3_0 : ∀ t : Fin cfg3.N, win3_0.index t (0 : Fin 2) = t.val / 8 ∧ win3_0.index t (1 : Fin 2) = t.val % 8 :=
  (by decide +kernel : ∀ t : Fin grid3.N, _)
theorem idx3_1 : ∀ t : Fin cfg3.N, win3_1.index t (0 : Fin 2) = t.val % 8 ∧ win3_1.index t (1 : Fin 2) = 0 :=
  (by decide +kernel : ∀ t : Fin grid3.N, _)
theorem idx3_2 : ∀ t : Fin cfg3.N, win3_2.index t (0 : Fin 2) = t.val / 8 ∧ win3_2.index t (1 : Fin 2) = 0 :=
  (by decide +kernel : ∀ t : Fin grid3.N, _)
theorem idx3_3 : ∀ t : Fin cfg3.N, win3_3.index t (0 : Fin 2) = t.val / 8 ∧ win3_3.index t (1 : Fin 2) = 0 :=
  (by decide +kernel : ∀ t : Fin grid3.N, _)

theorem adj3_apply (c : Dev nD) (t : Fin cfg3.N) (x : S1024x1024.Idx) (k : S8192x8192.Idx)
    (hk0 : (k 0).val = 1024 * (t.val / 8) + (x 0).val) (hk1 : (k 1).val = 1024 * (t.val % 8) + (x 1).val) :
    adj3 V c t x = (V c main_arg4 : S8192x8192.Idx → Elt F .f32) k := by
  have hi := idx3_0 t
  unfold adj3 blk3
  rw [View.read_apply]
  show V c main_arg4 _ = V c main_arg4 _
  congr 1
  funext a
  apply Fin.ext
  match a with
  | ⟨0, _⟩ => show win3_0.index t 0 * 1024 + 1 * (x 0).val = (k 0).val; rw [hi.1, hk0]; omega
  | ⟨1, _⟩ => show win3_0.index t 1 * 1024 + 1 * (x 1).val = (k 1).val; rw [hi.2, hk1]; omega

theorem sup3_apply (c : Dev nD) (t : Fin cfg3.N) (x : S1024x32.Idx) (k : S8192x32.Idx)
    (hk0 : (k 0).val = 1024 * (t.val % 8) + (x 0).val) (hk1 : (k 1).val = (x 1).val) :
    sup3 V c t x = (V c main_v14 : S8192x32.Idx → Elt F .f32) k := by
  have hi := idx3_1 t
  unfold sup3 blk3
  rw [View.read_apply]
  show V c main_v14 _ = V c main_v14 _
  congr 1
  funext a
  apply Fin.ext
  match a with
  | ⟨0, _⟩ => show win3_1.index t 0 * 1024 + 1 * (x 0).val = (k 0).val; rw [hi.1, hk0]; omega
  | ⟨1, _⟩ => show win3_1.index t 1 * 32 + 1 * (x 1).val = (k 1).val; rw [hi.2, hk1]; omega

theorem rsc3_apply (c : Dev nD) (t : Fin cfg3.N) (x : S1024x1.Idx) (k : S8192x1.Idx)
    (hk0 : (k 0).val = 1024 * (t.val / 8) + (x 0).val) :
    rsc3 V c t x = (V c main_v11 : S8192x1.Idx → Elt F .f32) k := by
  have hi := idx3_2 t
  unfold rsc3 blk3
  rw [View.read_apply]
  show V c main_v11 _ = V c main_v11 _
  congr 1
  funext a
  apply Fin.ext
  match a with
  | ⟨0, _⟩ => show win3_2.index t 0 * 1024 + 1 * (x 0).val = (k 0).val; rw [hi.1, hk0]; omega
  | ⟨1, _⟩ =>
    show win3_2.index t 1 * 1 + 1 * (x 1).val = (k 1).val
    have h1 : (x 1).val < 1 := (x 1).isLt
    have h2 : (k 1).val < 1 := (k 1).isLt
    rw [hi.2]; omega

end Blocks

section Value

variable (V : (c : Dev nD) → (b : Ref sig .tc) → Buf (Elt Ideal) ((c : Thread nD τ).loc b))

abbrev arrA3 (c : Dev nD) : Cert.Spec.Arr 8192 8192 := V c main_arg4
abbrev arrS3 (c : Dev nD) : Cert.Spec.Arr 8192 32 := V c main_v14
abbrev arrR3 (c : Dev nD) : Cert.Spec.Arr 8192 1 := V c main_v11

theorem out3_entry (c : Dev nD) (t : Fin cfg3.N) (h7 : t.val % 8 = 7) (r : Fin 1024) (d : Fin 32) :
    k1_pay3 (F := Ideal) (acc3 V c t.val t.isLt) (rsc3 V c t) (ix2 r d)
      = Cert.Spec.scaledProductAt (arrA3 V c) (arrS3 V c) (arrR3 V c) (rowOf t.val r) d :=
  out_entry N_3 _ _ _ (adj3 V c) (sup3 V c) (rsc3 V c) (acc3 V c) (adj3_apply V c) (sup3_apply V c) (rsc3_apply V c)
    (acc3_first V c) (acc3_next V c) t h7 r d

theorem flushed3_eq (c : Dev nD) (t : Fin cfg3.N) (hf : (cfg3.win 3).flush t = true) :
    (dat3 (F := Ideal) V c).flushed 3 t
      = ((cfg3.win 3).blk t).view.read (Elt Ideal) (Cert.Spec.scaledProduct (arrA3 V c) (arrS3 V c) (arrR3 V c)) := by
  have h7 : t.val % 8 = 7 := (flush3_3 t).mp hf
  have hN : t.val < 64 := lt_of_lt_of_eq t.isLt (show cfg3.N = 64 from N_3)
  have hi := idx3_3 t
  show (cfg3.win 3).cut (grid3.coords t) ((dat3 V c).after 3 t) = _
  rw [after3_3]
  funext y
  have hy0 : (y 0).val < 1024 := (y 0).isLt
  have hy : (y : S1024x32.Idx) = ix2 (y 0) (y 1) := eq_ix2 y
  have hemb : (((cfg3.win 3).blk t).view.emb y : S8192x32.Idx) = ix2 (rowOf t.val (y 0)) (y 1) := by
    funext a; apply Fin.ext
    match a with
    | ⟨0, _⟩ =>
      show win3_3.index t 0 * 1024 + 1 * (y 0).val = (1024 * (t.val / 8) + (y 0).val) % 8192
      rw [hi.1]; omega
    | ⟨1, _⟩ =>
      show win3_3.index t 1 * 32 + 1 * (y 1).val = (y 1).val
      rw [hi.2]; omega
  show k1_pay3 (F := Ideal) (acc3 V c t.val t.isLt) (rsc3 V c t) y
      = Cert.Spec.scaledProduct (arrA3 V c) (arrS3 V c) (arrR3 V c) (((cfg3.win 3).blk t).view.emb y)
  rw [hemb]
  refine (congrArg (k1_pay3 (F := Ideal) (acc3 V c t.val t.isLt) (rsc3 V c t)) hy).trans ?_
  exact out3_entry V c t h7 (y 0) (y 1)

theorem mem_blk3_3 (t : Fin cfg3.N) (i : S8192x32.Idx) :
    i ∈ ((cfg3.win 3).blk t).view.set ↔ ∀ a : Fin 2, win3_3.index t a * S1024x32.size a ≤ (i a).val ∧ (i a).val < win3_3.index t a * S1024x32.size a + S1024x32.size a := by
  show i ∈ ((View.whole main_v15).slice (win3_3.rect t)).set ↔ _
  rw [View.set_slice_whole, Rect.mem_set_unit]
  exact Iff.rfl

theorem cover3_3 (i : S8192x32.Idx) :
    ∃ t : Fin cfg3.N, (cfg3.win 3).flush t = true ∧ i ∈ ((cfg3.win 3).blk t).view.set := by
  have h0 : (i 0).val < 8192 := (i 0).isLt
  have h1 : (i 1).val < 32 := (i 1).isLt
  have hN : cfg3.N = 64 := N_3
  have hlt : 8 * ((i 0).val / 1024) + 7 < cfg3.N := by omega
  have hi : win3_3.index ⟨8 * ((i 0).val / 1024) + 7, hlt⟩ (0 : Fin 2) = (8 * ((i 0).val / 1024) + 7) / 8
      ∧ win3_3.index ⟨8 * ((i 0).val / 1024) + 7, hlt⟩ (1 : Fin 2) = 0 := idx3_3 ⟨8 * ((i 0).val / 1024) + 7, hlt⟩
  refine ⟨⟨8 * ((i 0).val / 1024) + 7, hlt⟩, (flush3_3 _).mpr (by show (8 * ((i 0).val / 1024) + 7) % 8 = 7; omega), ?_⟩
  rw [mem_blk3_3]
  intro a
  match a with
  | ⟨0, _⟩ =>
    show win3_3.index ⟨8 * ((i 0).val / 1024) + 7, hlt⟩ (0 : Fin 2) * 1024 ≤ (i 0).val
      ∧ (i 0).val < win3_3.index ⟨8 * ((i 0).val / 1024) + 7, hlt⟩ (0 : Fin 2) * 1024 + 1024
    rw [hi.1]; omega
  | ⟨1, _⟩ =>
    show win3_3.index ⟨8 * ((i 0).val / 1024) + 7, hlt⟩ (1 : Fin 2) * 32 ≤ (i 1).val
      ∧ (i 1).val < win3_3.index ⟨8 * ((i 0).val / 1024) + 7, hlt⟩ (1 : Fin 2) * 32 + 32
    rw [hi.2]; omega

theorem arrAt3_out (c : Dev nD) :
    (dat3 (F := Ideal) V c).arrAt 3 cfg3.N = Cert.Spec.scaledProduct (V c main_arg4) (V c main_v14) (V c main_v11) :=
  (dat3 V c).arrAt_eq_of_cover 3 (Cert.Spec.scaledProduct (arrA3 V c) (arrS3 V c) (arrR3 V c)) (flushed3_eq V c) cover3_3

end Value

end Cert.KernelIdeal.Hand

end
-- ==== Proof.KI.R4Value.lean ====
import proofs.«164122_j44229573214371_1_alg».proof.Proof.KI.R4
import proofs.«164122_j44229573214371_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem cols4_pay1_apply (j : S1x8192.Idx) : (k4_pay1 (F := Ideal)) j = 0 := by
  unfold k4_pay1
  rw [shapeCast_self]
  exact Ideal.ofBits_zero_f32

theorem cols4_pay4_apply (x : Vec Ideal S1024x1024 .f32) (v : Vec Ideal S1x1024 .f32) (z : Fin 1) (l : Fin 1024) :
    k4_pay4 x v (ix2 z l) = v (ix2 z l) + ∑ r : Fin 1024, x (ix2 r l) := by
  unfold k4_pay4
  dsimp only
  rw [shapeCast_self, addf_apply]
  refine congrArg (v (ix2 z l) + ·) ?_
  refine (shapeCast_a_1a_apply _ shapeCasts_S1024_S1x1024 z l).trans ?_
  refine (Ideal.multiReduction_add_single x _ reduces_S1024x1024_S1024_2 _ _ (ix1 l)).trans ?_
  show ∑ r : Fin 1024, x (reduces_S1024x1024_S1024_2.lift (ix1 l) r) = ∑ r : Fin 1024, x (ix2 r l)
  refine Finset.sum_congr rfl fun r _ => congrArg x ?_
  funext a
  apply Fin.ext
  match a with
  | ⟨0, _⟩ => rfl
  | ⟨1, _⟩ => rfl

abbrev cols4_rect (off : Fin 2 → ℕ) (inb : ∀ a, off a + S1x1024.size a ≤ S1x8192.size a) : Rect S1x8192 :=
  Rect.unit (s := S1x8192) off S1x1024.size inb

theorem cols4_emb (o : ℕ) (inb : ∀ a, (![0, o] : Fin 2 → ℕ) a + S1x1024.size a ≤ S1x8192.size a) (z : Fin 1) (l : Fin 1024) (col : Fin 8192)
    (hcol : col.val = o + l.val) : (cols4_rect ![0, o] inb).emb (ix2 z l) = ix2 z col := by
  funext a
  apply Fin.ext
  match a with
  | ⟨0, _⟩ => show 0 + 1 * z.val = z.val; omega
  | ⟨1, _⟩ => show o + 1 * l.val = col.val; omega

set_option maxHeartbeats 400000 in
theorem cols4_overlay_in (off : Fin 2 → ℕ) (inb : ∀ a, off a + S1x1024.size a ≤ S1x8192.size a) (o : ℕ) (ho : off = ![0, o])
    (X : S1x8192.Idx → EReal) (w : (cols4_rect off inb).shape.Idx → EReal) (z : Fin 1) (col : Fin 8192) (l : Fin 1024) (hcol : col.val = o + l.val) :
    (cols4_rect off inb).overlay X w (ix2 z col) = w (ix2 z l) := by
  subst ho
  exact (congrArg ((cols4_rect ![0, o] inb).overlay X w) (cols4_emb o inb z l col hcol)).symm.trans
    (Rect.overlay_emb (cols4_rect ![0, o] inb) X w (ix2 z l))

theorem cols4_overlay_out (off : Fin 2 → ℕ) (inb : ∀ a, off a + S1x1024.size a ≤ S1x8192.size a) (o : ℕ) (ho : off = ![0, o])
    (X : S1x8192.Idx → EReal) (w : (cols4_rect off inb).shape.Idx → EReal) (z : Fin 1) (col : Fin 8192) (hcol : col.val < o ∨ o + 1024 ≤ col.val) :
    (cols4_rect off inb).overlay X w (ix2 z col) = X (ix2 z col) := by
  subst ho
  refine Rect.overlay_of_not_mem (cols4_rect ![0, o] inb) X w ?_
  rw [Rect.mem_set_unit]
  intro h
  have h1 := h 1
  change o ≤ col.val ∧ col.val < o + 1024 at h1
  omega

theorem cols4_ld (off : Fin 2 → ℕ) (inb : ∀ a, off a + S1x1024.size a ≤ S1x8192.size a) (o : ℕ) (ho : off = ![0, o])
    (X : S1x8192.Idx → EReal) (z : Fin 1) (l : Fin 1024) (col : Fin 8192) (hcol : col.val = o + l.val) :
    X ((cols4_rect off inb).idx (ix2 z l)) = X (ix2 z col) := by
  subst ho
  exact congrArg X (cols4_emb o inb z l col hcol)

theorem cols4_step_in (i : grid4.Coords) (k : ℕ) (hk : k4_off1 i = ![0, 1024 * k]) (x : Vec Ideal S1024x1024 .f32) (xs : Vec Ideal S1x8192 .f32)
    (z : Fin 1) (col : Fin 8192) (l : Fin 1024) (hcol : col.val = 1024 * k + l.val) :
    csStep i x xs (ix2 z col) = xs (ix2 z col) + ∑ r : Fin 1024, x (ix2 r l) :=
  (cols4_overlay_in (k4_off1 i) (k4_off1_inb i) (1024 * k) hk xs (k4_pay4 x (View.ld xs (colRect i))) z col l hcol).trans
    ((cols4_pay4_apply x (View.ld xs (colRect i)) z l).trans
      (congrArg (· + ∑ r : Fin 1024, x (ix2 r l)) (cols4_ld (k4_off1 i) (k4_off1_inb i) (1024 * k) hk xs z l col hcol)))

theorem cols4_step_out (i : grid4.Coords) (k : ℕ) (hk : k4_off1 i = ![0, 1024 * k]) (x : Vec Ideal S1024x1024 .f32) (xs : Vec Ideal S1x8192 .f32)
    (z : Fin 1) (col : Fin 8192) (hcol : col.val < 1024 * k ∨ 1024 * k + 1024 ≤ col.val) :
    csStep i x xs (ix2 z col) = xs (ix2 z col) :=
  cols4_overlay_out (k4_off1 i) (k4_off1_inb i) (1024 * k) hk xs (k4_pay4 x (View.ld xs (colRect i))) z col hcol

theorem cols4_coords : ∀ t : Fin cfg4.N, ((grid4.coords t) 0).val = t.val / 8 ∧ ((grid4.coords t) 1).val = t.val % 8 :=
  (by decide +kernel : ∀ t : Fin grid4.N, ((grid4.coords t) 0).val = t.val / 8 ∧ ((grid4.coords t) 1).val = t.val % 8)

theorem cols4_off (t : Fin cfg4.N) : k4_off1 (grid4.coords t) = ![0, 1024 * (t.val % 8)] := by
  rw [k4_off1_eq, (cols4_coords t).2]

theorem cols4_windex : ∀ t : Fin cfg4.N, win4_0.index t 0 = t.val / 8 ∧ win4_0.index t 1 = t.val % 8 :=
  (by decide +kernel : ∀ t : Fin grid4.N, win4_0.index t 0 = t.val / 8 ∧ win4_0.index t 1 = t.val % 8)

variable (V : (c : Dev nD) → (b : Ref sig .tc) → Buf (Elt Ideal) ((c : Thread nD τ).loc b))

abbrev cols4_mat (c : Dev nD) : Cert.Spec.Arr 8192 8192 := V c main_arg3

theorem cols4_blk_apply (c : Dev nD) (t : Fin cfg4.N) (r l : Fin 1024) (a b : Fin 8192)
    (ha : a.val = 1024 * (t.val / 8) + r.val) (hb : b.val = 1024 * (t.val % 8) + l.val) :
    (blk4 V c 0 t : Vec Ideal S1024x1024 .f32) (ix2 r l) = cols4_mat V c (ix2 a b) := by
  unfold blk4
  rw [View.read_apply]
  show V c main_arg3 _ = V c main_arg3 _
  congr 1
  funext d
  apply Fin.ext
  match d with
  | ⟨0, _⟩ => show win4_0.index t 0 * 1024 + 1 * r.val = a.val; rw [(cols4_windex t).1, ha]; omega
  | ⟨1, _⟩ => show win4_0.index t 1 * 1024 + 1 * l.val = b.val; rw [(cols4_windex t).2, hb]; omega

def cols4_aN (A : Cert.Spec.Arr 8192 8192) (a b : ℕ) : EReal := if h : a < 8192 ∧ b < 8192 then A (ix2 ⟨a, h.1⟩ ⟨b, h.2⟩) else 0

def cols4_tile (A : Cert.Spec.Arr 8192 8192) (i col : ℕ) : EReal := ∑ r : Fin 1024, cols4_aN A (1024 * i + r.val) col

def cols4_cnt (n k : ℕ) : ℕ := if k ≤ n % 8 then n / 8 + 1 else n / 8

theorem cols4_step_tiles (c : Dev nD) (t : Fin cfg4.N) (xs : Vec Ideal S1x8192 .f32) (f : ℕ → ℕ)
    (hxs : ∀ (z : Fin 1) (col : Fin 8192), xs (ix2 z col) = ∑ i ∈ Finset.range (f (col.val / 1024)), cols4_tile (cols4_mat V c) i col.val)
    (hf : f (t.val % 8) = t.val / 8) (z : Fin 1) (col : Fin 8192) :
    csStep (grid4.coords t) (blk4 V c 0 t) xs (ix2 z col)
      = ∑ i ∈ Finset.range (if col.val / 1024 = t.val % 8 then f (col.val / 1024) + 1 else f (col.val / 1024)), cols4_tile (cols4_mat V c) i col.val := by
  have hN : t.val < 64 := lt_of_lt_of_eq t.isLt (show cfg4.N = 64 from N_4)
  by_cases hin : col.val / 1024 = t.val % 8
  · rw [if_pos hin, Finset.sum_range_succ, ← hxs z col]
    have hl : col.val % 1024 < 1024 := Nat.mod_lt _ (by decide)
    refine (cols4_step_in (grid4.coords t) (t.val % 8) (cols4_off t) (blk4 V c 0 t) xs z col ⟨col.val % 1024, hl⟩ (by dsimp only; omega)).trans ?_
    refine congrArg (xs (ix2 z col) + ·) ?_
    rw [hin, hf]
    unfold cols4_tile
    refine Finset.sum_congr rfl fun r _ => ?_
    have hr : 1024 * (t.val / 8) + r.val < 8192 := by have := r.isLt; omega
    refine (cols4_blk_apply V c t r ⟨col.val % 1024, hl⟩ ⟨1024 * (t.val / 8) + r.val, hr⟩ col rfl (by dsimp only; omega)).trans ?_
    unfold cols4_aN
    rw [dif_pos ⟨hr, col.isLt⟩]
  · rw [if_neg hin, ← hxs z col]
    exact cols4_step_out (grid4.coords t) (t.val % 8) (cols4_off t) (blk4 V c 0 t) xs z col (by omega)

theorem cols4_cs_apply (c : Dev nD) : ∀ (n : ℕ) (h : n < cfg4.N) (z : Fin 1) (col : Fin 8192),
    cs4 V c n h (ix2 z col) = ∑ i ∈ Finset.range (cols4_cnt n (col.val / 1024)), cols4_tile (cols4_mat V c) i col.val
  | 0, h, z, col => by
    refine (cols4_step_tiles V c ⟨0, h⟩ (k4_pay1 (F := Ideal)) (fun _ => 0)
      (fun z col => by rw [cols4_pay1_apply]; rfl) (by show (0 : ℕ) = 0 / 8; decide) z col).trans ?_
    refine congrArg (fun m => ∑ i ∈ Finset.range m, cols4_tile (cols4_mat V c) i col.val) ?_
    unfold cols4_cnt; dsimp only; split_ifs <;> omega
  | n + 1, h, z, col => by
    have hN : n + 1 < 64 := lt_of_lt_of_eq h (show cfg4.N = 64 from N_4)
    refine (cols4_step_tiles V c ⟨n + 1, h⟩ (cs4 V c n (Nat.lt_of_succ_lt h)) (cols4_cnt n) (cols4_cs_apply c n (Nat.lt_of_succ_lt h))
      (by unfold cols4_cnt; dsimp only; split_ifs <;> omega) z col).trans ?_
    refine congrArg (fun m => ∑ i ∈ Finset.range m, cols4_tile (cols4_mat V c) i col.val) ?_
    unfold cols4_cnt; dsimp only; split_ifs <;> omega

theorem cols4_sum_range_tiles {M : Type} [AddCommMonoid M] (b : ℕ) (g : ℕ → M) :
    ∀ a : ℕ, ∑ j ∈ Finset.range (b * a), g j = ∑ p ∈ Finset.range a, ∑ q : Fin b, g (b * p + q.val)
  | 0 => by simp
  | a + 1 => by
    rw [Nat.mul_succ, Finset.sum_range_add, cols4_sum_range_tiles b g a, Finset.sum_range_succ]
    exact congrArg _ (Finset.sum_range fun x => g (b * a + x))

theorem cols4_cs_last (c : Dev nD) (h : 63 < cfg4.N) (z : Fin 1) (col : Fin 8192) :
    cs4 V c 63 h (ix2 z col) = Cert.Spec.colSumAt (cols4_mat V c) col := by
  rw [cols4_cs_apply V c 63 h z col]
  have hc : cols4_cnt 63 (col.val / 1024) = 8 := by unfold cols4_cnt; have := col.isLt; split_ifs <;> omega
  rw [hc]
  unfold cols4_tile Cert.Spec.colSumAt
  rw [← cols4_sum_range_tiles 1024 (fun a => cols4_aN (cols4_mat V c) a col.val) 8, show 1024 * 8 = 8192 from rfl, Finset.sum_range]
  refine Finset.sum_congr rfl fun a _ => ?_
  unfold cols4_aN
  rw [dif_pos ⟨a.isLt, col.isLt⟩]

abbrev cols4_last : Fin cfg4.N := ⟨63, lt_of_lt_of_eq (by decide : 63 < 64) N_4.symm⟩

theorem cols4_windex2 : ∀ (t : Fin cfg4.N) (a : Fin 2), win4_2.index t a = 0 :=
  (by decide +kernel : ∀ (t : Fin grid4.N) (a : Fin 2), win4_2.index t a = 0)
theorem cols4_xsize2 : ∀ t : Fin cfg4.N, win4_2.xsize (grid4.coords t) 0 = 1 ∧ win4_2.xsize (grid4.coords t) 1 = 8192 :=
  (by decide +kernel : ∀ t : Fin grid4.N, win4_2.xsize (grid4.coords t) 0 = 1 ∧ win4_2.xsize (grid4.coords t) 1 = 8192)

theorem cols4_cs_eq (c : Dev nD) (h : 63 < cfg4.N) :
    (cs4 V c 63 h : Vec Ideal S1x8192 .f32) = Cert.Spec.colSums (cols4_mat V c) := funext fun j =>
  (congrArg (cs4 V c 63 h) (eq_ix2 j)).trans ((cols4_cs_last V c h (j 0) (j 1)).trans
    ((Cert.Spec.colSums_apply (cols4_mat V c) (j 0) (j 1)).symm.trans (congrArg (Cert.Spec.colSums (cols4_mat V c)) (eq_ix2 j)).symm))

theorem cols4_flushed (c : Dev nD) (t : Fin cfg4.N) (hf : (cfg4.win 2).flush t = true) :
    (dat4 (F := Ideal) V c).flushed 2 t = ((cfg4.win 2).blk t).view.read (Elt Ideal) (Cert.Spec.colSums (cols4_mat V c)) := by
  have hN : cfg4.N = 64 := N_4
  have h63 : t.val = 63 := by have := (flush4_2 t).mp hf; have := t.isLt; omega
  obtain ⟨n, hn⟩ := t
  dsimp only at h63
  subst h63
  show (cfg4.win 2).cut (grid4.coords ⟨63, hn⟩) ((dat4 (F := Ideal) V c).after 2 ⟨63, hn⟩) = _
  rw [after4_2, cols4_cs_eq V c hn]
  have hz' : (fun a => win4_2.index ⟨63, hn⟩ a * main_v16_1.ty.shape.size a) = fun _ => 0 :=
    funext fun a => by rw [cols4_windex2 ⟨63, hn⟩ a, Nat.zero_mul]
  exact (Memref.read_access_unit_zero (Elt Ideal) main_v16_1 hz' (fun a => by rw [congrFun hz' a]; simp) (Cert.Spec.colSums (cols4_mat V c))).symm

-- Why: after the last point the carried row holds every column summed over all eight row tiles.
theorem arrAt4_cols (c : Dev nD) :
    (dat4 (F := Ideal) V c).arrAt 2 cfg4.N = Cert.Spec.colSums (V c main_arg3) :=
  (dat4 (F := Ideal) V c).arrAt_eq_of_cover 2 (Cert.Spec.colSums (cols4_mat V c)) (cols4_flushed V c) fun i =>
    ⟨cols4_last, (flush4_2 cols4_last).mpr rfl, by
      show i ∈ ((View.whole main_v16_1).slice (win4_2.rect cols4_last)).set
      rw [View.set_slice_whole, Rect.mem_set_unit]
      intro a
      have h0 : (i 0 : Nat) < 1 := (i 0).isLt
      have h1 : (i 1 : Nat) < 8192 := (i 1).isLt
      match a with
      | ⟨0, _⟩ =>
        show win4_2.index cols4_last 0 * win4_2.size 0 ≤ (i 0 : Nat) ∧ (i 0 : Nat) < win4_2.index cols4_last 0 * win4_2.size 0 + win4_2.xsize (grid4.coords cols4_last) 0
        rw [cols4_windex2 cols4_last 0, (cols4_xsize2 cols4_last).1]; omega
      | ⟨1, _⟩ =>
        show win4_2.index cols4_last 1 * win4_2.size 1 ≤ (i 1 : Nat) ∧ (i 1 : Nat) < win4_2.index cols4_last 1 * win4_2.size 1 + win4_2.xsize (grid4.coords cols4_last) 1
        rw [cols4_windex2 cols4_last 1, (cols4_xsize2 cols4_last).2]; omega⟩

end Cert.KernelIdeal.Hand

end
-- ==== Proof.KI.R4RowsValue.lean ====
import proofs.«164122_j44229573214371_1_alg».proof.Proof.KI.R4
import proofs.«164122_j44229573214371_1_alg».proof.Proof.KI.R0Value
import proofs.«164122_j44229573214371_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

section Any

variable {F : FTy → Type} [FloatOps F]
variable (V : (c : Dev nD) → (b : Ref sig .tc) → Buf (Elt F) ((c : Thread nD τ).loc b))

theorem rows4_step (c : Dev nD) (n : ℕ) (h : n + 1 < cfg4.N) (hn : ¬(n + 1) % 8 = 0) :
    rs4 V c (n + 1) h = k4_pay3 (blk4 V c 0 ⟨n + 1, h⟩) (rs4 V c n (Nat.lt_of_succ_lt h)) :=
  congrArg (k4_pay3 (blk4 V c 0 ⟨n + 1, h⟩)) (if_neg hn)

theorem rows4_idx_mat : ∀ t : Fin cfg4.N, win4_0.index t 0 = t.val / 8 ∧ win4_0.index t 1 = t.val % 8 :=
  (by decide +kernel : ∀ t : Fin grid4.N, win4_0.index t 0 = t.val / 8 ∧ win4_0.index t 1 = t.val % 8)

theorem rows4_idx_col : ∀ t : Fin cfg4.N, win4_1.index t 0 = t.val / 8 ∧ win4_1.index t 1 = 0 :=
  (by decide +kernel : ∀ t : Fin grid4.N, win4_1.index t 0 = t.val / 8 ∧ win4_1.index t 1 = 0)

abbrev rows4_mat (c : Dev nD) : Vec F S8192x8192 .f32 := V c main_arg3

theorem rows4_blk_apply (c : Dev nD) (t : Fin cfg4.N) (r q : Fin 1024) (R Q : Fin 8192)
    (hR : R.val = 1024 * (t.val / 8) + r.val) (hQ : Q.val = 1024 * (t.val % 8) + q.val) :
    (blk4 (F := F) V c 0 t : Vec F S1024x1024 .f32) (ix2 r q) = rows4_mat V c (ix2 R Q) := by
  unfold blk4
  rw [View.read_apply]
  show V c main_arg3 _ = V c main_arg3 _
  congr 1
  funext a
  apply Fin.ext
  match a with
  | ⟨0, _⟩ => show win4_0.index t 0 * 1024 + 1 * r.val = R.val; rw [(rows4_idx_mat t).1, hR]; omega
  | ⟨1, _⟩ => show win4_0.index t 1 * 1024 + 1 * q.val = Q.val; rw [(rows4_idx_mat t).2, hQ]; omega

end Any

section Reals

variable (V : (c : Dev nD) → (b : Ref sig .tc) → Buf (Elt Ideal) ((c : Thread nD τ).loc b))

theorem rows4_last (c : Dev nD) (t : Fin cfg4.N) (h7 : t.val % 8 = 7) (r : Fin 1024) (z : Fin 1) (R : Fin 8192)
    (hR : R.val = 1024 * (t.val / 8) + r.val) :
    rs4 (F := Ideal) V c t.val t.isLt (ix2 r z) = Cert.Spec.rowSumAt (rows4_mat V c) R :=
  rs_last _ (blk4 V c 0) (rs4 V c) (rows4_blk_apply V c) (rs4_reset V c) (rows4_step V c) t h7 r z R hR

theorem rows4_flushed_eq (c : Dev nD) (t : Fin cfg4.N) (hf : (cfg4.win 1).flush t = true) :
    (dat4 (F := Ideal) V c).flushed 1 t
      = ((cfg4.win 1).blk t).view.read (Elt Ideal) (Cert.Spec.rowSums (rows4_mat V c)) := by
  have h7 : t.val % 8 = 7 := (flush4_1 t).mp hf
  funext y
  rw [View.read_apply]
  show (dat4 V c).after 1 t ((cfg4.win 1).xinj (grid4.coords t) y)
    = Cert.Spec.rowSums (rows4_mat V c) (((cfg4.win 1).blk t).view.emb y)
  rw [after4_1]
  have e : ((cfg4.win 1).xinj (grid4.coords t) y : S1024x1.Idx)
      = ix2 (⟨(y 0).val, (y 0).isLt⟩ : Fin 1024) (⟨(y 1).val, (y 1).isLt⟩ : Fin 1) := Shape.idx_ext₂ rfl rfl
  refine (congrArg (rs4 (F := Ideal) V c t.val t.isLt) e).trans ?_
  refine rows4_last V c t h7 _ _ ((((cfg4.win 1).blk t).view.emb y) 0) ?_
  show win4_1.index t 0 * 1024 + 1 * (y 0).val = 1024 * (t.val / 8) + (y 0).val
  rw [(rows4_idx_col t).1]; omega

theorem arrAt4_rows (c : Dev nD) : (dat4 (F := Ideal) V c).arrAt 1 cfg4.N = Cert.Spec.rowSums (V c main_arg3) :=
  (dat4 V c).arrAt_eq_of_cover 1 (Cert.Spec.rowSums (rows4_mat V c)) (rows4_flushed_eq V c) fun i => by
    have h0 : (i 0 : ℕ) < 8192 := (i 0).isLt
    have h1 : (i 1 : ℕ) < 1 := (i 1).isLt
    have hN : 8 * ((i 0 : ℕ) / 1024) + 7 < cfg4.N := lt_of_lt_of_eq (by omega) (N_4.symm : 64 = cfg4.N)
    refine ⟨⟨8 * ((i 0 : ℕ) / 1024) + 7, hN⟩, (flush4_1 _).mpr (by show (8 * ((i 0 : ℕ) / 1024) + 7) % 8 = 7; omega), ?_⟩
    show i ∈ ((View.whole main_v16_0).slice (win4_1.rect ⟨8 * ((i 0 : ℕ) / 1024) + 7, hN⟩)).set
    rw [View.set_slice_whole, Rect.mem_set_unit]
    intro a
    match a with
    | ⟨0, _⟩ =>
      show win4_1.index ⟨8 * ((i 0 : ℕ) / 1024) + 7, hN⟩ 0 * 1024 ≤ (i 0 : ℕ)
        ∧ (i 0 : ℕ) < win4_1.index ⟨8 * ((i 0 : ℕ) / 1024) + 7, hN⟩ 0 * 1024 + 1024
      rw [(rows4_idx_col _).1]; dsimp only; omega
    | ⟨1, _⟩ =>
      show win4_1.index ⟨8 * ((i 0 : ℕ) / 1024) + 7, hN⟩ 1 * 1 ≤ (i 1 : ℕ)
        ∧ (i 1 : ℕ) < win4_1.index ⟨8 * ((i 0 : ℕ) / 1024) + 7, hN⟩ 1 * 1 + 1
      rw [(rows4_idx_col _).2]; omega

end Reals

end Cert.KernelIdeal.Hand

end
-- ==== Proof.KI.R5Value.lean ====
import proofs.«164122_j44229573214371_1_alg».proof.Proof.KI.R5
import proofs.«164122_j44229573214371_1_alg».proof.Proof.KI.R1Value
import proofs.«164122_j44229573214371_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

section Blocks

variable {F : FTy → Type} [FloatOps F]
variable (V : (c : Dev nD) → (b : Ref sig .tc) → Buf (Elt F) ((c : Thread nD τ).loc b))

theorem idx5_0 : ∀ t : Fin cfg5.N, win5_0.index t (0 : Fin 2) = t.val / 8 ∧ win5_0.index t (1 : Fin 2) = t.val % 8 :=
  (by decide +kernel : ∀ t : Fin grid5.N, _)
theorem idx5_1 : ∀ t : Fin cfg5.N, win5_1.index t (0 : Fin 2) = t.val % 8 ∧ win5_1.index t (1 : Fin 2) = 0 :=
  (by decide +kernel : ∀ t : Fin grid5.N, _)
theorem idx5_2 : ∀ t : Fin cfg5.N, win5_2.index t (0 : Fin 2) = t.val / 8 ∧ win5_2.index t (1 : Fin 2) = 0 :=
  (by decide +kernel : ∀ t : Fin grid5.N, _)
theorem idx5_3 : ∀ t : Fin cfg5.N, win5_3.index t (0 : Fin 2) = t.val / 8 ∧ win5_3.index t (1 : Fin 2) = 0 :=
  (by decide +kernel : ∀ t : Fin grid5.N, _)

theorem adj5_apply (c : Dev nD) (t : Fin cfg5.N) (x : S1024x1024.Idx) (k : S8192x8192.Idx)
    (hk0 : (k 0).val = 1024 * (t.val / 8) + (x 0).val) (hk1 : (k 1).val = 1024 * (t.val % 8) + (x 1).val) :
    adj5 V c t x = (V c main_arg3 : S8192x8192.Idx → Elt F .f32) k := by
  have hi := idx5_0 t
  unfold adj5 blk5
  rw [View.read_apply]
  show V c main_arg3 _ = V c main_arg3 _
  congr 1
  funext a
  apply Fin.ext
  match a with
  | ⟨0, _⟩ => show win5_0.index t 0 * 1024 + 1 * (x 0).val = (k 0).val; rw [hi.1, hk0]; omega
  | ⟨1, _⟩ => show win5_0.index t 1 * 1024 + 1 * (x 1).val = (k 1).val; rw [hi.2, hk1]; omega

theorem sup5_apply (c : Dev nD) (t : Fin cfg5.N) (x : S1024x32.Idx) (k : S8192x32.Idx)
    (hk0 : (k 0).val = 1024 * (t.val % 8) + (x 0).val) (hk1 : (k 1).val = (x 1).val) :
    sup5 V c t x = (V c main_v23 : S8192x32.Idx → Elt F .f32) k := by
  have hi := idx5_1 t
  unfold sup5 blk5
  rw [View.read_apply]
  show V c main_v23 _ = V c main_v23 _
  congr 1
  funext a
  apply Fin.ext
  match a with
  | ⟨0, _⟩ => show win5_1.index t 0 * 1024 + 1 * (x 0).val = (k 0).val; rw [hi.1, hk0]; omega
  | ⟨1, _⟩ => show win5_1.index t 1 * 32 + 1 * (x 1).val = (k 1).val; rw [hi.2, hk1]; omega

theorem rsc5_apply (c : Dev nD) (t : Fin cfg5.N) (x : S1024x1.Idx) (k : S8192x1.Idx)
    (hk0 : (k 0).val = 1024 * (t.val / 8) + (x 0).val) :
    rsc5 V c t x = (V c main_v17 : S8192x1.Idx → Elt F .f32) k := by
  have hi := idx5_2 t
  unfold rsc5 blk5
  rw [View.read_apply]
  show V c main_v17 _ = V c main_v17 _
  congr 1
  funext a
  apply Fin.ext
  match a with
  | ⟨0, _⟩ => show win5_2.index t 0 * 1024 + 1 * (x 0).val = (k 0).val; rw [hi.1, hk0]; omega
  | ⟨1, _⟩ =>
    show win5_2.index t 1 * 1 + 1 * (x 1).val = (k 1).val
    have h1 : (x 1).val < 1 := (x 1).isLt
    have h2 : (k 1).val < 1 := (k 1).isLt
    rw [hi.2]; omega

end Blocks

section Value

variable (V : (c : Dev nD) → (b : Ref sig .tc) → Buf (Elt Ideal) ((c : Thread nD τ).loc b))

abbrev arrA5 (c : Dev nD) : Cert.Spec.Arr 8192 8192 := V c main_arg3
abbrev arrS5 (c : Dev nD) : Cert.Spec.Arr 8192 32 := V c main_v23
abbrev arrR5 (c : Dev nD) : Cert.Spec.Arr 8192 1 := V c main_v17

theorem out5_entry (c : Dev nD) (t : Fin cfg5.N) (h7 : t.val % 8 = 7) (r : Fin 1024) (d : Fin 32) :
    k1_pay3 (F := Ideal) (acc5 V c t.val t.isLt) (rsc5 V c t) (ix2 r d)
      = Cert.Spec.scaledProductAt (arrA5 V c) (arrS5 V c) (arrR5 V c) (rowOf t.val r) d :=
  out_entry N_5 _ _ _ (adj5 V c) (sup5 V c) (rsc5 V c) (acc5 V c) (adj5_apply V c) (sup5_apply V c) (rsc5_apply V c)
    (acc5_first V c) (acc5_next V c) t h7 r d

theorem flushed5_eq (c : Dev nD) (t : Fin cfg5.N) (hf : (cfg5.win 3).flush t = true) :
    (dat5 (F := Ideal) V c).flushed 3 t
      = ((cfg5.win 3).blk t).view.read (Elt Ideal) (Cert.Spec.scaledProduct (arrA5 V c) (arrS5 V c) (arrR5 V c)) := by
  have h7 : t.val % 8 = 7 := (flush5_3 t).mp hf
  have hN : t.val < 64 := lt_of_lt_of_eq t.isLt (show cfg5.N = 64 from N_5)
  have hi := idx5_3 t
  show (cfg5.win 3).cut (grid5.coords t) ((dat5 V c).after 3 t) = _
  rw [after5_3]
  funext y
  have hy0 : (y 0).val < 1024 := (y 0).isLt
  have hy : (y : S1024x32.Idx) = ix2 (y 0) (y 1) := eq_ix2 y
  have hemb : (((cfg5.win 3).blk t).view.emb y : S8192x32.Idx) = ix2 (rowOf t.val (y 0)) (y 1) := by
    funext a; apply Fin.ext
    match a with
    | ⟨0, _⟩ =>
      show win5_3.index t 0 * 1024 + 1 * (y 0).val = (1024 * (t.val / 8) + (y 0).val) % 8192
      rw [hi.1]; omega
    | ⟨1, _⟩ =>
      show win5_3.index t 1 * 32 + 1 * (y 1).val = (y 1).val
      rw [hi.2]; omega
  show k1_pay3 (F := Ideal) (acc5 V c t.val t.isLt) (rsc5 V c t) y
      = Cert.Spec.scaledProduct (arrA5 V c) (arrS5 V c) (arrR5 V c) (((cfg5.win 3).blk t).view.emb y)
  rw [hemb]
  refine (congrArg (k1_pay3 (F := Ideal) (acc5 V c t.val t.isLt) (rsc5 V c t)) hy).trans ?_
  exact out5_entry V c t h7 (y 0) (y 1)

theorem mem_blk5_3 (t : Fin cfg5.N) (i : S8192x32.Idx) :
    i ∈ ((cfg5.win 3).blk t).view.set ↔ ∀ a : Fin 2, win5_3.index t a * S1024x32.size a ≤ (i a).val ∧ (i a).val < win5_3.index t a * S1024x32.size a + S1024x32.size a := by
  show i ∈ ((View.whole main_v24).slice (win5_3.rect t)).set ↔ _
  rw [View.set_slice_whole, Rect.mem_set_unit]
  exact Iff.rfl

theorem cover5_3 (i : S8192x32.Idx) :
    ∃ t : Fin cfg5.N, (cfg5.win 3).flush t = true ∧ i ∈ ((cfg5.win 3).blk t).view.set := by
  have h0 : (i 0).val < 8192 := (i 0).isLt
  have h1 : (i 1).val < 32 := (i 1).isLt
  have hN : cfg5.N = 64 := N_5
  have hlt : 8 * ((i 0).val / 1024) + 7 < cfg5.N := by omega
  have hi : win5_3.index ⟨8 * ((i 0).val / 1024) + 7, hlt⟩ (0 : Fin 2) = (8 * ((i 0).val / 1024) + 7) / 8
      ∧ win5_3.index ⟨8 * ((i 0).val / 1024) + 7, hlt⟩ (1 : Fin 2) = 0 := idx5_3 ⟨8 * ((i 0).val / 1024) + 7, hlt⟩
  refine ⟨⟨8 * ((i 0).val / 1024) + 7, hlt⟩, (flush5_3 _).mpr (by show (8 * ((i 0).val / 1024) + 7) % 8 = 7; omega), ?_⟩
  rw [mem_blk5_3]
  intro a
  match a with
  | ⟨0, _⟩ =>
    show win5_3.index ⟨8 * ((i 0).val / 1024) + 7, hlt⟩ (0 : Fin 2) * 1024 ≤ (i 0).val
      ∧ (i 0).val < win5_3.index ⟨8 * ((i 0).val / 1024) + 7, hlt⟩ (0 : Fin 2) * 1024 + 1024
    rw [hi.1]; omega
  | ⟨1, _⟩ =>
    show win5_3.index ⟨8 * ((i 0).val / 1024) + 7, hlt⟩ (1 : Fin 2) * 32 ≤ (i 1).val
      ∧ (i 1).val < win5_3.index ⟨8 * ((i 0).val / 1024) + 7, hlt⟩ (1 : Fin 2) * 32 + 32
    rw [hi.2]; omega

theorem arrAt5_out (c : Dev nD) :
    (dat5 (F := Ideal) V c).arrAt 3 cfg5.N = Cert.Spec.scaledProduct (V c main_arg3) (V c main_v23) (V c main_v17) :=
  (dat5 V c).arrAt_eq_of_cover 3 (Cert.Spec.scaledProduct (arrA5 V c) (arrS5 V c) (arrR5 V c)) (flushed5_eq V c) cover5_3

end Value

end Cert.KernelIdeal.Hand

end
-- ==== Proof.KI.Values.lean ====
import proofs.«164122_j44229573214371_1_alg».proof.Proof.KI.Run
import proofs.«164122_j44229573214371_1_alg».proof.Proof.KI.HostValue
import proofs.«164122_j44229573214371_1_alg».proof.Proof.KI.R0Value
import proofs.«164122_j44229573214371_1_alg».proof.Proof.KI.R1Value
import proofs.«164122_j44229573214371_1_alg».proof.Proof.KI.R2Value
import proofs.«164122_j44229573214371_1_alg».proof.Proof.KI.R3Value
import proofs.«164122_j44229573214371_1_alg».proof.Proof.KI.R4Value
import proofs.«164122_j44229573214371_1_alg».proof.Proof.KI.R4RowsValue
import proofs.«164122_j44229573214371_1_alg».proof.Proof.KI.R5Value

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

theorem left0 : outs m 1 main_v0 c = Cert.Spec.rowSums (V0 m c main_arg2) := by
  have e : V1 m (outs m) c main_v0 = outs m 1 main_v0 c := by simp only [V1, Function.update_self]
  exact (e.symm.trans (hF0 m c 1).symm).trans (arrAt0_out (rd (ent0 m)) c)

theorem left1 : outs m 3 main_v7 c
    = Cert.Spec.scaledProduct (V2 m (outs m) c main_arg2) (V2 m (outs m) c main_v6) (V2 m (outs m) c main_v3) := by
  have e : V3 m (outs m) c main_v7 = outs m 3 main_v7 c := by simp only [V3, Function.update_self]
  exact (e.symm.trans (hF1 m c 3).symm).trans (arrAt1_out (rd (ent1 m)) c)

theorem left2 : outs m 4 main_v8 c = Cert.Spec.rowSums (V3 m (outs m) c main_arg4) := by
  have e : V4 m (outs m) c main_v8 = outs m 4 main_v8 c := by simp only [V4, Function.update_self]
  exact (e.symm.trans (hF2 m c 1).symm).trans (arrAt2_out (rd (ent2 m)) c)

theorem left3 : outs m 6 main_v15 c
    = Cert.Spec.scaledProduct (V5 m (outs m) c main_arg4) (V5 m (outs m) c main_v14) (V5 m (outs m) c main_v11) := by
  have e : V6 m (outs m) c main_v15 = outs m 6 main_v15 c := by simp only [V6, Function.update_self]
  exact (e.symm.trans (hF3 m c 3).symm).trans (arrAt3_out (rd (ent3 m)) c)

theorem left4r : outs m 7 main_v16_0 c = Cert.Spec.rowSums (V6 m (outs m) c main_arg3) := by
  have e : V7 m (outs m) c main_v16_0 = outs m 7 main_v16_0 c := by
    simp only [V7]
    rw [Function.update_of_ne (StableHlo.devRef_ne_of_ne (by decide) : (Proc.devRef .tc main_v16_0 : DevRef τ sig) ≠ Proc.devRef .tc main_v16_1),
      Function.update_self]
  exact (e.symm.trans (hF4 m c 1).symm).trans (arrAt4_rows (rd (ent4 m)) c)

theorem left4c : outs m 7 main_v16_1 c = Cert.Spec.colSums (V6 m (outs m) c main_arg3) := by
  have e : V7 m (outs m) c main_v16_1 = outs m 7 main_v16_1 c := by simp only [V7, Function.update_self]
  exact (e.symm.trans (hF4 m c 2).symm).trans (arrAt4_cols (rd (ent4 m)) c)

theorem left5 : outs m 9 main_v24 c
    = Cert.Spec.scaledProduct (V8 m (outs m) c main_arg3) (V8 m (outs m) c main_v23) (V8 m (outs m) c main_v17) := by
  have e : V9 m (outs m) c main_v24 = outs m 9 main_v24 c := by simp only [V9, Function.update_self]
  exact (e.symm.trans (hF5 m c 3).symm).trans (arrAt5_out (rd (ent5 m)) c)

-- The idealized kernel's results as functions of its arguments, for the comparison with the reference.
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
          = Cert.Model.gcnS (m ((c.tc : Thread nD τ).loc main_arg2)) (m ((c.tc : Thread nD τ).loc main_arg0)) (m ((c.tc : Thread nD τ).loc main_arg5))
      ∧ r.2.mem ((c.tc : Thread nD τ).loc main_v51)
          = tailSum (Cert.Model.gcnS (m ((c.tc : Thread nD τ).loc main_arg4)) (m ((c.tc : Thread nD τ).loc main_arg1)) (m ((c.tc : Thread nD τ).loc main_arg5)))
              (Cert.Model.gcnC (m ((c.tc : Thread nD τ).loc main_arg3)) (m ((c.tc : Thread nD τ).loc main_arg0)) (m ((c.tc : Thread nD τ).loc main_arg6)) (m ((c.tc : Thread nD τ).loc main_arg8)))
              (m ((c.tc : Thread nD τ).loc main_arg1)) (m ((c.tc : Thread nD τ).loc main_arg9)) (m ((c.tc : Thread nD τ).loc main_arg10))
      ∧ r.2.mem ((c.tc : Thread nD τ).loc main_v47)
          = tailYc (Cert.Model.gcnS (m ((c.tc : Thread nD τ).loc main_arg4)) (m ((c.tc : Thread nD τ).loc main_arg1)) (m ((c.tc : Thread nD τ).loc main_arg5)))
              (Cert.Model.gcnC (m ((c.tc : Thread nD τ).loc main_arg3)) (m ((c.tc : Thread nD τ).loc main_arg0)) (m ((c.tc : Thread nD τ).loc main_arg6)) (m ((c.tc : Thread nD τ).loc main_arg8)))
              (m ((c.tc : Thread nD τ).loc main_arg1)) (m ((c.tc : Thread nD τ).loc main_arg9)) (m ((c.tc : Thread nD τ).loc main_arg10))
      ∧ r.2.mem ((c.tc : Thread nD τ).loc main_v50)
          = tailYu (Cert.Model.gcnS (m ((c.tc : Thread nD τ).loc main_arg4)) (m ((c.tc : Thread nD τ).loc main_arg1)) (m ((c.tc : Thread nD τ).loc main_arg5)))
              (Cert.Model.gcnC (m ((c.tc : Thread nD τ).loc main_arg3)) (m ((c.tc : Thread nD τ).loc main_arg0)) (m ((c.tc : Thread nD τ).loc main_arg6)) (m ((c.tc : Thread nD τ).loc main_arg8)))
              (m ((c.tc : Thread nD τ).loc main_arg1)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v7 (by decide))).trans
        (val_u m (outs m) c (left0 m c) (left1 m c) (left2 m c) (left3 m c) (left4r m c) (left4c m c) (left5 m c)),
     (h c _ (mem_uc main_v51 (by decide))).trans
        (val_sum m (outs m) c (left0 m c) (left1 m c) (left2 m c) (left3 m c) (left4r m c) (left4c m c) (left5 m c)),
     (h c _ (mem_uc main_v47 (by decide))).trans
        (val_yc m (outs m) c (left0 m c) (left1 m c) (left2 m c) (left3 m c) (left4r m c) (left4c m c) (left5 m c)),
     (h c _ (mem_uc main_v50 (by decide))).trans
        (val_yu m (outs m) c (left0 m c) (left1 m c) (left2 m c) (left3 m c) (left4r m c) (left4c m c) (left5 m c)),
     (h c _ (mem_uc main_arg0 (by decide))).trans (V14_main_arg0 m (outs m) c),
     (h c _ (mem_uc main_arg1 (by decide))).trans (V14_main_arg1 m (outs m) c),
     (h c _ (mem_uc main_arg2 (by decide))).trans (V14_main_arg2 m (outs m) c),
     (h c _ (mem_uc main_arg3 (by decide))).trans (V14_main_arg3 m (outs m) c),
     (h c _ (mem_uc main_arg4 (by decide))).trans (V14_main_arg4 m (outs m) c),
     (h c _ (mem_uc main_arg5 (by decide))).trans (V14_main_arg5 m (outs m) c),
     (h c _ (mem_uc main_arg6 (by decide))).trans (V14_main_arg6 m (outs m) c),
     (h c _ (mem_uc main_arg7 (by decide))).trans (V14_main_arg7 m (outs m) c),
     (h c _ (mem_uc main_arg8 (by decide))).trans (V14_main_arg8 m (outs m) c),
     (h c _ (mem_uc main_arg9 (by decide))).trans (V14_main_arg9 m (outs m) c),
     (h c _ (mem_uc main_arg10 (by decide))).trans (V14_main_arg10 m (outs m) c)⟩) (run_all m ρ)

end Cert.KernelIdeal.Hand

end
-- ==== Proof.Ref.Value.lean ====
import proofs.«164122_j44229573214371_1_alg».proof.Proof.Gen.ReferenceIdeal.Run
import proofs.«164122_j44229573214371_1_alg».proof.Proof.Gen.ReferenceIdeal.Read
import proofs.«164122_j44229573214371_1_alg».proof.Proof.Tail
import proofs.«164122_j44229573214371_1_alg».proof.Proof.Spec
import proofs.«164122_j44229573214371_1_alg».proof.Proof.Model

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

open Cert.KernelIdeal.Hand (tailWeights tailYc tailYu tailSum)

theorem stage_sum_eq_tail (x0 x1 : FVec F S8192x32 .f32) (x3 x4 : FVec F S8192x8192 .f32)
    (x5 x6 x8 : FVec F S32x32 .f32) (x9 : FVec F S64x32 .f32) (x10 : FVec F S32x1 .f32) :
    Read.val_main_v63 (F := F) x0 x1 x3 x4 x5 x6 x8 x9 x10
      = tailSum (Read.val_main_v23 (F := F) x1 x4 x5) (Read.val_main_v36 (F := F) x0 x3 x6 x8) x1 x9 x10 := rfl

theorem stage_yc_eq_tail (x0 x1 : FVec F S8192x32 .f32) (x3 x4 : FVec F S8192x8192 .f32)
    (x5 x6 x8 : FVec F S32x32 .f32) (x9 : FVec F S64x32 .f32) (x10 : FVec F S32x1 .f32) :
    Read.val_main_v59 (F := F) x0 x1 x3 x4 x5 x6 x8 x9 x10
      = tailYc (Read.val_main_v23 (F := F) x1 x4 x5) (Read.val_main_v36 (F := F) x0 x3 x6 x8) x1 x9 x10 := rfl

theorem stage_yu_eq_tail (x0 x1 : FVec F S8192x32 .f32) (x3 x4 : FVec F S8192x8192 .f32)
    (x5 x6 x8 : FVec F S32x32 .f32) (x9 : FVec F S64x32 .f32) (x10 : FVec F S32x1 .f32) :
    Read.val_main_v62 (F := F) x0 x1 x3 x4 x5 x6 x8 x9 x10
      = tailYu (Read.val_main_v23 (F := F) x1 x4 x5) (Read.val_main_v36 (F := F) x0 x3 x6 x8) x1 x9 x10 := rfl

theorem res_out1_eq (m : (ℓ : Loc nD τ sig) → Buf (Elt F) ℓ) (c : Dev nD) :
    Value.res_out1 m c
      = tailSum
          (Read.val_main_v23 (F := F) (m ((c.tc : Thread nD τ).loc main_arg1)) (m ((c.tc : Thread nD τ).loc main_arg4))
            (m ((c.tc : Thread nD τ).loc main_arg5)))
          (Read.val_main_v36 (F := F) (m ((c.tc : Thread nD τ).loc main_arg0)) (m ((c.tc : Thread nD τ).loc main_arg3))
            (m ((c.tc : Thread nD τ).loc main_arg6)) (m ((c.tc : Thread nD τ).loc main_arg8)))
          (m ((c.tc : Thread nD τ).loc main_arg1)) (m ((c.tc : Thread nD τ).loc main_arg9))
          (m ((c.tc : Thread nD τ).loc main_arg10)) :=
  (Read.val_main_v63_eq m c).trans (stage_sum_eq_tail _ _ _ _ _ _ _ _ _)

theorem res_out2_eq (m : (ℓ : Loc nD τ sig) → Buf (Elt F) ℓ) (c : Dev nD) :
    Value.res_out2 m c
      = tailYc
          (Read.val_main_v23 (F := F) (m ((c.tc : Thread nD τ).loc main_arg1)) (m ((c.tc : Thread nD τ).loc main_arg4))
            (m ((c.tc : Thread nD τ).loc main_arg5)))
          (Read.val_main_v36 (F := F) (m ((c.tc : Thread nD τ).loc main_arg0)) (m ((c.tc : Thread nD τ).loc main_arg3))
            (m ((c.tc : Thread nD τ).loc main_arg6)) (m ((c.tc : Thread nD τ).loc main_arg8)))
          (m ((c.tc : Thread nD τ).loc main_arg1)) (m ((c.tc : Thread nD τ).loc main_arg9))
          (m ((c.tc : Thread nD τ).loc main_arg10)) :=
  (Read.val_main_v59_eq m c).trans (stage_yc_eq_tail _ _ _ _ _ _ _ _ _)

theorem res_out3_eq (m : (ℓ : Loc nD τ sig) → Buf (Elt F) ℓ) (c : Dev nD) :
    Value.res_out3 m c
      = tailYu
          (Read.val_main_v23 (F := F) (m ((c.tc : Thread nD τ).loc main_arg1)) (m ((c.tc : Thread nD τ).loc main_arg4))
            (m ((c.tc : Thread nD τ).loc main_arg5)))
          (Read.val_main_v36 (F := F) (m ((c.tc : Thread nD τ).loc main_arg0)) (m ((c.tc : Thread nD τ).loc main_arg3))
            (m ((c.tc : Thread nD τ).loc main_arg6)) (m ((c.tc : Thread nD τ).loc main_arg8)))
          (m ((c.tc : Thread nD τ).loc main_arg1)) (m ((c.tc : Thread nD τ).loc main_arg9))
          (m ((c.tc : Thread nD τ).loc main_arg10)) :=
  (Read.val_main_v62_eq m c).trans (stage_yu_eq_tail _ _ _ _ _ _ _ _ _)

section ideal

theorem stage_selfScale (x2 : FVec Ideal S8192x8192 .f32) (i : Fin 8192) :
    Read.val_main_v3 (F := Ideal) x2 (ix1 i) = Cert.Model.selfScaleAt x2 i := by
  have e : ∀ k : Fin 8192, Read.idx_main_v0 (ix1 i) k = ix2 i k := fun k =>
    funext fun a => Fin.ext (by match a with | ⟨0, _⟩ => rfl | ⟨1, _⟩ => rfl)
  rw [Read.val_main_v3_apply, Read.val_main_v2_apply, Read.val_main_v1_apply, Read.val_main_cst_0_apply,
    Read.val_main_v0_apply, Read.val_main_cst_apply]
  simp only [e, Ideal.hostUnary_rsqrt_def, Ideal.addf_def, Ideal.ofBits_def, Ideal.ofBits_zero_f32, zero_add]
  rfl

theorem stage_selfScale_outer (x2 : FVec Ideal S8192x8192 .f32) (i : Fin 8192) (d : Fin 32) :
    Read.val_main_v10 (F := Ideal) x2 (ix2 i d) = Cert.Model.selfScaleAt x2 i := by
  have e : Read.idx_main_v5 (Read.idx_main_v10 (ix2 i d)) = ix1 i :=
    funext fun a => Fin.ext (by match a with | ⟨0, _⟩ => rfl)
  rw [Read.val_main_v10_apply, Read.val_main_v5_apply, e, stage_selfScale]

theorem stage_selfScale_inner (x2 : FVec Ideal S8192x8192 .f32) (k : Fin 8192) (d : Fin 32) :
    Read.val_main_v7 (F := Ideal) x2 (ix2 k d) = Cert.Model.selfScaleAt x2 k := by
  have e : Read.idx_main_v6 (Read.idx_main_v7 (ix2 k d)) = ix1 k :=
    funext fun a => Fin.ext (by match a with | ⟨0, _⟩ => rfl)
  rw [Read.val_main_v7_apply, Read.val_main_v6_apply, e, stage_selfScale]

theorem stage_support (x0 : FVec Ideal S8192x32 .f32) (x5 : FVec Ideal S32x32 .f32) (k : Fin 8192) (d : Fin 32) :
    Read.val_main_v4 (F := Ideal) x0 x5 (ix2 k d) = Cert.Model.projAt x0 x5 k d := by
  have el : ∀ q : Fin 32, Read.lidx_main_v4 (ix2 k d) q = ix2 k q := fun q =>
    funext fun a => Fin.ext (by match a with | ⟨0, _⟩ => rfl | ⟨1, _⟩ => rfl)
  have er : ∀ q : Fin 32, Read.ridx_main_v4 (ix2 k d) q = ix2 q d := fun q =>
    funext fun a => Fin.ext (by match a with | ⟨0, _⟩ => rfl | ⟨1, _⟩ => rfl)
  rw [Read.val_main_v4_apply]
  exact Finset.sum_congr rfl fun q _ => by rw [el, er]

theorem stage_scaledSupport (x0 : FVec Ideal S8192x32 .f32) (x2 : FVec Ideal S8192x8192 .f32)
    (x5 : FVec Ideal S32x32 .f32) (k : Fin 8192) (d : Fin 32) :
    Read.val_main_v8 (F := Ideal) x0 x2 x5 (ix2 k d)
      = Cert.Model.selfScaleAt x2 k * Cert.Model.projAt x0 x5 k d := by
  rw [Read.val_main_v8_apply, stage_selfScale_inner, stage_support, Ideal.mulf_def]

theorem stage_product (x0 : FVec Ideal S8192x32 .f32) (x2 : FVec Ideal S8192x8192 .f32)
    (x5 : FVec Ideal S32x32 .f32) (i : Fin 8192) (d : Fin 32) :
    Read.val_main_v9 (F := Ideal) x0 x2 x5 (ix2 i d)
      = ∑ k : Fin 8192, x2 (ix2 i k) * (Cert.Model.selfScaleAt x2 k * Cert.Model.projAt x0 x5 k d) := by
  have el : ∀ k : Fin 8192, Read.lidx_main_v9 (ix2 i d) k = ix2 i k := fun k =>
    funext fun a => Fin.ext (by match a with | ⟨0, _⟩ => rfl | ⟨1, _⟩ => rfl)
  have er : ∀ k : Fin 8192, Read.ridx_main_v9 (ix2 i d) k = ix2 k d := fun k =>
    funext fun a => Fin.ext (by match a with | ⟨0, _⟩ => rfl | ⟨1, _⟩ => rfl)
  rw [Read.val_main_v9_apply]
  exact Finset.sum_congr rfl fun k _ => by rw [el, er, stage_scaledSupport]

theorem ref_u (x0 : FVec Ideal S8192x32 .f32) (x2 : FVec Ideal S8192x8192 .f32) (x5 : FVec Ideal S32x32 .f32) :
    Read.val_main_v11 (F := Ideal) x0 x2 x5 = Cert.Model.gcnS x2 x0 x5 := by
  funext j
  obtain ⟨i, d, rfl⟩ : ∃ (i : Fin 8192) (d : Fin 32), j = ix2 i d := ⟨j 0, j 1, eq_ix2 j⟩
  rw [Read.val_main_v11_apply, stage_selfScale_outer, stage_product, Ideal.mulf_def, mul_comm]
  rfl

theorem stage_c1_eq_stage_u (x1 : FVec F S8192x32 .f32) (x4 : FVec F S8192x8192 .f32) (x5 : FVec F S32x32 .f32) :
    Read.val_main_v23 (F := F) x1 x4 x5 = Read.val_main_v11 (F := F) x1 x4 x5 := rfl

theorem ref_c1 (x1 : FVec Ideal S8192x32 .f32) (x4 : FVec Ideal S8192x8192 .f32) (x5 : FVec Ideal S32x32 .f32) :
    Read.val_main_v23 (F := Ideal) x1 x4 x5 = Cert.Model.gcnS x4 x1 x5 :=
  (stage_c1_eq_stage_u x1 x4 x5).trans (ref_u x1 x4 x5)

theorem stage_rowScale (x3 : FVec Ideal S8192x8192 .f32) (i : Fin 8192) :
    Read.val_main_v25 (F := Ideal) x3 (ix1 i) = Cert.Model.rowScaleAt x3 i := by
  have e : ∀ k : Fin 8192, Read.idx_main_v24 (ix1 i) k = ix2 i k := fun k =>
    funext fun a => Fin.ext (by match a with | ⟨0, _⟩ => rfl | ⟨1, _⟩ => rfl)
  rw [Read.val_main_v25_apply, Read.val_main_v24_apply, Read.val_main_cst_3_apply]
  simp only [e, Ideal.hostUnary_rsqrt_def, Ideal.ofBits_def, Ideal.ofBits_zero_f32, zero_add]
  rfl

theorem stage_colScale (x3 : FVec Ideal S8192x8192 .f32) (k : Fin 8192) :
    Read.val_main_v27 (F := Ideal) x3 (ix1 k) = Cert.Model.colScaleAt x3 k := by
  have e : ∀ r : Fin 8192, Read.idx_main_v26 (ix1 k) r = ix2 r k := fun r =>
    funext fun a => Fin.ext (by match a with | ⟨0, _⟩ => rfl | ⟨1, _⟩ => rfl)
  rw [Read.val_main_v27_apply, Read.val_main_v26_apply, Read.val_main_cst_4_apply]
  simp only [e, Ideal.hostUnary_rsqrt_def, Ideal.ofBits_def, Ideal.ofBits_zero_f32, zero_add]
  rfl

theorem stage_rowScale_outer (x3 : FVec Ideal S8192x8192 .f32) (i : Fin 8192) (d : Fin 32) :
    Read.val_main_v35 (F := Ideal) x3 (ix2 i d) = Cert.Model.rowScaleAt x3 i := by
  have e : Read.idx_main_v30 (Read.idx_main_v35 (ix2 i d)) = ix1 i :=
    funext fun a => Fin.ext (by match a with | ⟨0, _⟩ => rfl)
  rw [Read.val_main_v35_apply, Read.val_main_v30_apply, e, stage_rowScale]

theorem stage_colScale_inner (x3 : FVec Ideal S8192x8192 .f32) (k : Fin 8192) (d : Fin 32) :
    Read.val_main_v32 (F := Ideal) x3 (ix2 k d) = Cert.Model.colScaleAt x3 k := by
  have e : Read.idx_main_v31 (Read.idx_main_v32 (ix2 k d)) = ix1 k :=
    funext fun a => Fin.ext (by match a with | ⟨0, _⟩ => rfl)
  rw [Read.val_main_v32_apply, Read.val_main_v31_apply, e, stage_colScale]

theorem stage_projected (x0 : FVec Ideal S8192x32 .f32) (x6 : FVec Ideal S32x32 .f32) (k : Fin 8192) (q : Fin 32) :
    Read.val_main_v28 (F := Ideal) x0 x6 (ix2 k q) = Cert.Model.projAt x0 x6 k q := by
  have el : ∀ p : Fin 32, Read.lidx_main_v28 (ix2 k q) p = ix2 k p := fun p =>
    funext fun a => Fin.ext (by match a with | ⟨0, _⟩ => rfl | ⟨1, _⟩ => rfl)
  have er : ∀ p : Fin 32, Read.ridx_main_v28 (ix2 k q) p = ix2 p q := fun p =>
    funext fun a => Fin.ext (by match a with | ⟨0, _⟩ => rfl | ⟨1, _⟩ => rfl)
  rw [Read.val_main_v28_apply]
  exact Finset.sum_congr rfl fun p _ => by rw [el, er]

theorem stage_support2 (x0 : FVec Ideal S8192x32 .f32) (x6 x8 : FVec Ideal S32x32 .f32) (k : Fin 8192) (d : Fin 32) :
    Read.val_main_v29 (F := Ideal) x0 x6 x8 (ix2 k d)
      = Cert.Model.projAt (Cert.Model.proj x0 x6) x8 k d := by
  have el : ∀ q : Fin 32, Read.lidx_main_v29 (ix2 k d) q = ix2 k q := fun q =>
    funext fun a => Fin.ext (by match a with | ⟨0, _⟩ => rfl | ⟨1, _⟩ => rfl)
  have er : ∀ q : Fin 32, Read.ridx_main_v29 (ix2 k d) q = ix2 q d := fun q =>
    funext fun a => Fin.ext (by match a with | ⟨0, _⟩ => rfl | ⟨1, _⟩ => rfl)
  rw [Read.val_main_v29_apply]
  exact Finset.sum_congr rfl fun q _ => by rw [el, er, stage_projected]; rfl

theorem stage_scaledSupport2 (x0 : FVec Ideal S8192x32 .f32) (x3 : FVec Ideal S8192x8192 .f32)
    (x6 x8 : FVec Ideal S32x32 .f32) (k : Fin 8192) (d : Fin 32) :
    Read.val_main_v33 (F := Ideal) x0 x3 x6 x8 (ix2 k d)
      = Cert.Model.colScaleAt x3 k * Cert.Model.projAt (Cert.Model.proj x0 x6) x8 k d := by
  rw [Read.val_main_v33_apply, stage_colScale_inner, stage_support2, Ideal.mulf_def]

theorem stage_product2 (x0 : FVec Ideal S8192x32 .f32) (x3 : FVec Ideal S8192x8192 .f32)
    (x6 x8 : FVec Ideal S32x32 .f32) (i : Fin 8192) (d : Fin 32) :
    Read.val_main_v34 (F := Ideal) x0 x3 x6 x8 (ix2 i d)
      = ∑ k : Fin 8192, x3 (ix2 i k)
          * (Cert.Model.colScaleAt x3 k * Cert.Model.projAt (Cert.Model.proj x0 x6) x8 k d) := by
  have el : ∀ k : Fin 8192, Read.lidx_main_v34 (ix2 i d) k = ix2 i k := fun k =>
    funext fun a => Fin.ext (by match a with | ⟨0, _⟩ => rfl | ⟨1, _⟩ => rfl)
  have er : ∀ k : Fin 8192, Read.ridx_main_v34 (ix2 i d) k = ix2 k d := fun k =>
    funext fun a => Fin.ext (by match a with | ⟨0, _⟩ => rfl | ⟨1, _⟩ => rfl)
  rw [Read.val_main_v34_apply]
  exact Finset.sum_congr rfl fun k _ => by rw [el, er, stage_scaledSupport2]

theorem ref_c2 (x0 : FVec Ideal S8192x32 .f32) (x3 : FVec Ideal S8192x8192 .f32) (x6 x8 : FVec Ideal S32x32 .f32) :
    Read.val_main_v36 (F := Ideal) x0 x3 x6 x8 = Cert.Model.gcnC x3 x0 x6 x8 := by
  funext j
  obtain ⟨i, d, rfl⟩ : ∃ (i : Fin 8192) (d : Fin 32), j = ix2 i d := ⟨j 0, j 1, eq_ix2 j⟩
  rw [Read.val_main_v36_apply, stage_rowScale_outer, stage_product2, Ideal.mulf_def, mul_comm]
  rfl

end ideal

section ideal

theorem tail_args_eq (x0 x1 : FVec Ideal S8192x32 .f32) (x3 x4 : FVec Ideal S8192x8192 .f32)
    (x5 x6 x8 : FVec Ideal S32x32 .f32)
    (T : FVec Ideal S8192x32 .f32 → FVec Ideal S8192x32 .f32 → FVec Ideal S8192x32 .f32) :
    T (Read.val_main_v23 (F := Ideal) x1 x4 x5) (Read.val_main_v36 (F := Ideal) x0 x3 x6 x8)
      = T (Cert.Model.gcnS x4 x1 x5) (Cert.Model.gcnC x3 x0 x6 x8) := by
  rw [ref_c1, ref_c2]

-- The reference's results as the same functions of its arguments.
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11)
          = Cert.Model.gcnS (m ((c.tc : Thread nD τ).loc main_arg2)) (m ((c.tc : Thread nD τ).loc main_arg0)) (m ((c.tc : Thread nD τ).loc main_arg5))
      ∧ r.2.mem ((c.tc : Thread nD τ).loc main_v63)
          = tailSum (Cert.Model.gcnS (m ((c.tc : Thread nD τ).loc main_arg4)) (m ((c.tc : Thread nD τ).loc main_arg1)) (m ((c.tc : Thread nD τ).loc main_arg5)))
            (Cert.Model.gcnC (m ((c.tc : Thread nD τ).loc main_arg3)) (m ((c.tc : Thread nD τ).loc main_arg0)) (m ((c.tc : Thread nD τ).loc main_arg6)) (m ((c.tc : Thread nD τ).loc main_arg8)))
            (m ((c.tc : Thread nD τ).loc main_arg1)) (m ((c.tc : Thread nD τ).loc main_arg9)) (m ((c.tc : Thread nD τ).loc main_arg10))
      ∧ r.2.mem ((c.tc : Thread nD τ).loc main_v59)
          = tailYc (Cert.Model.gcnS (m ((c.tc : Thread nD τ).loc main_arg4)) (m ((c.tc : Thread nD τ).loc main_arg1)) (m ((c.tc : Thread nD τ).loc main_arg5)))
            (Cert.Model.gcnC (m ((c.tc : Thread nD τ).loc main_arg3)) (m ((c.tc : Thread nD τ).loc main_arg0)) (m ((c.tc : Thread nD τ).loc main_arg6)) (m ((c.tc : Thread nD τ).loc main_arg8)))
            (m ((c.tc : Thread nD τ).loc main_arg1)) (m ((c.tc : Thread nD τ).loc main_arg9)) (m ((c.tc : Thread nD τ).loc main_arg10))
      ∧ r.2.mem ((c.tc : Thread nD τ).loc main_v62)
          = tailYu (Cert.Model.gcnS (m ((c.tc : Thread nD τ).loc main_arg4)) (m ((c.tc : Thread nD τ).loc main_arg1)) (m ((c.tc : Thread nD τ).loc main_arg5)))
            (Cert.Model.gcnC (m ((c.tc : Thread nD τ).loc main_arg3)) (m ((c.tc : Thread nD τ).loc main_arg0)) (m ((c.tc : Thread nD τ).loc main_arg6)) (m ((c.tc : Thread nD τ).loc main_arg8)))
            (m ((c.tc : Thread nD τ).loc main_arg1)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c).1.trans ((Read.val_main_v11_eq _ _ _).trans (ref_u _ _ _)),
        (h c).2.1.trans ((res_out1_eq m c).trans
          (tail_args_eq _ _ _ _ _ _ _ fun a b => tailSum a b (m ((c.tc : Thread nD τ).loc main_arg1)) (m ((c.tc : Thread nD τ).loc main_arg9)) (m ((c.tc : Thread nD τ).loc main_arg10)))),
        (h c).2.2.1.trans ((res_out2_eq m c).trans
          (tail_args_eq _ _ _ _ _ _ _ fun a b => tailYc a b (m ((c.tc : Thread nD τ).loc main_arg1)) (m ((c.tc : Thread nD τ).loc main_arg9)) (m ((c.tc : Thread nD τ).loc main_arg10)))),
        (h c).2.2.2.1.trans ((res_out3_eq m c).trans
          (tail_args_eq _ _ _ _ _ _ _ fun a b => tailYu a b (m ((c.tc : Thread nD τ).loc main_arg1)) (m ((c.tc : Thread nD τ).loc main_arg9)) (m ((c.tc : Thread nD τ).loc main_arg10)))),
        (h c).2.2.2.2⟩)
    (Value.run (F := Ideal) m ρ)

end ideal

end Cert.ReferenceIdeal.RefValue

end
-- ==== Proof.lean ====
import proofs.«164122_j44229573214371_1_alg».proof.Defs
import proofs.«164122_j44229573214371_1_alg».proof.Proof.Gen.Kernel
import proofs.«164122_j44229573214371_1_alg».proof.Proof.Gen.KernelIdeal
import proofs.«164122_j44229573214371_1_alg».proof.Proof.Gen.ReferenceIdeal
import proofs.«164122_j44229573214371_1_alg».proof.Proof.Gen.Pre_finite_inputs
import proofs.«164122_j44229573214371_1_alg».proof.Proof.K.Run
import proofs.«164122_j44229573214371_1_alg».proof.Proof.KI.Values
import proofs.«164122_j44229573214371_1_alg».proof.Proof.Ref.Value
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.RefValue.ref_run m ρ)

-- Both sides are the same functions of arguments that agree.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Hand.kernel_run m ρ, ?_⟩
  refine (θ_run Cert.ReferenceIdeal.defs _ _).mono (fun r h c => ?_) (Cert.ReferenceIdeal.RefValue.ref_run m' ρ')
  obtain ⟨h0, h1, h2, h3, hargs⟩ := h c
  obtain ⟨a0, a1, a2, a3, a4, a5, a6, a7, a8, a9, a10⟩ := hagree c
  refine ⟨h0.trans ?_, h1.trans ?_, h2.trans ?_, h3.trans ?_, hargs⟩
  · rw [a0, a2, a5]
  · rw [a0, a1, a3, a4, a5, a6, a8, a9, a10]
  · rw [a0, a1, a3, a4, a5, a6, a8, a9, a10]
  · rw [a0, a1, a3, a4, a5, a6, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
